-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32x64 : Shape := ⟨3, ![512, 32, 64]⟩
abbrev S512x32 : Shape := ⟨2, ![512, 32]⟩
abbrev S4096x64 : Shape := ⟨2, ![4096, 64]⟩
abbrev S64x64 : Shape := ⟨2, ![64, 64]⟩
abbrev S64 : Shape := ⟨1, ![64]⟩
abbrev S16384x16384 : Shape := ⟨2, ![16384, 16384]⟩
abbrev S512x1024 : Shape := ⟨2, ![512, 1024]⟩
abbrev S64x1024 : Shape := ⟨2, ![64, 1024]⟩
abbrev S1024 : Shape := ⟨1, ![1024]⟩
abbrev S1024x512 : Shape := ⟨2, ![1024, 512]⟩
abbrev S512x512 : Shape := ⟨2, ![512, 512]⟩
abbrev S512 : Shape := ⟨1, ![512]⟩
abbrev S16384 : Shape := ⟨1, ![16384]⟩
abbrev S_ : Shape := ⟨0, ![]⟩

class Facts : Prop where
  bcast_S_S512x32x64 : S_.BroadcastsInDim S512x32x64 (![] : Fin 0 → Fin S512x32x64.rank)
  reducesTo_S512x32x64_S_d0_1_2 : S512x32x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16384x16384 : S_.BroadcastsInDim S16384x16384 (![] : Fin 0 → Fin S16384x16384.rank)
  reducesTo_S16384x16384_S_d0_1 : S16384x16384.ReducesTo [0, 1] S_
  bcast_S_S512x1024 : S_.BroadcastsInDim S512x1024 (![] : Fin 0 → Fin S512x1024.rank)
  reducesTo_S512x1024_S_d0_1 : S512x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S16384 : S_.BroadcastsInDim S16384 (![] : Fin 0 → Fin S16384.rank)
  reducesTo_S16384_S_d0 : S16384.ReducesTo [0] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg15 : FVec F S512 .f32) (main_arg16 : FVec F S512 .f32) (main_arg17 : IVec S16384 32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_c_30 : IVec S_ 32 := constantI S_ 32 4294963200#32
  let main_v79 : IVec S16384 32 := broadcastInDim S16384 ![] bcast_S_S16384 main_c_30
  let main_v80 : IVec S16384 1 := cmpi .sge main_arg17 main_v79
  let main_c_31 : IVec S_ 32 := constantI S_ 32 4096#32
  let main_v81 : IVec S16384 32 := broadcastInDim S16384 ![] bcast_S_S16384 main_c_31
  let main_v82 : IVec S16384 1 := cmpi .slt main_arg17 main_v81
  let main_v83 : IVec S16384 1 := andi main_v80 main_v82
  let main_c_32 : IVec S_ 1 := constantI S_ 1 1#1
  let main_v84 : IVec S_ 1 := (fun x v => Host.reduce IntOp.andi x v reducesTo_S16384_S_d0 h_S_) main_v83 main_c_32
  fn_part5 (F := F) main_v78 main_v84

def fn_part3 {F : FTy → Type} [FloatOps F] (main_arg12 : FVec F S1024x512 .f32) (main_arg13 : FVec F S512x512 .f32) (main_arg14 : FVec F S512 .f32) (main_arg15 : FVec F S512 .f32) (main_arg16 : FVec F S512 .f32) (main_arg17 : IVec S16384 32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x512 .f32 := Host.absf main_arg12
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_v63 main_v67

def fn_part2 {F : FTy → Type} [FloatOps F] (main_arg8 : FVec F S512x1024 .f32) (main_arg9 : FVec F S512x1024 .f32) (main_arg10 : FVec F S64x1024 .f32) (main_arg11 : FVec F S1024 .f32) (main_arg12 : FVec F S1024x512 .f32) (main_arg13 : FVec F S512x512 .f32) (main_arg14 : FVec F S512 .f32) (main_arg15 : FVec F S512 .f32) (main_arg16 : FVec F S512 .f32) (main_arg17 : IVec S16384 32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512x1024 .f32 := Host.absf main_arg9
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S64x1024 .f32 := Host.absf main_arg10
  let main_cst_16 : FVec F S_ .f32 := constant S_ .f32 0x7F800000#32
  let main_v45 : FVec F S64x1024 .f32 := broadcastInDim S64x1024 ![] bcast_S_S64x1024 main_cst_16
  let main_v46 : IVec S64x1024 1 := cmpf .olt main_v44 main_v45
  let main_c_17 : IVec S_ 1 := constantI S_ 1 1#1
  let main_v47 : IVec S_ 1 := (fun x v => Host.reduce IntOp.andi x v reducesTo_S64x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_arg15 main_arg16 main_arg17 main_v48 main_v49 main_v50

def fn_part1 {F : FTy → Type} [FloatOps F] (main_arg5 : FVec F S64x64 .f32) (main_arg6 : FVec F S64 .f32) (main_arg7 : FVec F S16384x16384 .f32) (main_arg8 : FVec F S512x1024 .f32) (main_arg9 : FVec F S512x1024 .f32) (main_arg10 : FVec F S64x1024 .f32) (main_arg11 : FVec F S1024 .f32) (main_arg12 : FVec F S1024x512 .f32) (main_arg13 : FVec F S512x512 .f32) (main_arg14 : FVec F S512 .f32) (main_arg15 : FVec F S512 .f32) (main_arg16 : FVec F S512 .f32) (main_arg17 : IVec S16384 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16384x16384 .f32 := Host.absf main_arg7
  let main_cst_10 : FVec F S_ .f32 := constant S_ .f32 0x7F800000#32
  let main_v30 : FVec F S16384x16384 .f32 := broadcastInDim S16384x16384 ![] bcast_S_S16384x16384 main_cst_10
  let main_v31 : IVec S16384x16384 1 := cmpf .olt main_v29 main_v30
  let main_c_11 : IVec S_ 1 := constantI S_ 1 1#1
  let main_v32 : IVec S_ 1 := (fun x v => Host.reduce IntOp.andi x v reducesTo_S16384x16384_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S512x32x64 .f32) (main_arg1 : IVec S512x32 1) (main_arg2 : FVec F S4096x64 .f32) (main_arg3 : FVec F S64x64 .f32) (main_arg4 : FVec F S64 .f32) (main_arg5 : FVec F S64x64 .f32) (main_arg6 : FVec F S64 .f32) (main_arg7 : FVec F S16384x16384 .f32) (main_arg8 : FVec F S512x1024 .f32) (main_arg9 : FVec F S512x1024 .f32) (main_arg10 : FVec F S64x1024 .f32) (main_arg11 : FVec F S1024 .f32) (main_arg12 : FVec F S1024x512 .f32) (main_arg13 : FVec F S512x512 .f32) (main_arg14 : FVec F S512 .f32) (main_arg15 : FVec F S512 .f32) (main_arg16 : FVec F S512 .f32) (main_arg17 : IVec S16384 32) (main_arg18 : IVec S16384 32) : IVec S_ 1 :=
  let main_v0 : FVec F S512x32x64 .f32 := Host.absf main_arg0
  let main_cst : FVec F S_ .f32 := constant S_ .f32 0x7F800000#32
  let main_v1 : FVec F S512x32x64 .f32 := broadcastInDim S512x32x64 ![] bcast_S_S512x32x64 main_cst
  let main_v2 : IVec S512x32x64 1 := cmpf .olt main_v0 main_v1
  let main_c : IVec S_ 1 := constantI S_ 1 1#1
  let main_v3 : IVec S_ 1 := (fun x v => Host.reduce IntOp.andi x v reducesTo_S512x32x64_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S512x32x64 : Shape := ⟨3, ![512, 32, 64]⟩
abbrev S512x32 : Shape := ⟨2, ![512, 32]⟩
abbrev S4096x64 : Shape := ⟨2, ![4096, 64]⟩
abbrev S64x64 : Shape := ⟨2, ![64, 64]⟩
abbrev S64 : Shape := ⟨1, ![64]⟩
abbrev S16384x16384 : Shape := ⟨2, ![16384, 16384]⟩
abbrev S512x1024 : Shape := ⟨2, ![512, 1024]⟩
abbrev S64x1024 : Shape := ⟨2, ![64, 1024]⟩
abbrev S1024 : Shape := ⟨1, ![1024]⟩
abbrev S1024x512 : Shape := ⟨2, ![1024, 512]⟩
abbrev S512x512 : Shape := ⟨2, ![512, 512]⟩
abbrev S512 : Shape := ⟨1, ![512]⟩
abbrev S16384 : Shape := ⟨1, ![16384]⟩
abbrev S_ : Shape := ⟨0, ![]⟩
abbrev S512x1x1 : Shape := ⟨3, ![512, 1, 1]⟩
abbrev S512x1x64 : Shape := ⟨3, ![512, 1, 64]⟩
abbrev S512x1x64x1 : Shape := ⟨4, ![512, 1, 64, 1]⟩
abbrev S1 : Shape := ⟨1, ![1]⟩
abbrev S1x1x1x1 : Shape := ⟨4, ![1, 1, 1, 1]⟩
abbrev S512x64 : Shape := ⟨2, ![512, 64]⟩
abbrev S16384x1 : Shape := ⟨2, ![16384, 1]⟩
abbrev S1x1 : Shape := ⟨2, ![1, 1]⟩
abbrev S16384x64 : Shape := ⟨2, ![16384, 64]⟩
abbrev S1x64 : Shape := ⟨2, ![1, 64]⟩
abbrev S256x8192 : Shape := ⟨2, ![256, 8192]⟩
abbrev S256x64 : Shape := ⟨2, ![256, 64]⟩
abbrev S8192x64 : Shape := ⟨2, ![8192, 64]⟩
abbrev S1x16384 : Shape := ⟨2, ![1, 16384]⟩
abbrev S1024x64 : Shape := ⟨2, ![1024, 64]⟩
abbrev S2048x64 : Shape := ⟨2, ![2048, 64]⟩
abbrev S1x2048 : Shape := ⟨2, ![1, 2048]⟩
abbrev S1024x2048 : Shape := ⟨2, ![1024, 2048]⟩
abbrev S64x512 : Shape := ⟨2, ![64, 512]⟩
abbrev S1x512 : Shape := ⟨2, ![1, 512]⟩
abbrev S512x1 : Shape := ⟨2, ![512, 1]⟩
abbrev S1x1024 : Shape := ⟨2, ![1, 1024]⟩

abbrev nBuf : Space → Nat
  | .hbm => 149
  | .vmem => 23
  | .smem => 0
  | _ => 0

abbrev hbmTy0_0 (i : Nat) : BufTy := match i % 128 with
  | 0 => ⟨S512x32x64, .f32⟩
  | 1 => ⟨S512x32, .i1⟩
  | 2 => ⟨S4096x64, .f32⟩
  | 3 => ⟨S64x64, .f32⟩
  | 4 => ⟨S64, .f32⟩
  | 5 => ⟨S64x64, .f32⟩
  | 6 => ⟨S64, .f32⟩
  | 7 => ⟨S16384x16384, .f32⟩
  | 8 => ⟨S512x1024, .f32⟩
  | 9 => ⟨S512x1024, .f32⟩
  | 10 => ⟨S64x1024, .f32⟩
  | 11 => ⟨S1024, .f32⟩
  | 12 => ⟨S1024x512, .f32⟩
  | 13 => ⟨S512x512, .f32⟩
  | 14 => ⟨S512, .f32⟩
  | 15 => ⟨S512, .f32⟩
  | 16 => ⟨S512, .f32⟩
  | 17 => ⟨S16384, .i32⟩
  | 18 => ⟨S16384, .i32⟩
  | 19 => ⟨S512x32, .i32⟩
  | 20 => ⟨S_, .i32⟩
  | 21 => ⟨S512, .i32⟩
  | 22 => ⟨S_, .i32⟩
  | 23 => ⟨S512, .i32⟩
  | 24 => ⟨S512, .i32⟩
  | 25 => ⟨S_, .i32⟩
  | 26 => ⟨S512, .i32⟩
  | 27 => ⟨S512, .i1⟩
  | 28 => ⟨S_, .i32⟩
  | 29 => ⟨S_, .i32⟩
  | 30 => ⟨S512, .i32⟩
  | 31 => ⟨S512, .i32⟩
  | 32 => ⟨S512x1x1, .i32⟩
  | 33 => ⟨S512x1x64, .i32⟩
  | 34 => ⟨S_, .i32⟩
  | 35 => ⟨S512x1x64, .i32⟩
  | 36 => ⟨S512x1x64, .i1⟩
  | 37 => ⟨S_, .i32⟩
  | 38 => ⟨S512x1x64, .i32⟩
  | 39 => ⟨S512x1x64, .i32⟩
  | 40 => ⟨S512x1x64, .i32⟩
  | 41 => ⟨S512x1x64x1, .i32⟩
  | 42 => ⟨S1, .i32⟩
  | 43 => ⟨S_, .i32⟩
  | 44 => ⟨S512x1x64x1, .i32⟩
  | 45 => ⟨S512x1x64x1, .i1⟩
  | 46 => ⟨S1x1x1x1, .i32⟩
  | 47 => ⟨S512x1x64x1, .i32⟩
  | 48 => ⟨S512x1x64x1, .i1⟩
  | 49 => ⟨S512x1x64x1, .i1⟩
  | 50 => ⟨S_, .i1⟩
  | 51 => ⟨S512x1x64, .i1⟩
  | 52 => ⟨S512x1x64, .f32⟩
  | 53 => ⟨S_, .f32⟩
  | 54 => ⟨S512x1x64, .f32⟩
  | 55 => ⟨S512x1x64, .f32⟩
  | 56 => ⟨S512x64, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S1, .i32⟩
  | 66 => ⟨S_, .i32⟩
  | 67 => ⟨S16384x1, .i32⟩
  | 68 => ⟨S16384x1, .i1⟩
  | 69 => ⟨S1x1, .i32⟩
  | 70 => ⟨S16384x1, .i32⟩
  | 71 => ⟨S16384x1, .i1⟩
  | 72 => ⟨S16384x1, .i1⟩
  | 73 => ⟨S_, .i1⟩
  | 74 => ⟨S16384, .i1⟩
  | 75 => ⟨S16384x64, .f32⟩
  | 76 => ⟨S16384x64, .i1⟩
  | 77 => ⟨S_, .f32⟩
  | 78 => ⟨S16384x64, .f32⟩
  | 79 => ⟨S16384x64, .f32⟩
  | 80 => ⟨S16384x64, .f32⟩
  | 81 => ⟨S1x64, .f32⟩
  | 82 => ⟨S16384x64, .f32⟩
  | 83 => ⟨S16384x64, .f32⟩
  | 84 => ⟨S_, .f32⟩
  | 85 => ⟨S16384x64, .f32⟩
  | 86 => ⟨S16384x64, .f32⟩
  | 87 => ⟨S16384x64, .f32⟩
  | 88 => ⟨S16384x64, .f32⟩
  | 89 => ⟨S1x64, .f32⟩
  | 90 => ⟨S16384x64, .f32⟩
  | 91 => ⟨S16384x64, .f32⟩
  | 92 => ⟨S_, .f32⟩
  | 93 => ⟨S16384x64, .f32⟩
  | 94 => ⟨S16384x64, .f32⟩
  | 95 => ⟨S16384x64, .f32⟩
  | 96 => ⟨S1x16384, .i32⟩
  | 97 => ⟨S1024x64, .f32⟩
  | 98 => ⟨S512x64, .f32⟩
  | 99 => ⟨S64x512, .f32⟩
  | 100 => ⟨S512x512, .f32⟩
  | 101 => ⟨S512x512, .f32⟩
  | 102 => ⟨S512x512, .f32⟩
  | 103 => ⟨S_, .f32⟩
  | 104 => ⟨S512x512, .f32⟩
  | 105 => ⟨S512x512, .f32⟩
  | 106 => ⟨S_, .f32⟩
  | 107 => ⟨S512x512, .f32⟩
  | 108 => ⟨S512x512, .f32⟩
  | 109 => ⟨S512x512, .f32⟩
  | 110 => ⟨S512x512, .f32⟩
  | 111 => ⟨S1x512, .f32⟩
  | 112 => ⟨S512x512, .f32⟩
  | 113 => ⟨S512x512, .f32⟩
  | 114 => ⟨S_, .f32⟩
  | 115 => ⟨S512, .f32⟩
  | 116 => ⟨S512x1, .f32⟩
  | 117 => ⟨S_, .f32⟩
  | 118 => ⟨S512x1, .f32⟩
  | 119 => ⟨S512x1, .f32⟩
  | 120 => ⟨S512x512, .f32⟩
  | 121 => ⟨S512x512, .f32⟩
  | 122 => ⟨S512x512, .f32⟩
  | 123 => ⟨S_, .f32⟩
  | 124 => ⟨S512, .f32⟩
  | 125 => ⟨S512x1, .f32⟩
  | 126 => ⟨S_, .f32⟩
  | 127 => ⟨S512x1, .f32⟩
  | _ => ⟨S512x32x64, .f32⟩

abbrev hbmTy0_1 (i : Nat) : BufTy := match i % 128 with
  | 0 => ⟨S512x1, .f32⟩
  | 1 => ⟨S512x512, .f32⟩
  | 2 => ⟨S512x512, .f32⟩
  | 3 => ⟨S_, .f32⟩
  | 4 => ⟨S512x1, .f32⟩
  | 5 => ⟨S512x1, .f32⟩
  | 6 => ⟨S512x1, .f32⟩
  | 7 => ⟨S512x512, .f32⟩
  | 8 => ⟨S512x512, .f32⟩
  | 9 => ⟨S1x512, .f32⟩
  | 10 => ⟨S512x512, .f32⟩
  | 11 => ⟨S512x512, .f32⟩
  | 12 => ⟨S1x512, .f32⟩
  | 13 => ⟨S512x512, .f32⟩
  | 14 => ⟨S512x512, .f32⟩
  | 15 => ⟨S512x1024, .f32⟩
  | 16 => ⟨S1x1024, .f32⟩
  | 17 => ⟨S512x1024, .f32⟩
  | 18 => ⟨S512x1024, .f32⟩
  | 19 => ⟨S1024x512, .f32⟩
  | 20 => ⟨S512x512, .f32⟩
  | _ => ⟨S512x32x64, .f32⟩

abbrev hbmTy (i : Nat) : BufTy := match i / 128 with
  | 0 => hbmTy0_0 i
  | 1 => hbmTy0_1 i
  | _ => ⟨S512x32x64, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S16384x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x8192, .f32⟩
  | .local _ .vmem, ⟨7, _⟩ => ⟨S256x8192, .f32⟩
  | .local _ .vmem, ⟨8, _⟩ => ⟨S16384x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S2048x64, .f32⟩
  | .local _ .vmem, ⟨13, _⟩ => ⟨S2048x64, .f32⟩
  | .local _ .vmem, ⟨14, _⟩ => ⟨S1x2048, .i32⟩
  | .local _ .vmem, ⟨15, _⟩ => ⟨S1x2048, .i32⟩
  | .local _ .vmem, ⟨16, _⟩ => ⟨S1024x64, .f32⟩
  | .local _ .vmem, ⟨17, _⟩ => ⟨S1024x64, .f32⟩
  | .local _ .vmem, ⟨18, _⟩ => ⟨S512x1024, .f32⟩
  | .local _ .vmem, ⟨19, _⟩ => ⟨S1024x512, .f32⟩
  | .local _ .vmem, ⟨20, _⟩ => ⟨S1024x512, .f32⟩
  | .local _ .vmem, ⟨21, _⟩ => ⟨S512x512, .f32⟩
  | .local _ .vmem, ⟨22, _⟩ => ⟨S512x512, .f32⟩
  | _, _ => ⟨S512x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v9 : Ref sig .tc := ⟨.hbm, 55, rfl⟩
abbrev main_v10 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_call3_cst : Ref sig .tc := ⟨.hbm, 84, rfl⟩
abbrev main_call3_v0 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_call4_cst : Ref sig .tc := ⟨.hbm, 92, rfl⟩
abbrev main_call4_v0 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_cst : Ref sig .tc := ⟨.hbm, 103, rfl⟩
abbrev main_v31 : Ref sig .tc := ⟨.hbm, 104, rfl⟩
abbrev main_v32 : Ref sig .tc := ⟨.hbm, 105, rfl⟩
abbrev main_cst_3 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_4 : Ref sig .tc := ⟨.hbm, 114, rfl⟩
abbrev main_v40 : Ref sig .tc := ⟨.hbm, 115, rfl⟩
abbrev main_v41 : Ref sig .tc := ⟨.hbm, 116, rfl⟩
abbrev main_cst_5 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_cst_6 : Ref sig .tc := ⟨.hbm, 123, rfl⟩
abbrev main_v47 : Ref sig .tc := ⟨.hbm, 124, rfl⟩
abbrev main_v48 : Ref sig .tc := ⟨.hbm, 125, rfl⟩
abbrev main_cst_7 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_cst_8 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c8192_i32 : BitVec 32 := 8192#32
  let v3 : BitVec 32 := Scalar.muli arg1 c8192_i32
  v3
def k0_off1 (i : grid0.Coords) : Fin 2 → Nat :=
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def k0_mult2 (i : grid0.Coords) : BitVec 32 :=
  let arg0 : BitVec 32 := BitVec.ofNat 32 (i 0).val
  let c256_i32 : BitVec 32 := 256#32
  let v18 : BitVec 32 := Scalar.muli arg0 c256_i32
  v18
def k0_off2 (i : grid0.Coords) : Fin 2 → Nat :=
  let arg0 : BitVec 32 := BitVec.ofNat 32 (i 0).val
  let c256_i32 : BitVec 32 := 256#32
  let v18 : BitVec 32 := Scalar.muli arg0 c256_i32
  let v19 : BitVec 32 := v18
  let v20 : Index := Scalar.indexCast v19
  let c0_8 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![64, 2], ![false, false]⟩

def k1_mult1 (i : grid1.Coords) : BitVec 32 :=
  let arg1 : BitVec 32 := BitVec.ofNat 32 (i 1).val
  let c8192_i32 : BitVec 32 := 8192#32
  let v3 : BitVec 32 := Scalar.muli arg1 c8192_i32
  v3
def k1_off1 (i : grid1.Coords) : Fin 2 → Nat :=
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def k1_mult2 (i : grid1.Coords) : BitVec 32 :=
  let arg0 : BitVec 32 := BitVec.ofNat 32 (i 0).val
  let c256_i32 : BitVec 32 := 256#32
  let v18 : BitVec 32 := Scalar.muli arg0 c256_i32
  v18
def k1_off2 (i : grid1.Coords) : Fin 2 → Nat :=
  let arg0 : BitVec 32 := BitVec.ofNat 32 (i 0).val
  let c256_i32 : BitVec 32 := 256#32
  let v18 : BitVec 32 := Scalar.muli arg0 c256_i32
  let v19 : BitVec 32 := v18
  let v20 : Index := Scalar.indexCast v19
  let c0_8 : Index := 0#32
  ![v20.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  natLt_1_32 : 1 < 32
  reducesTo_S512x32_S512_d1 : S512x32.ReducesTo [1] S512
  h_S_ : 0 < S_.numel
  bcast_S_S512 : S_.BroadcastsInDim S512 (![] : Fin 0 → Fin S512.rank)
  bcast_S512_S512x1x1_0 : S512.BroadcastsInDim S512x1x1 (![0] : Fin 1 → Fin S512x1x1.rank)
  bcast_S512x1x1_S512x1x64_0_1_2 : S512x1x1.BroadcastsInDim S512x1x64 (![0, 1, 2] : Fin 3 → Fin S512x1x64.rank)
  bcast_S_S512x1x64 : S_.BroadcastsInDim S512x1x64 (![] : Fin 0 → Fin S512x1x64.rank)
  shapeCasts_S512x1x64_S512x1x64x1 : S512x1x64.ShapeCasts S512x1x64x1
  bcast_S_S512x1x64x1 : S_.BroadcastsInDim S512x1x64x1 (![] : Fin 0 → Fin S512x1x64x1.rank)
  bcast_S1_S1x1x1x1_3 : S1.BroadcastsInDim S1x1x1x1 (![3] : Fin 1 → Fin S1x1x1x1.rank)
  bcast_S1x1x1x1_S512x1x64x1_0_1_2_3 : S1x1x1x1.BroadcastsInDim S512x1x64x1 (![0, 1, 2, 3] : Fin 4 → Fin S512x1x64x1.rank)
  reducesTo_S512x1x64x1_S512x1x64_d3 : S512x1x64x1.ReducesTo [3] S512x1x64
  shapeCasts_S512x1x64_S512x64 : S512x1x64.ShapeCasts S512x64
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  h_S8192x64 : 0 < S8192x64.numel
  shapeCasts_S8192x64_S8192x64 : S8192x64.ShapeCasts S8192x64
  inb_S256x8192_S256x8192_0_0 : ∀ a, (![0, 0] : Fin 2 → Nat) a + S256x8192.size a ≤ S256x8192.size a
  h_S256x8192 : 0 < S256x8192.numel
  shapeCasts_S16384_S1x16384 : S16384.ShapeCasts S1x16384
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x2048_d0_w32 : S1024x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S512x64_S64x512_1_0 : S512x64.Transposes [1, 0] S64x512
  bcast_S_S512x512 : S_.BroadcastsInDim S512x512 (![] : Fin 0 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S512x1024_S1024x512_1_0 : S512x1024.Transposes [1, 0] S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S512x32x64_S512x1x64x1_S512x1x64_n_1_02_02_1_3_111_wf : GatherDims.WF S512x32x64 S512x1x64x1 S512x1x64 [] [1] [0, 2] [1] [0, 2] 3 ![1, 1, 1]
  gather_S4096x64_S16384x1_S16384x64_1_0_n_n_0_1_164_wf : GatherDims.WF S4096x64 S16384x1 S16384x64 [1] [0] [] [0] [] 1 ![1, 64]
  dot_S16384x64_S64x64_S16384x64_1_0_0_1_n_n_wf : DotDims.WF S16384x64 S64x64 S16384x64 [1] [0] [0] [1] [] []
  dot_S256x8192_S8192x64_S256x64_1_0_0_1_n_n_wf : DotDims.WF S256x8192 S8192x64 S256x64 [1] [0] [0] [1] [] []
  dot_S1024x2048_S2048x64_S1024x64_1_0_0_1_n_n_wf : DotDims.WF S1024x2048 S2048x64 S1024x64 [1] [0] [0] [1] [] []
  dot_S512x1024_S1024x64_S512x64_1_0_0_1_n_n_wf : DotDims.WF S512x1024 S1024x64 S512x64 [1] [0] [0] [1] [] []
  dot_S512x64_S64x512_S512x512_1_0_0_1_n_n_wf : DotDims.WF S512x64 S64x512 S512x512 [1] [0] [0] [1] [] []
  dot_S512x512_S512x512_S512x512_1_0_0_1_n_n_wf : DotDims.WF S512x512 S512x512 S512x512 [1] [0] [0] [1] [] []
  dot_S512x64_S64x1024_S512x1024_1_0_0_1_n_n_wf : DotDims.WF S512x64 S64x1024 S512x1024 [1] [0] [0] [1] [] []
  dot_S512x1024_S1024x512_S512x512_1_0_0_1_n_n_wf : DotDims.WF S512x1024 S1024x512 S512x512 [1] [0] [0] [1] [] []
  hrank0 : 0 < grid0.rank
  k0_mult1_dvd : ∀ i : grid0.Coords, 8192 ∣ (k0_mult1 i).toNat
  k0_off1_inb : ∀ i : grid0.Coords, ∀ a, (k0_off1 i) a + S8192x64.size a ≤ S16384x64.size a
  k0_mult2_dvd : ∀ i : grid0.Coords, ∀ (k0_h2 : k0_cond2 i = 1#1), 256 ∣ (k0_mult2 i).toNat
  k0_off2_inb : ∀ i : grid0.Coords, ∀ (k0_h2 : k0_cond2 i = 1#1), ∀ a, (k0_off2 i) a + S256x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x16384.size a
  hwx0_0 : ∀ i : grid0.Coords, EltTy.bits .f32 = 32 ∨ (Rect.block (s := S16384x16384) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hrank1 : 0 < grid1.rank
  k1_mult1_dvd : ∀ i : grid1.Coords, 8192 ∣ (k1_mult1 i).toNat
  k1_off1_inb : ∀ i : grid1.Coords, ∀ a, (k1_off1 i) a + S8192x64.size a ≤ S16384x64.size a
  k1_mult2_dvd : ∀ i : grid1.Coords, ∀ (k1_h2 : k1_cond2 i = 1#1), 256 ∣ (k1_mult2 i).toNat
  k1_off2_inb : ∀ i : grid1.Coords, ∀ (k1_h2 : k1_cond2 i = 1#1), ∀ a, (k1_off2 i) a + S256x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S16384x16384.size a
  hwx1_0 : ∀ i : grid1.Coords, EltTy.bits .f32 = 32 ∨ (Rect.block (s := S16384x16384) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S16384x64.size a
  hwx1_2 : ∀ i : grid1.Coords, EltTy.bits .f32 = 32 ∨ (Rect.block (s := S16384x64) S256x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x16384.size a
  hwx2_1 : ∀ i : grid2.Coords, EltTy.bits .i32 = 32 ∨ (Rect.block (s := S1x16384) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S1024x64.size a
  hwx2_2 : ∀ i : grid2.Coords, EltTy.bits .f32 = 32 ∨ (Rect.block (s := S1024x64) S1024x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x1024.size a
  hwx3_0 : ∀ i : grid3.Coords, EltTy.bits .f32 = 32 ∨ (Rect.block (s := S512x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .f32 = 32 ∨ (Rect.block (s := S1024x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S1024x512.size a
  hwx3_2 : ∀ i : grid3.Coords, EltTy.bits .f32 = 32 ∨ (Rect.block (s := S1024x512) S1024x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)

variable [Facts₀]

def gather_S512x32x64_S512x1x64x1_S512x1x64_n_1_02_02_1_3_111 : GatherDims S512x32x64 S512x1x64x1 S512x1x64 where
  offsetDims := []
  collapsedSliceDims := [1]
  operandBatchingDims := [0, 2]
  startIndicesBatchingDims := [0, 2]
  startIndexMap := [1]
  indexVectorDim := 3
  sliceSizes := ![1, 1, 1]
  wf := gather_S512x32x64_S512x1x64x1_S512x1x64_n_1_02_02_1_3_111_wf
def gather_S4096x64_S16384x1_S16384x64_1_0_n_n_0_1_164 : GatherDims S4096x64 S16384x1 S16384x64 where
  offsetDims := [1]
  collapsedSliceDims := [0]
  operandBatchingDims := []
  startIndicesBatchingDims := []
  startIndexMap := [0]
  indexVectorDim := 1
  sliceSizes := ![1, 64]
  wf := gather_S4096x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg7) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg7) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1024x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v67) S512x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1024x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S512x512.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S512x32x64 : Shape := ⟨3, ![512, 32, 64]⟩
abbrev S512x32 : Shape := ⟨2, ![512, 32]⟩
abbrev S4096x64 : Shape := ⟨2, ![4096, 64]⟩
abbrev S64x64 : Shape := ⟨2, ![64, 64]⟩
abbrev S64 : Shape := ⟨1, ![64]⟩
abbrev S16384x16384 : Shape := ⟨2, ![16384, 16384]⟩
abbrev S512x1024 : Shape := ⟨2, ![512, 1024]⟩
abbrev S64x1024 : Shape := ⟨2, ![64, 1024]⟩
abbrev S1024 : Shape := ⟨1, ![1024]⟩
abbrev S1024x512 : Shape := ⟨2, ![1024, 512]⟩
abbrev S512x512 : Shape := ⟨2, ![512, 512]⟩
abbrev S512 : Shape := ⟨1, ![512]⟩
abbrev S16384 : Shape := ⟨1, ![16384]⟩
abbrev S_ : Shape := ⟨0, ![]⟩
abbrev S512x1 : Shape := ⟨2, ![512, 1]⟩
abbrev S512x2 : Shape := ⟨2, ![512, 2]⟩
abbrev S512x64 : Shape := ⟨2, ![512, 64]⟩
abbrev S16384x1 : Shape := ⟨2, ![16384, 1]⟩
abbrev S16384x64 : Shape := ⟨2, ![16384, 64]⟩
abbrev S1x64 : Shape := ⟨2, ![1, 64]⟩
abbrev S1024x64 : Shape := ⟨2, ![1024, 64]⟩
abbrev S64x512 : Shape := ⟨2, ![64, 512]⟩
abbrev S1x512 : Shape := ⟨2, ![1, 512]⟩
abbrev S1x1024 : Shape := ⟨2, ![1, 1024]⟩

abbrev nBuf : Space → Nat
  | .hbm => 136
  | .vmem => 0
  | .smem => 0
  | _ => 0

abbrev hbmTy0_0 (i : Nat) : BufTy := match i % 128 with
  | 0 => ⟨S512x32x64, .f32⟩
  | 1 => ⟨S512x32, .i1⟩
  | 2 => ⟨S4096x64, .f32⟩
  | 3 => ⟨S64x64, .f32⟩
  | 4 => ⟨S64, .f32⟩
  | 5 => ⟨S64x64, .f32⟩
  | 6 => ⟨S64, .f32⟩
  | 7 => ⟨S16384x16384, .f32⟩
  | 8 => ⟨S512x1024, .f32⟩
  | 9 => ⟨S512x1024, .f32⟩
  | 10 => ⟨S64x1024, .f32⟩
  | 11 => ⟨S1024, .f32⟩
  | 12 => ⟨S1024x512, .f32⟩
  | 13 => ⟨S512x512, .f32⟩
  | 14 => ⟨S512, .f32⟩
  | 15 => ⟨S512, .f32⟩
  | 16 => ⟨S512, .f32⟩
  | 17 => ⟨S16384, .i32⟩
  | 18 => ⟨S16384, .i32⟩
  | 19 => ⟨S512x32, .i32⟩
  | 20 => ⟨S_, .i32⟩
  | 21 => ⟨S512, .i32⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S_, .i32⟩
  | 37 => ⟨S512, .i32⟩
  | 38 => ⟨S512, .i32⟩
  | 39 => ⟨S512, .i32⟩
  | 40 => ⟨S512x1, .i32⟩
  | 41 => ⟨S512x1, .i32⟩
  | 42 => ⟨S512x2, .i32⟩
  | 43 => ⟨S512x64, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x64, .f32⟩
  | 53 => ⟨S16384x64, .f32⟩
  | 54 => ⟨S1x64, .f32⟩
  | 55 => ⟨S16384x64, .f32⟩
  | 56 => ⟨S16384x64, .f32⟩
  | 57 => ⟨S_, .f32⟩
  | 58 => ⟨S16384x64, .f32⟩
  | 59 => ⟨S16384x64, .f32⟩
  | 60 => ⟨S16384x64, .f32⟩
  | 61 => ⟨S16384x64, .f32⟩
  | 62 => ⟨S16384x64, .f32⟩
  | 63 => ⟨S1x64, .f32⟩
  | 64 => ⟨S16384x64, .f32⟩
  | 65 => ⟨S16384x64, .f32⟩
  | 66 => ⟨S_, .f32⟩
  | 67 => ⟨S16384x64, .f32⟩
  | 68 => ⟨S16384x64, .f32⟩
  | 69 => ⟨S16384x64, .f32⟩
  | 70 => ⟨S16384x64, .f32⟩
  | 71 => ⟨S_, .f32⟩
  | 72 => ⟨S1024x64, .f32⟩
  | 73 => ⟨S16384x1, .i32⟩
  | 74 => ⟨S1024x64, .f32⟩
  | 75 => ⟨S512x64, .f32⟩
  | 76 => ⟨S64x512, .f32⟩
  | 77 => ⟨S512x512, .f32⟩
  | 78 => ⟨S512x512, .f32⟩
  | 79 => ⟨S512x512, .f32⟩
  | 80 => ⟨S_, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S512x512, .f32⟩
  | 87 => ⟨S512x512, .f32⟩
  | 88 => ⟨S1x512, .f32⟩
  | 89 => ⟨S512x512, .f32⟩
  | 90 => ⟨S512x512, .f32⟩
  | 91 => ⟨S_, .f32⟩
  | 92 => ⟨S512, .f32⟩
  | 93 => ⟨S512x1, .f32⟩
  | 94 => ⟨S_, .f32⟩
  | 95 => ⟨S512x1, .f32⟩
  | 96 => ⟨S512x1, .f32⟩
  | 97 => ⟨S512x512, .f32⟩
  | 98 => ⟨S512x512, .f32⟩
  | 99 => ⟨S512x512, .f32⟩
  | 100 => ⟨S_, .f32⟩
  | 101 => ⟨S512, .f32⟩
  | 102 => ⟨S512x1, .f32⟩
  | 103 => ⟨S_, .f32⟩
  | 104 => ⟨S512x1, .f32⟩
  | 105 => ⟨S512x1, .f32⟩
  | 106 => ⟨S512x512, .f32⟩
  | 107 => ⟨S512x512, .f32⟩
  | 108 => ⟨S_, .f32⟩
  | 109 => ⟨S512x1, .f32⟩
  | 110 => ⟨S512x1, .f32⟩
  | 111 => ⟨S512x1, .f32⟩
  | 112 => ⟨S512x512, .f32⟩
  | 113 => ⟨S512x512, .f32⟩
  | 114 => ⟨S1x512, .f32⟩
  | 115 => ⟨S512x512, .f32⟩
  | 116 => ⟨S512x512, .f32⟩
  | 117 => ⟨S1x512, .f32⟩
  | 118 => ⟨S512x512, .f32⟩
  | 119 => ⟨S512x512, .f32⟩
  | 120 => ⟨S512x1024, .f32⟩
  | 121 => ⟨S1x1024, .f32⟩
  | 122 => ⟨S512x1024, .f32⟩
  | 123 => ⟨S512x1024, .f32⟩
  | 124 => ⟨S1024x512, .f32⟩
  | 125 => ⟨S1024x512, .f32⟩
  | 126 => ⟨S512x512, .f32⟩
  | 127 => ⟨S512x512, .f32⟩
  | _ => ⟨S512x32x64, .f32⟩

abbrev hbmTy0_1 (i : Nat) : BufTy := match i % 128 with
  | 0 => ⟨S512x512, .f32⟩
  | 1 => ⟨S512x512, .f32⟩
  | 2 => ⟨S_, .f32⟩
  | 3 => ⟨S512x512, .f32⟩
  | 4 => ⟨S512x512, .f32⟩
  | 5 => ⟨S_, .f32⟩
  | 6 => ⟨S512x512, .f32⟩
  | 7 => ⟨S512x512, .f32⟩
  | _ => ⟨S512x32x64, .f32⟩

abbrev hbmTy (i : Nat) : BufTy := match i / 128 with
  | 0 => hbmTy0_0 i
  | 1 => hbmTy0_1 i
  | _ => ⟨S512x32x64, .f32⟩

abbrev bufTy : (tb : Table) → Fin (tcTables nBuf tb) → BufTy
  | .hbm, ⟨i, _⟩ => hbmTy i
  | _, _ => ⟨S512x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_5 : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call0_cst : Ref sig .tc := ⟨.hbm, 57, rfl⟩
abbrev main_call0_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_13 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_14 : Ref sig .tc := ⟨.hbm, 130, rfl⟩
abbrev main_v91 : Ref sig .tc := ⟨.hbm, 131, rfl⟩
abbrev main_v92 : Ref sig .tc := ⟨.hbm, 132, rfl⟩
abbrev main_cst_15 : Ref sig .tc := ⟨.hbm, 133, rfl⟩
abbrev main_v93 : Ref sig .tc := ⟨.hbm, 134, rfl⟩
abbrev main_v94 : Ref sig .tc := ⟨.hbm, 135, rfl⟩

abbrev nD : Nat := 1
abbrev τ : Topo := Topo.v7x

variable {F : FTy → Type} [FloatOps F]

class Facts₀ : Prop where
  natLt_1_32 : 1 < 32
  reducesTo_S512x32_S512_d1 : S512x32.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S_S16384 : S_.BroadcastsInDim S16384 (![] : Fin 0 → Fin S16384.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S_S1024x64 : S_.BroadcastsInDim S1024x64 (![] : Fin 0 → Fin S1024x64.rank)
  transposes_S512x64_S64x512_1_0 : S512x64.Transposes [1, 0] S64x512
  bcast_S_S512x512 : S_.BroadcastsInDim S512x512 (![] : Fin 0 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d1 : S512x512.ReducesTo [1] S512
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  transposes_S512x1024_S1024x512_1_0 : S512x1024.Transposes [1, 0] S1024x512
  gather_S512x32x64_S512x2_S512x64_1_01_n_n_01_1_1164_wf : GatherDims.WF S512x32x64 S512x2 S512x64 [1] [0, 1] [] [0, 1] [] 1 ![1, 1, 64]
  gather_S4096x64_S16384x1_S16384x64_1_0_n_n_0_1_164_wf : GatherDims.WF S4096x64 S16384x1 S16384x64 [1] [0] [] [0] [] 1 ![1, 64]
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  scatter_S1024x64_S16384x1_S16384x64_1_0_0_1_wf : ScatterDims.WF S1024x64 S16384x1 S16384x64 [1] [0] [0] 1
  dot_S512x1024_S1024x64_S512x64_1_0_0_1_n_n_wf : DotDims.WF S512x1024 S1024x64 S512x64 [1] [0] [0] [1] [] []
  dot_S512x64_S64x512_S512x512_1_0_0_1_n_n_wf : DotDims.WF S512x64 S64x512 S512x512 [1] [0] [0] [1] [] []
  dot_S512x512_S512x512_S512x512_1_0_0_1_n_n_wf : DotDims.WF S512x512 S512x512 S512x512 [1] [0] [0] [1] [] []
  dot_S512x64_S64x1024_S512x1024_1_0_0_1_n_n_wf : DotDims.WF S512x64 S64x1024 S512x1024 [1] [0] [0] [1] [] []
  dot_S512x1024_S1024x512_S512x512_1_0_0_1_n_n_wf : DotDims.WF S512x1024 S1024x512 S512x512 [1] [0] [0] [1] [] []

variable [Facts₀]

def gather_S512x32x64_S512x2_S512x64_1_01_n_n_01_1_1164 : GatherDims S512x32x64 S512x2 S512x64 where
  offsetDims := [1]
  collapsedSliceDims := [0, 1]
  operandBatchingDims := []
  startIndicesBatchingDims := []
  startIndexMap := [0, 1]
  indexVectorDim := 1
  sliceSizes := ![1, 1, 64]
  wf := gather_S512x32x64_S512x2_S512x64_1_01_n_n_01_1_1164_wf
def gather_S4096x64_S16384x1_S16384x64_1_0_n_n_0_1_164 : GatherDims S4096x64 S16384x1 S16384x64 where
  offsetDims := [1]
  collapsedSliceDims := [0]
  operandBatchingDims := []
  startIndicesBatchingDims := []
  startIndexMap := [0]
  indexVectorDim := 1
  sliceSizes := ![1, 64]
  wf := gather_S4096x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def scatter_S1024x64_S16384x1_S16384x64_1_0_0_1 : ScatterDims S1024x64 S16384x1 S16384x64 where
  updateWindowDims := [1]
  insertedWindowDims := [0]
  scatterDimsToOperandDims := [0]
  indexVectorDim := 1
  wf := scatter_S1024x64_S16384x1_S16384x64_1_0_0_1_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

class Facts : Prop extends Facts₀ where

variable [Facts]
-- ==== Proof.KR0Body.lean ====
import proofs.«421360_j76029511074377_3_alg».proof.Proof.Gen.Kernel.Points
import proofs.«421360_j76029511074377_3_alg».proof.Proof.Gen.Kernel.Launch
import proofs.«421360_j76029511074377_3_alg».proof.Proof.Gen.Kernel.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev k0_cond1 (i : grid0.Coords) : Prop :=
  (Scalar.cmpi .ne (Scalar.extui (Scalar.cmpi .eq (BitVec.ofNat 32 (i 1).val) 0#32)) 0#32) = 1#1

abbrev hRowsAt (i : grid0.Coords) (x1 : Vec F S16384x64 .f32) : Vec F S8192x64 .f32 :=
  View.ld x1 (Rect.unit (s := S16384x64) (k0_off1 i) S8192x64.size (k0_off1_inb i))

abbrev hBandAt (i : grid0.Coords) (h2 : k0_cond2 i = 1#1) (x1 : Vec F S16384x64 .f32) : Vec F S256x64 .f32 :=
  View.ld x1 (Rect.unit (s := S16384x64) (k0_off2 i) S256x64.size (k0_off2_inb i h2))

theorem zero_offsets_S256x64 : (![0, 0] : Fin S256x64.rank → Nat) = fun _ => 0 := by
  funext a; fin_cases a <;> rfl

theorem zero_offsets_S256x8192 : (![0, 0] : Fin S256x8192.rank → Nat) = fun _ => 0 := by
  funext a; fin_cases a <;> rfl

set_option maxHeartbeats 1000000 in
theorem run_first_half (c : Dev nD) (i : grid0.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : k0_cond1 i) (hc2 : ¬ k0_cond2 i = 1#1)
    (x0 : Vec F S256x8192 .f32) (x1 : Vec F S16384x64 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 (hRowsAt i x1) (k0_pay1 (F := F)) x0)) -∗ K ⟨⟩))
      ⊢ wp frame (wpE (defs₀ (F := F)) Variants.none c none) E (cc0__gnn_layer_kernel i arg2 harg2 arg3 harg3 arg4 harg4 arg5 harg5) K := by
  simp only [cc0__gnn_layer_kernel_eq_skeleton]; unfold cc0__gnn_layer_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero zero_offsets_S256x64 inb_S256x64_S256x64_0_0 y⟩),
    View.canon_cons_unit_zero zero_offsets_S256x64]
  sl_unfold_run_names
  simp only [View.readAt_eq_ld, harg2.read_unread, harg3.read_unread, View.ld_unit_zero (S := S256x8192) zero_offsets_S256x8192,
    View.readCov_unit_zero (S := S256x64) _ zero_offsets_S256x64]

set_option maxHeartbeats 1000000 in
theorem run_second_half (c : Dev nD) (i : grid0.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : ¬ k0_cond1 i) (hc2 : k0_cond2 i = 1#1)
    (x0 : Vec F S256x8192 .f32) (x1 : Vec F S16384x64 .f32) (xs : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (hBandAt i hc2 x1) (k0_pay2 (hRowsAt i x1) xs x0))
            ∗ owns (c : Thread nD τ) arg5 fullShare (k0_pay2 (hRowsAt i x1) xs x0)) -∗ K ⟨⟩))
      ⊢ wp frame (wpE (defs₀ (F := F)) Variants.none c none) E (cc0__gnn_layer_kernel i arg2 harg2 arg3 harg3 arg4 harg4 arg5 harg5) K := by
  simp only [cc0__gnn_layer_kernel_eq_skeleton]; unfold cc0__gnn_layer_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero zero_offsets_S256x64 inb_S256x64_S256x64_0_0 y⟩),
      View.canon_unit_zero zero_offsets_S256x64]
    sl_unfold_run_names
    simp only [View.readAt_eq_ld, harg2.read_unread, harg3.read_unread, harg5.read_unread, View.ld_unit_zero (S := S256x8192) zero_offsets_S256x8192,
      View.ld_unit_zero (S := S256x64) zero_offsets_S256x64, View.readCov_unit_zero (S := S256x64) _ zero_offsets_S256x64]
  iexists _; isplitr
  swap; · iexact HS0
  ipureintro
  sl_unfold_run_names
  rw [View.read_writes_eq_canon _ _ _ (fun y => ⟨_, List.mem_cons_self, View.mem_set_unit_zero zero_offsets_S256x64 inb_S256x64_S256x64_0_0 y⟩),
    View.canon_unit_zero zero_offsets_S256x64]
  simp only [View.readAt_eq_ld, harg2.read_unread, harg3.read_unread, harg5.read_unread, View.ld_unit_zero (S := S256x8192) zero_offsets_S256x8192,
    View.ld_unit_zero (S := S256x64) zero_offsets_S256x64]

theorem hcond1 : ∀ t : Fin cfg0.N, k0_cond1 (grid0.coords t) ↔ t.val % 2 = 0 :=
  (by decide +kernel : ∀ t : Fin grid0.N, k0_cond1 (grid0.coords t) ↔ t.val % 2 = 0)

theorem hcond2 : ∀ t : Fin cfg0.N, (k0_cond2 (grid0.coords t) = 1#1) ↔ t.val % 2 = 1 :=
  (by decide +kernel : ∀ t : Fin grid0.N, (k0_cond2 (grid0.coords t) = 1#1) ↔ t.val % 2 = 1)

theorem live_in0 : ∀ t : Fin cfg0.N, cfg0.idle 0 (grid0.coords t) = false := by decide +kernel
theorem live_in1 : ∀ t : Fin cfg0.N, cfg0.idle 1 (grid0.coords t) = false := by decide +kernel

theorem idle_out_even : ∀ t : Fin cfg0.N, t.val % 2 = 0 → cfg0.idle 2 (grid0.coords t) = true := by decide +kernel
theorem live_out_odd : ∀ t : Fin cfg0.N, t.val % 2 = 1 → cfg0.idle 2 (grid0.coords t) = false := by decide +kernel

theorem noFlush_out_even (t : Fin cfg0.N) (h : t.val % 2 = 0) : (cfg0.win 2).flush t = false := by
  cases hf : (cfg0.win 2).flush t
  · rfl
  · have := (flush0_2 t).mp hf; omega

abbrev otherScoped (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop((∃ d, owns (c : Thread nD τ) (Memref.whole cc0_scratch0) fullShare d) ∗ otherScoped (F := F) c ∗ (∃ r, prngReg c r)) := by
  unfold Pipeline.ΦA
  rw [Pipeline.scopedRest_split_of_list spec0 c [cc0_scratch0] (by decide) (by decide)]
  simp only [Idealize.SL.BI.bigSepL_singleton, owns_whole]
  exact equiv_iff.mp ⟨BI.sep_assoc, BI.sep_assoc'⟩

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev adjBlockAt (c : Dev nD) (t : Fin cfg0.N) : Vec F S256x8192 .f32 := iblk V c 0 t

abbrev hStagedAt (c : Dev nD) (t : Fin cfg0.N) : Vec F S16384x64 .f32 := iblk V c 1 t

/-- The band's product with the first 8192 columns: the accumulator after an even point. -/
def accFirstHalf (c : Dev nD) (t : Fin cfg0.N) : Vec F S256x64 .f32 :=
  k0_pay2 (hRowsAt (grid0.coords t) (hStagedAt V c t)) (k0_pay1 (F := F)) (adjBlockAt V c t)

/-- The accumulator after point `t`: the first-half product at even `t`, that plus the second-half product at odd `t`. -/
def accAfter (c : Dev nD) (t : Fin cfg0.N) : Vec F S256x64 .f32 :=
  if t.val % 2 = 0 then accFirstHalf V c t
  else k0_pay2 (hRowsAt (grid0.coords t) (hStagedAt V c t))
    (accFirstHalf V c ⟨t.val - 1, Nat.lt_of_le_of_lt (Nat.sub_le _ _) t.isLt⟩) (adjBlockAt V c t)

/-- The result block after point `t`: at odd `t` the finished band, the accumulated product plus the band's own rows. -/
def outAfter (c : Dev nD) (t : Fin cfg0.N) : Vec F S256x64 .f32 :=
  if h : k0_cond2 (grid0.coords t) = 1#1 then k0_pay3 (hBandAt (grid0.coords t) h (hStagedAt V c t)) (accAfter V c t)
  else k0_pay1 (F := F)

theorem accAfter_even (c : Dev nD) (t : Fin cfg0.N) (h : t.val % 2 = 0) : accAfter V c t = accFirstHalf V c t := if_pos h

theorem accAfter_odd (c : Dev nD) (t : Fin cfg0.N) (h : ¬ t.val % 2 = 0) :
    accAfter V c t = k0_pay2 (hRowsAt (grid0.coords t) (hStagedAt V c t))
      (accFirstHalf V c ⟨t.val - 1, Nat.lt_of_le_of_lt (Nat.sub_le _ _) t.isLt⟩) (adjBlockAt V c t) := if_neg h

theorem outAfter_odd (c : Dev nD) (t : Fin cfg0.N) (h : k0_cond2 (grid0.coords t) = 1#1) :
    outAfter V c t = k0_pay3 (hBandAt (grid0.coords t) h (hStagedAt V c t)) (accAfter V c t) := dif_pos h

def PhiS (c : Dev nD) : (n : ℕ) → n ≤ cfg0.N → sProp 𝕄
  | 0, _ => Pipeline.ΦA spec0 c
  | n + 1, hn => iprop(owns (c : Thread nD τ) (Memref.whole cc0_scratch0) fullShare (accAfter V c ⟨n, hn⟩)
      ∗ otherScoped (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) (Memref.whole cc0_scratch0) fullShare (accAfter V c ⟨n, hn⟩)
      ∗ otherScoped (F := F) c ∗ (∃ r, prngReg c r)) := rfl

theorem PhiS_pos (c : Dev nD) (n : ℕ) (h : n ≤ cfg0.N) (hz : n ≠ 0) :
    PhiS V c n h = iprop(owns (c : Thread nD τ) (Memref.whole cc0_scratch0) fullShare (accAfter V c ⟨n - 1, by omega⟩)
      ∗ otherScoped (F := F) c ∗ (∃ r, prngReg c r)) := by
  cases n with
  | zero => exact absurd rfl hz
  | succ n => rfl

def dat (c : Dev nD) : Pipeline.Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAfter V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_out (c : Dev nD) (t : Fin cfg0.N) : (dat V c).after 2 t = outAfter V c t := by dsimp only [dat]

theorem before_in0 (c : Dev nD) (t : Fin cfg0.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

theorem before_in1 (c : Dev nD) (t : Fin cfg0.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

abbrev stageAt0 (t : Fin cfg0.N) : Memref sig .tc .vmem S256x8192 .f32 := win0_0.stage (cfg0.slots t 0)
abbrev stageAt1 (t : Fin cfg0.N) : Memref sig .tc .vmem S16384x64 .f32 := win0_1.stage (cfg0.slots t 1)
abbrev stageAt2 (t : Fin cfg0.N) : Memref sig .tc .vmem S256x64 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (stageAt0 t) fullShare ((dat V c).before 0 t d))
    ∗ (∃ d, owns (c : Thread nD τ) (stageAt1 t) fullShare ((dat V c).before 1 t d))
    ∗ (∃ d, owns (c : Thread nD τ) (stageAt2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 2000000 in
/-- One grid point takes the accumulator and the result block from their values before the point to those after it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (stageAt0 t) fullShare ((dat V c).after 0 t) from by
    unfold Dat.leavesExact; rw [live_in0 t], after_in0]
  rw [show (dat V c).leavesExact 1 t = owns (c : Thread nD τ) (stageAt1 t) fullShare ((dat V c).after 1 t) from by
    unfold Dat.leavesExact; rw [live_in1 t], after_in1]
  by_cases h0 : t.val % 2 = 0
  · have hc1 : k0_cond1 (grid0.coords t) := (hcond1 t).mpr h0
    have hc2 : ¬ k0_cond2 (grid0.coords t) = 1#1 := fun h => by have := (hcond2 t).mp h; omega
    rw [Dat.leavesExact_idle (dat V c) 2 t (idle_out_even t h0) (noFlush_out_even t h0)]
    rw [accAfter_even V c t h0]
    unfold accFirstHalf
    by_cases hz : t.val = 0
    · rw [PhiS_castSucc V c t, PhiS_zero V c _ _ hz, PhiA_eq]
      iintro ⟨⟨HS, HR, Hg⟩, Ho, ⟨%d0, H0⟩, ⟨%d1, H1⟩, H2⟩
      iapply (run_first_half c (grid0.coords t) _ _ _ _ _ _ _ _ hc1 hc2 (adjBlockAt V c t) (hStagedAt V c t) Set.univ _)
      isplitl [H0]; · iexact H0
      isplitl [H1]; · iexact H1
      isplitl [HS]; · iexact HS
      iintro ⟨H0, H1, HS⟩
      iframe
    · rw [PhiS_castSucc V c t, PhiS_pos V c _ _ hz]
      iintro ⟨⟨HS, HR, Hg⟩, Ho, ⟨%d0, H0⟩, ⟨%d1, H1⟩, H2⟩
      iapply (run_first_half c (grid0.coords t) _ _ _ _ _ _ _ _ hc1 hc2 (adjBlockAt V c t) (hStagedAt V c t) Set.univ _)
      isplitl [H0]; · iexact H0
      isplitl [H1]; · iexact H1
      isplitl [HS]; · iexists _; iexact HS
      iintro ⟨H0, H1, HS⟩
      iframe
  · have h1 : t.val % 2 = 1 := by omega
    have hc1 : ¬ k0_cond1 (grid0.coords t) := fun h => h0 ((hcond1 t).mp h)
    have hc2 : k0_cond2 (grid0.coords t) = 1#1 := (hcond2 t).mpr h1
    have hz : t.val ≠ 0 := by omega
    rw [show (dat V c).leavesExact 2 t = owns (c : Thread nD τ) (stageAt2 t) fullShare ((dat V c).after 2 t) from by
      unfold Dat.leavesExact; rw [live_out_odd t h1], after_out]
    rw [outAfter_odd V c t hc2, accAfter_odd V c t h0]
    rw [PhiS_castSucc V c t, PhiS_pos V c _ _ hz]
    rw [accAfter_even V c ⟨t.val - 1, _⟩ (by show (t.val - 1) % 2 = 0; omega)]
    iintro ⟨⟨HS, HR, Hg⟩, Ho, ⟨%d0, H0⟩, ⟨%d1, H1⟩, ⟨%d2, H2⟩⟩
    iapply (run_second_half c (grid0.coords t) _ _ _ _ _ _ _ _ hc1 hc2 (adjBlockAt V c t) (hStagedAt V c t)
      (accFirstHalf V c ⟨t.val - 1, Nat.lt_of_le_of_lt (Nat.sub_le _ _) t.isLt⟩) Set.univ _)
    isplitl [H0]; · iexact H0
    isplitl [H1]; · iexact H1
    isplitl [H2]; · iexists _; iexact H2
    isplitl [HS]; · iexact HS
    iintro ⟨H0, H1, H2, HS⟩
    iframe

theorem body_obligation (c : Dev nD) : Pipeline.BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS, HR, Hg⟩
  isplitl [HS]
  · iexists _; iexact HS
  iframe

theorem hout (c : Dev nD) : (dat V c).Φ (Fin.last cfg0.N) ⊢ Pipeline.ΦA spec0 c :=
  Phi_out V c _ (by rw [Fin.val_last]; have : cfg0.N = 128 := N_0; omega)

theorem arrAt_in0 (c : Dev nD) : (dat V c).arrAt 0 cfg0.N = V c main_arg7 :=
  ((dat V c).arrAt_in 0 rfl _).trans (A_eq V c 0)

theorem arrAt_in1 (c : Dev nD) : (dat V c).arrAt 1 cfg0.N = V c main_v16 :=
  ((dat V c).arrAt_in 1 rfl _).trans (A_eq V c 1)

end Cert.Kernel.R0

end
-- ==== Proof.KR1Body.lean ====
import proofs.«421360_j76029511074377_3_alg».proof.Proof.Gen.Kernel.Points
import proofs.«421360_j76029511074377_3_alg».proof.Proof.Gen.Kernel.Launch
import proofs.«421360_j76029511074377_3_alg».proof.Proof.Gen.Kernel.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev k1_cond1 (i : grid1.Coords) : Prop :=
  (Scalar.cmpi .ne (Scalar.extui (Scalar.cmpi .eq (BitVec.ofNat 32 (i 1).val) 0#32)) 0#32) = 1#1

abbrev hRowsAt (i : grid1.Coords) (x1 : Vec F S16384x64 .f32) : Vec F S8192x64 .f32 :=
  View.ld x1 (Rect.unit (s := S16384x64) (k1_off1 i) S8192x64.size (k1_off1_inb i))

abbrev hBandAt (i : grid1.Coords) (h2 : k1_cond2 i = 1#1) (x1 : Vec F S16384x64 .f32) : Vec F S256x64 .f32 :=
  View.ld x1 (Rect.unit (s := S16384x64) (k1_off2 i) S256x64.size (k1_off2_inb i h2))

theorem zero_offsets_S256x64 : (![0, 0] : Fin S256x64.rank → Nat) = fun _ => 0 := by
  funext a; fin_cases a <;> rfl

theorem zero_offsets_S256x8192 : (![0, 0] : Fin S256x8192.rank → Nat) = fun _ => 0 := by
  funext a; fin_cases a <;> rfl

set_option maxHeartbeats 1000000 in
theorem run_first_half (c : Dev nD) (i : grid1.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : k1_cond1 i) (hc2 : ¬ k1_cond2 i = 1#1)
    (x0 : Vec F S256x8192 .f32) (x1 : Vec F S16384x64 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (hRowsAt i x1) (k1_pay1 (F := F)) x0)) -∗ K ⟨⟩))
      ⊢ wp frame (wpE (defs₀ (F := F)) Variants.none c none) E (cc1__gnn_layer_kernel i arg2 harg2 arg3 harg3 arg4 harg4 arg5 harg5) K := by
  simp only [cc1__gnn_layer_kernel_eq_skeleton]; unfold cc1__gnn_layer_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero zero_offsets_S256x64 inb_S256x64_S256x64_0_0 y⟩),
    View.canon_cons_unit_zero zero_offsets_S256x64]
  sl_unfold_run_names
  simp only [View.readAt_eq_ld, harg2.read_unread, harg3.read_unread, View.ld_unit_zero (S := S256x8192) zero_offsets_S256x8192,
    View.readCov_unit_zero (S := S256x64) _ zero_offsets_S256x64]

set_option maxHeartbeats 1000000 in
theorem run_second_half (c : Dev nD) (i : grid1.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : ¬ k1_cond1 i) (hc2 : k1_cond2 i = 1#1)
    (x0 : Vec F S256x8192 .f32) (x1 : Vec F S16384x64 .f32) (xs : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (hBandAt i hc2 x1) (k1_pay2 (hRowsAt i x1) xs x0))
            ∗ owns (c : Thread nD τ) arg5 fullShare (k1_pay2 (hRowsAt i x1) xs x0)) -∗ K ⟨⟩))
      ⊢ wp frame (wpE (defs₀ (F := F)) Variants.none c none) E (cc1__gnn_layer_kernel i arg2 harg2 arg3 harg3 arg4 harg4 arg5 harg5) K := by
  simp only [cc1__gnn_layer_kernel_eq_skeleton]; unfold cc1__gnn_layer_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero zero_offsets_S256x64 inb_S256x64_S256x64_0_0 y⟩),
      View.canon_unit_zero zero_offsets_S256x64]
    sl_unfold_run_names
    simp only [View.readAt_eq_ld, harg2.read_unread, harg3.read_unread, harg5.read_unread, View.ld_unit_zero (S := S256x8192) zero_offsets_S256x8192,
      View.ld_unit_zero (S := S256x64) zero_offsets_S256x64, View.readCov_unit_zero (S := S256x64) _ zero_offsets_S256x64]
  iexists _; isplitr
  swap; · iexact HS0
  ipureintro
  sl_unfold_run_names
  rw [View.read_writes_eq_canon _ _ _ (fun y => ⟨_, List.mem_cons_self, View.mem_set_unit_zero zero_offsets_S256x64 inb_S256x64_S256x64_0_0 y⟩),
    View.canon_unit_zero zero_offsets_S256x64]
  simp only [View.readAt_eq_ld, harg2.read_unread, harg3.read_unread, harg5.read_unread, View.ld_unit_zero (S := S256x8192) zero_offsets_S256x8192,
    View.ld_unit_zero (S := S256x64) zero_offsets_S256x64]

theorem hcond1 : ∀ t : Fin cfg1.N, k1_cond1 (grid1.coords t) ↔ t.val % 2 = 0 :=
  (by decide +kernel : ∀ t : Fin grid1.N, k1_cond1 (grid1.coords t) ↔ t.val % 2 = 0)

theorem hcond2 : ∀ t : Fin cfg1.N, (k1_cond2 (grid1.coords t) = 1#1) ↔ t.val % 2 = 1 :=
  (by decide +kernel : ∀ t : Fin grid1.N, (k1_cond2 (grid1.coords t) = 1#1) ↔ t.val % 2 = 1)

theorem live_in0 : ∀ t : Fin cfg1.N, cfg1.idle 0 (grid1.coords t) = false := by decide +kernel
theorem live_in1 : ∀ t : Fin cfg1.N, cfg1.idle 1 (grid1.coords t) = false := by decide +kernel

theorem idle_out_even : ∀ t : Fin cfg1.N, t.val % 2 = 0 → cfg1.idle 2 (grid1.coords t) = true := by decide +kernel
theorem live_out_odd : ∀ t : Fin cfg1.N, t.val % 2 = 1 → cfg1.idle 2 (grid1.coords t) = false := by decide +kernel

theorem noFlush_out_even (t : Fin cfg1.N) (h : t.val % 2 = 0) : (cfg1.win 2).flush t = false := by
  cases hf : (cfg1.win 2).flush t
  · rfl
  · have := (flush1_2 t).mp hf; omega

abbrev otherScoped (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop((∃ d, owns (c : Thread nD τ) (Memref.whole cc1_scratch0) fullShare d) ∗ otherScoped (F := F) c ∗ (∃ r, prngReg c r)) := by
  unfold Pipeline.ΦA
  rw [Pipeline.scopedRest_split_of_list spec1 c [cc1_scratch0] (by decide) (by decide)]
  simp only [Idealize.SL.BI.bigSepL_singleton, owns_whole]
  exact equiv_iff.mp ⟨BI.sep_assoc, BI.sep_assoc'⟩

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adjBlockAt (c : Dev nD) (t : Fin cfg1.N) : Vec F S256x8192 .f32 := iblk V c 0 t

abbrev hStagedAt (c : Dev nD) (t : Fin cfg1.N) : Vec F S16384x64 .f32 := iblk V c 1 t

/-- The band's product with the first 8192 columns: the accumulator after an even point. -/
def accFirstHalf (c : Dev nD) (t : Fin cfg1.N) : Vec F S256x64 .f32 :=
  k1_pay2 (hRowsAt (grid1.coords t) (hStagedAt V c t)) (k1_pay1 (F := F)) (adjBlockAt V c t)

/-- The accumulator after point `t`: the first-half product at even `t`, that plus the second-half product at odd `t`. -/
def accAfter (c : Dev nD) (t : Fin cfg1.N) : Vec F S256x64 .f32 :=
  if t.val % 2 = 0 then accFirstHalf V c t
  else k1_pay2 (hRowsAt (grid1.coords t) (hStagedAt V c t))
    (accFirstHalf V c ⟨t.val - 1, Nat.lt_of_le_of_lt (Nat.sub_le _ _) t.isLt⟩) (adjBlockAt V c t)

/-- The result block after point `t`: at odd `t` the finished band, the accumulated product plus the band's own rows. -/
def outAfter (c : Dev nD) (t : Fin cfg1.N) : Vec F S256x64 .f32 :=
  if h : k1_cond2 (grid1.coords t) = 1#1 then k1_pay3 (hBandAt (grid1.coords t) h (hStagedAt V c t)) (accAfter V c t)
  else k1_pay1 (F := F)

theorem accAfter_even (c : Dev nD) (t : Fin cfg1.N) (h : t.val % 2 = 0) : accAfter V c t = accFirstHalf V c t := if_pos h

theorem accAfter_odd (c : Dev nD) (t : Fin cfg1.N) (h : ¬ t.val % 2 = 0) :
    accAfter V c t = k1_pay2 (hRowsAt (grid1.coords t) (hStagedAt V c t))
      (accFirstHalf V c ⟨t.val - 1, Nat.lt_of_le_of_lt (Nat.sub_le _ _) t.isLt⟩) (adjBlockAt V c t) := if_neg h

theorem outAfter_odd (c : Dev nD) (t : Fin cfg1.N) (h : k1_cond2 (grid1.coords t) = 1#1) :
    outAfter V c t = k1_pay3 (hBandAt (grid1.coords t) h (hStagedAt V c t)) (accAfter V c t) := dif_pos h

def PhiS (c : Dev nD) : (n : ℕ) → n ≤ cfg1.N → sProp 𝕄
  | 0, _ => Pipeline.ΦA spec1 c
  | n + 1, hn => iprop(owns (c : Thread nD τ) (Memref.whole cc1_scratch0) fullShare (accAfter V c ⟨n, hn⟩)
      ∗ otherScoped (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) (Memref.whole cc1_scratch0) fullShare (accAfter V c ⟨n, hn⟩)
      ∗ otherScoped (F := F) c ∗ (∃ r, prngReg c r)) := rfl

theorem PhiS_pos (c : Dev nD) (n : ℕ) (h : n ≤ cfg1.N) (hz : n ≠ 0) :
    PhiS V c n h = iprop(owns (c : Thread nD τ) (Memref.whole cc1_scratch0) fullShare (accAfter V c ⟨n - 1, by omega⟩)
      ∗ otherScoped (F := F) c ∗ (∃ r, prngReg c r)) := by
  cases n with
  | zero => exact absurd rfl hz
  | succ n => rfl

def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAfter V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_out (c : Dev nD) (t : Fin cfg1.N) : (dat V c).after 2 t = outAfter V c t := by dsimp only [dat]

theorem before_in0 (c : Dev nD) (t : Fin cfg1.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

theorem before_in1 (c : Dev nD) (t : Fin cfg1.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

abbrev stageAt0 (t : Fin cfg1.N) : Memref sig .tc .vmem S256x8192 .f32 := win1_0.stage (cfg1.slots t 0)
abbrev stageAt1 (t : Fin cfg1.N) : Memref sig .tc .vmem S16384x64 .f32 := win1_1.stage (cfg1.slots t 1)
abbrev stageAt2 (t : Fin cfg1.N) : Memref sig .tc .vmem S256x64 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (stageAt0 t) fullShare ((dat V c).before 0 t d))
    ∗ (∃ d, owns (c : Thread nD τ) (stageAt1 t) fullShare ((dat V c).before 1 t d))
    ∗ (∃ d, owns (c : Thread nD τ) (stageAt2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 2000000 in
/-- One grid point takes the accumulator and the result block from their values before the point to those after it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (stageAt0 t) fullShare ((dat V c).after 0 t) from by
    unfold Dat.leavesExact; rw [live_in0 t], after_in0]
  rw [show (dat V c).leavesExact 1 t = owns (c : Thread nD τ) (stageAt1 t) fullShare ((dat V c).after 1 t) from by
    unfold Dat.leavesExact; rw [live_in1 t], after_in1]
  by_cases h0 : t.val % 2 = 0
  · have hc1 : k1_cond1 (grid1.coords t) := (hcond1 t).mpr h0
    have hc2 : ¬ k1_cond2 (grid1.coords t) = 1#1 := fun h => by have := (hcond2 t).mp h; omega
    rw [Dat.leavesExact_idle (dat V c) 2 t (idle_out_even t h0) (noFlush_out_even t h0)]
    rw [accAfter_even V c t h0]
    unfold accFirstHalf
    by_cases hz : t.val = 0
    · rw [PhiS_castSucc V c t, PhiS_zero V c _ _ hz, PhiA_eq]
      iintro ⟨⟨HS, HR, Hg⟩, Ho, ⟨%d0, H0⟩, ⟨%d1, H1⟩, H2⟩
      iapply (run_first_half c (grid1.coords t) _ _ _ _ _ _ _ _ hc1 hc2 (adjBlockAt V c t) (hStagedAt V c t) Set.univ _)
      isplitl [H0]; · iexact H0
      isplitl [H1]; · iexact H1
      isplitl [HS]; · iexact HS
      iintro ⟨H0, H1, HS⟩
      iframe
    · rw [PhiS_castSucc V c t, PhiS_pos V c _ _ hz]
      iintro ⟨⟨HS, HR, Hg⟩, Ho, ⟨%d0, H0⟩, ⟨%d1, H1⟩, H2⟩
      iapply (run_first_half c (grid1.coords t) _ _ _ _ _ _ _ _ hc1 hc2 (adjBlockAt V c t) (hStagedAt V c t) Set.univ _)
      isplitl [H0]; · iexact H0
      isplitl [H1]; · iexact H1
      isplitl [HS]; · iexists _; iexact HS
      iintro ⟨H0, H1, HS⟩
      iframe
  · have h1 : t.val % 2 = 1 := by omega
    have hc1 : ¬ k1_cond1 (grid1.coords t) := fun h => h0 ((hcond1 t).mp h)
    have hc2 : k1_cond2 (grid1.coords t) = 1#1 := (hcond2 t).mpr h1
    have hz : t.val ≠ 0 := by omega
    rw [show (dat V c).leavesExact 2 t = owns (c : Thread nD τ) (stageAt2 t) fullShare ((dat V c).after 2 t) from by
      unfold Dat.leavesExact; rw [live_out_odd t h1], after_out]
    rw [outAfter_odd V c t hc2, accAfter_odd V c t h0]
    rw [PhiS_castSucc V c t, PhiS_pos V c _ _ hz]
    rw [accAfter_even V c ⟨t.val - 1, _⟩ (by show (t.val - 1) % 2 = 0; omega)]
    iintro ⟨⟨HS, HR, Hg⟩, Ho, ⟨%d0, H0⟩, ⟨%d1, H1⟩, ⟨%d2, H2⟩⟩
    iapply (run_second_half c (grid1.coords t) _ _ _ _ _ _ _ _ hc1 hc2 (adjBlockAt V c t) (hStagedAt V c t)
      (accFirstHalf V c ⟨t.val - 1, Nat.lt_of_le_of_lt (Nat.sub_le _ _) t.isLt⟩) Set.univ _)
    isplitl [H0]; · iexact H0
    isplitl [H1]; · iexact H1
    isplitl [H2]; · iexists _; iexact H2
    isplitl [HS]; · iexact HS
    iintro ⟨H0, H1, H2, HS⟩
    iframe

theorem body_obligation (c : Dev nD) : Pipeline.BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS, HR, Hg⟩
  isplitl [HS]
  · iexists _; iexact HS
  iframe

theorem hout (c : Dev nD) : (dat V c).Φ (Fin.last cfg1.N) ⊢ Pipeline.ΦA spec1 c :=
  Phi_out V c _ (by rw [Fin.val_last]; have : cfg1.N = 128 := N_1; omega)

theorem arrAt_in0 (c : Dev nD) : (dat V c).arrAt 0 cfg1.N = V c main_arg7 :=
  ((dat V c).arrAt_in 0 rfl _).trans (A_eq V c 0)

theorem arrAt_in1 (c : Dev nD) : (dat V c).arrAt 1 cfg1.N = V c main_v22 :=
  ((dat V c).arrAt_in 1 rfl _).trans (A_eq V c 1)

end Cert.Kernel.R1

end
-- ==== Proof.KR2Body.lean ====
import proofs.«421360_j76029511074377_3_alg».proof.Proof.Gen.Kernel.Points
import proofs.«421360_j76029511074377_3_alg».proof.Proof.Gen.Kernel.Launch
import proofs.«421360_j76029511074377_3_alg».proof.Proof.Gen.Kernel.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev fvBlk (c : Dev nD) (t : Fin cfg2.N) : Vec F S2048x64 .f32 := iblk V c 0 t

abbrev segBlk (c : Dev nD) (t : Fin cfg2.N) : Vec F S1x2048 .i32 := iblk V c 1 t

/-- The accumulator after the first `n` pieces of atoms: zero, then one indicator product added per piece. -/
def acc (c : Dev nD) : ℕ → Vec F S1024x64 .f32
  | 0 => k2_pay1 (F := F)
  | n + 1 => if hn : n < cfg2.N then k2_pay2 (segBlk V c ⟨n, hn⟩) (fvBlk V c ⟨n, hn⟩) (acc c n) else acc c n

abbrev scM : Memref sig .tc .vmem S1024x64 .f32 := Memref.whole cc2_scratch0

def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f))

def PhiS (c : Dev nD) : ℕ → sProp 𝕄
  | 0 => Pipeline.ΦA spec2 c
  | n + 1 => iprop(restOf (F := F) c ∗ owns (c : Thread nD τ) scM fullShare (acc V c (n + 1)) ∗ (∃ r, prngReg c r))

def dat (c : Dev nD) : Pipeline.Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc V c (t.val + 1)
  Φ t := PhiS V c t.val
  q _ := fullShare
  owed _ := 0

theorem A_eq (c : Dev nD) (w : Fin cfg2.W) : (dat V c).A w = V c (Pipeline.arrRef spec2 w) := by
  dsimp only [dat]

theorem PhiA_split (c : Dev nD) :
    (Pipeline.ΦA spec2 c : sProp 𝕄) ⊢ iprop(restOf (F := F) c ∗ (∃ d, owns (c : Thread nD τ) scM fullShare d) ∗ (∃ r, prngReg c r)) := by
  unfold Pipeline.ΦA restOf; rw [scopedRest2_eq]; simp only [scM, owns_whole]
  iintro ⟨⟨H1, H2, H3, H4, H5, H6, H7, H8, H9, H10, H11, H12, H13, H14, H15, H16, H17, H18⟩, Hg⟩
  iframe

theorem PhiA_join (c : Dev nD) :
    iprop(restOf (F := F) c ∗ (∃ d, owns (c : Thread nD τ) scM fullShare d) ∗ (∃ r, prngReg c r)) ⊢ (Pipeline.ΦA spec2 c : sProp 𝕄) := by
  unfold Pipeline.ΦA restOf; rw [scopedRest2_eq]; simp only [scM, owns_whole]
  iintro ⟨⟨H1, H2, H3, H4, H5, H6, H7, H8, H9, H10, H11, H12, H14, H15, H16, H17, H18⟩, H13, Hg⟩
  iframe

theorem PhiS_zero (c : Dev nD) : PhiS V c 0 = Pipeline.ΦA spec2 c := rfl

theorem PhiS_succ (c : Dev nD) (n : ℕ) :
    PhiS V c (n + 1) = iprop(restOf (F := F) c ∗ owns (c : Thread nD τ) scM fullShare (acc V c (n + 1)) ∗ (∃ r, prngReg c r)) := rfl

theorem PhiS_pos (c : Dev nD) (n : ℕ) (hn : n ≠ 0) :
    PhiS V c n = iprop(restOf (F := F) c ∗ owns (c : Thread nD τ) scM fullShare (acc V c n) ∗ (∃ r, prngReg c r)) := by
  cases n with
  | zero => exact absurd rfl hn
  | succ n => rfl

theorem hin (c : Dev nD) : Pipeline.ΦA spec2 c ⊢ (dat V c).Φ 0 := by
  rw [show (dat V c).Φ 0 = PhiS V c 0 from rfl, PhiS_zero]

theorem Phi_out (c : Dev nD) (n : ℕ) (hn : n ≠ 0) : PhiS V c n ⊢ Pipeline.ΦA spec2 c := by
  rw [PhiS_pos V c n hn]
  iintro ⟨HR, HS, Hg⟩
  iapply (PhiA_join c)
  isplitl [HR]; · iexact HR
  isplitl [HS]; · iexists _; iexact HS
  iexact Hg

theorem hout (c : Dev nD) : (dat V c).Φ (Fin.last cfg2.N) ⊢ Pipeline.ΦA spec2 c := by
  rw [show (dat V c).Φ (Fin.last cfg2.N) = PhiS V c (Fin.last cfg2.N).val from rfl]
  exact Phi_out V c _ (by rw [Fin.val_last]; have : cfg2.N = 8 := N_2; omega)

abbrev cond1 (i : grid2.Coords) : Prop := (Scalar.cmpi .ne (Scalar.extui (Scalar.cmpi .eq (BitVec.ofNat 32 (i 0).val) 0#32)) 0#32) = 1#1

theorem hcond1 : ∀ t : Fin cfg2.N, cond1 (grid2.coords t) ↔ t.val = 0 :=
  (by decide +kernel : ∀ t : Fin grid2.N, cond1 (grid2.coords t) ↔ t.val = 0)

abbrev cond2 (i : grid2.Coords) : Prop := k2_cond2 i = 1#1

theorem hcond2 : ∀ t : Fin cfg2.N, cond2 (grid2.coords t) ↔ t.val = 7 :=
  (by decide +kernel : ∀ t : Fin grid2.N, cond2 (grid2.coords t) ↔ t.val = 7)

theorem live0 : ∀ t : Fin cfg2.N, cfg2.idle 0 (grid2.coords t) = false := by decide +kernel
theorem live1 : ∀ t : Fin cfg2.N, cfg2.idle 1 (grid2.coords t) = false := by decide +kernel

theorem idle2_of : ∀ t : Fin cfg2.N, ¬cond2 (grid2.coords t) → cfg2.idle 2 (grid2.coords t) = true := by decide +kernel
theorem noFlush2_of : ∀ t : Fin cfg2.N, ¬cond2 (grid2.coords t) → (cfg2.win 2).flush t = false := by decide +kernel

theorem live2_of : ∀ t : Fin cfg2.N, cond2 (grid2.coords t) → cfg2.idle 2 (grid2.coords t) = false := by decide +kernel

theorem hz2 : (![0, 0] : Fin 2 → ℕ) = fun _ => 0 := by
  funext a; fin_cases a <;> rfl

theorem read_writes_last {κ : Kind} {sp : Space} (v : View sig κ sp S1024x64 .f32) (f : v.ty.Contents (Elt F))
    (w : Vec F S1024x64 .f32) (L : List (View.Piece (Elt F) S1024x64 .f32)) :
    v.read (Elt F) (v.writes (Elt F) f ((⟨Rect.unit ![0, 0] S1024x64.size inb_S1024x64_S1024x64_0_0, w⟩ : View.Piece (Elt F) S1024x64 .f32) :: L)) = w := by
  rw [View.read_writes_eq_canon _ _ _ (fun y => ⟨_, List.mem_cons_self, View.mem_set_unit_zero hz2 inb_S1024x64_S1024x64_0_0 y⟩),
    View.canon_cons_unit_zero hz2]

set_option maxHeartbeats 1000000 in
theorem run_mid (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : ¬cond1 i) (hc2 : ¬cond2 i)
    (x0 : Vec F S2048x64 .f32) (x1 : Vec F S1x2048 .i32) (xi xs : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x1 x0 xs)) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2
  obtain rfl := harg4.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [read_writes_last]
  simp only [View.readAt_eq_ld, harg1.read_unread, harg2.read_unread, harg4.read_unread, View.ld_unit_zero (S := S1x2048) hz2, View.ld_unit_zero (S := S2048x64) hz2, View.ld_unit_zero (S := S1024x64) hz2]

set_option maxHeartbeats 1000000 in
theorem run_first (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : cond1 i) (hc2 : ¬cond2 i)
    (x0 : Vec F S2048x64 .f32) (x1 : Vec F S1x2048 .i32) (xi : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x1 x0 (k2_pay1 (F := F)))) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_words
  rw [read_writes_last]
  simp only [View.readAt_eq_ld, harg1.read_unread, harg2.read_unread, View.readCov_unit_zero (S := S1024x64) _ hz2, View.ld_unit_zero (S := S1x2048) hz2, View.ld_unit_zero (S := S2048x64) hz2]

set_option maxHeartbeats 1000000 in
theorem run_last (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : ¬cond1 i) (hc2 : cond2 i)
    (x0 : Vec F S2048x64 .f32) (x1 : Vec F S1x2048 .i32) (xs : Vec F S1024x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x1 x0 xs)
            ∗ owns (c : Thread nD τ) arg4 fullShare (k2_pay2 x1 x0 xs)) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_last]
    simp only [View.readAt_eq_ld, harg1.read_unread, harg2.read_unread, harg4.read_unread, View.readCov_unit_zero (S := S1024x64) _ hz2, View.ld_unit_zero (S := S1x2048) hz2, View.ld_unit_zero (S := S2048x64) hz2, View.ld_unit_zero (S := S1024x64) hz2]
  iexists _; isplitr
  swap; · iexact HS
  ipureintro
  sl_unfold_words
  rw [read_writes_last]
  simp only [View.readAt_eq_ld, harg1.read_unread, harg2.read_unread, harg4.read_unread, View.readCov_unit_zero (S := S1024x64) _ hz2, View.ld_unit_zero (S := S1x2048) hz2, View.ld_unit_zero (S := S2048x64) hz2, View.ld_unit_zero (S := S1024x64) hz2]

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x2048 .i32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x64 .f32 := win2_2.stage (cfg2.slots t 2)
abbrev hs2 (t : Fin cfg2.N) : (ms2 t).IsWhole := hstage2_2 ((cfg2.slots t 2).cast nbuf2_2)

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = acc V c (t.val + 1) := by dsimp only [dat]

theorem before0 (c : Dev nD) (t : Fin cfg2.N) (d) : (dat V c).before 0 t d = iblk V c 0 t := by
  rw [(dat V c).before_fetched 0 t (fetch2_0 t) d]
  unfold Dat.fetched Dat.blockOf iblk; rw [A_eq]; try rfl
theorem before1 (c : Dev nD) (t : Fin cfg2.N) (d) : (dat V c).before 1 t d = iblk V c 1 t := by
  rw [(dat V c).before_fetched 1 t (fetch2_1 t) d]
  unfold Dat.fetched Dat.blockOf iblk; rw [A_eq]; try rfl

theorem acc_succ (c : Dev nD) (t : Fin cfg2.N) :
    acc V c (t.val + 1) = k2_pay2 (segBlk V c t) (fvBlk V c t) (acc V c t.val) := by
  rw [acc]; exact dif_pos t.isLt

theorem leaves0 (c : Dev nD) (t : Fin cfg2.N) :
    (dat V c).leavesExact 0 t = owns (c : Thread nD τ) (ms0 t) fullShare (iblk V c 0 t) := by
  unfold Dat.leavesExact; rw [live0 t, after0]
theorem leaves1 (c : Dev nD) (t : Fin cfg2.N) :
    (dat V c).leavesExact 1 t = owns (c : Thread nD τ) (ms1 t) fullShare (iblk V c 1 t) := by
  unfold Dat.leavesExact; rw [live1 t, after1]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- One grid point adds its piece's indicator product to the accumulator; the last point also stores the sum as the result. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).owesAt () t.succ = (dat V c).owesAt () t.castSucc from rfl]
  rw [show (dat V c).Φ t.succ = PhiS V c (t.val + 1) from rfl, PhiS_succ]
  rw [show (dat V c).Φ t.castSucc = PhiS V c t.val from rfl]
  rw [leaves0, leaves1, acc_succ]
  have hN : t.val < 8 := lt_of_lt_of_eq t.isLt (show cfg2.N = 8 from N_2)
  by_cases h7 : t.val = 7
  · have hc1 : ¬cond1 (grid2.coords t) := fun h => by have := (hcond1 t).mp h; omega
    have hc2 : cond2 (grid2.coords t) := (hcond2 t).mpr h7
    rw [show (dat V c).leavesExact 2 t = owns (c : Thread nD τ) (ms2 t) fullShare ((dat V c).after 2 t) from by
      unfold Dat.leavesExact; rw [live2_of t hc2], after2, acc_succ]
    rw [PhiS_pos V c _ (by omega)]
    iintro ⟨⟨HR, HS, Hg⟩, Ho, ⟨%d0, H0⟩, ⟨%d1, H1⟩, ⟨%d2, H2⟩⟩
    iapply (run_last c (grid2.coords t) _ (hs0 t) _ (hs1 t) _ (hs2 t) _ (Memref.isWhole_whole _) hc1 hc2 (fvBlk V c t) (segBlk V c t) (acc V c t.val) Set.univ _)
    isplitl [H0]; · iexact H0
    isplitl [H1]; · iexact H1
    isplitl [H2]; · iexists _; iexact H2
    isplitl [HS]; · iexact HS
    iintro ⟨H0, H1, H2, HS⟩
    iframe
  · have hc2 : ¬cond2 (grid2.coords t) := fun h => h7 ((hcond2 t).mp h)
    rw [Dat.leavesExact_idle (dat V c) 2 t (idle2_of t hc2) (noFlush2_of t hc2)]
    by_cases h0 : t.val = 0
    · have hc1 : cond1 (grid2.coords t) := (hcond1 t).mpr h0
      rw [show acc V c t.val = k2_pay1 (F := F) from by rw [h0]; rfl]
      rw [show PhiS V c t.val = Pipeline.ΦA spec2 c from by rw [h0]; rfl]
      iintro ⟨HΦ, Ho, ⟨%d0, H0⟩, ⟨%d1, H1⟩, ⟨%d2, H2⟩⟩
      icases (PhiA_split (F := F) c) $$ HΦ with ⟨HR, HS, Hg⟩
      iapply (run_first c (grid2.coords t) _ (hs0 t) _ (hs1 t) _ (hs2 t) _ (Memref.isWhole_whole _) hc1 hc2 (fvBlk V c t) (segBlk V c t) _ Set.univ _)
      isplitl [H0]; · iexact H0
      isplitl [H1]; · iexact H1
      isplitl [H2]; · iexact H2
      isplitl [HS]; · iexact HS
      iintro ⟨H0, H1, H2, HS⟩
      isplitl [HR HS Hg]
      · iframe
      isplitl [Ho]; · iexact Ho
      isplitl [H0]; · iexact H0
      isplitl [H1]; · iexact H1
      iexists _; iexact H2
    · have hc1 : ¬cond1 (grid2.coords t) := fun h => h0 ((hcond1 t).mp h)
      rw [PhiS_pos V c _ h0]
      iintro ⟨⟨HR, HS, Hg⟩, Ho, ⟨%d0, H0⟩, ⟨%d1, H1⟩, ⟨%d2, H2⟩⟩
      iapply (run_mid c (grid2.coords t) _ (hs0 t) _ (hs1 t) _ (hs2 t) _ (Memref.isWhole_whole _) hc1 hc2 (fvBlk V c t) (segBlk V c t) _ (acc V c t.val) Set.univ _)
      isplitl [H0]; · iexact H0
      isplitl [H1]; · iexact H1
      isplitl [H2]; · iexact H2
      isplitl [HS]; · iexact HS
      iintro ⟨H0, H1, H2, HS⟩
      isplitl [HR HS Hg]
      · iframe
      isplitl [Ho]; · iexact Ho
      isplitl [H0]; · iexact H0
      isplitl [H1]; · iexact H1
      iexists _; iexact H2

theorem body_obligation (c : Dev nD) : Pipeline.BodyObligation (dat (F := F) V c) (defs₀ (F := F)) Variants.none () Set.univ := fun t => by
  rw [bigSep_W2, bigSep_W2]
  exact sound_body V c t

theorem arrAt_in0 (c : Dev nD) : (dat V c).arrAt 0 cfg2.N = V c main_v23 :=
  ((dat V c).arrAt_in 0 rfl _).trans (A_eq V c 0)

theorem arrAt_in1 (c : Dev nD) : (dat V c).arrAt 1 cfg2.N = V c main_v24 :=
  ((dat V c).arrAt_in 1 rfl _).trans (A_eq V c 1)

end Cert.Kernel.R2

end
-- ==== Proof.KR3Body.lean ====
import proofs.«421360_j76029511074377_3_alg».proof.Proof.Gen.Kernel.Points
import proofs.«421360_j76029511074377_3_alg».proof.Proof.Gen.Kernel.Launch
import proofs.«421360_j76029511074377_3_alg».proof.Proof.Gen.Kernel.Skeleton
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBip : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rO : Rect S512x512 := Rect.unit (s := S512x512) ![0, 0] S512x512.size inb_S512x512_S512x512_0_0

theorem zeros2 : (![0, 0] : Fin 2 → Nat) = fun _ => 0 := funext fun a => by fin_cases a <;> rfl

/-- The body's one stored value as a function of its four operands. -/
def out (x0 : Vec F S512x1024 .f32) (x1 x2 : Vec F S1024x512 .f32) (x3 : Vec F S512x512 .f32) : Vec F S512x512 .f32 :=
  View.canon [⟨rO, k3_pay1 (View.ld x1 rW) (View.ld x2 rW) (View.ld x0 rBip) (View.ld x3 rO)⟩]

theorem cover (p : Vec F S512x512 .f32) (y : S512x512.Idx) :
    ∃ pc ∈ ([⟨rO, p⟩] : List (View.Piece (Elt F) S512x512 .f32)), y ∈ pc.1.set :=
  ⟨_, List.mem_singleton_self _, View.mem_set_unit_zero (S := S512x512) zeros2 inb_S512x512_S512x512_0_0 y⟩

set_option maxHeartbeats 1000000 in
theorem sound_kernel (c : Dev nD) (E : Set ℕ) (i : grid3.Coords)
    (arg1 : Memref sig .tc .vmem S512x1024 .f32) (harg1 : arg1.IsWhole)
    (arg2 : Memref sig .tc .vmem S1024x512 .f32) (harg2 : arg2.IsWhole)
    (arg3 : Memref sig .tc .vmem S1024x512 .f32) (harg3 : arg3.IsWhole)
    (arg4 : Memref sig .tc .vmem S512x512 .f32) (harg4 : arg4.IsWhole)
    (arg5 : Memref sig .tc .vmem S512x512 .f32) (harg5 : arg5.IsWhole)
    (x0 : Vec F S512x1024 .f32) (x1 x2 : Vec F S1024x512 .f32) (x3 : Vec F S512x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out x0 x1 x2 x3)) -∗ K ⟨⟩))
      ⊢ wp frame (wpE (defs₀ (F := F)) Variants.none c none) E
          (cc3__masked_linear_kernel i arg1 harg1 arg2 harg2 arg3 harg3 arg4 harg4 arg5 harg5) K := by
  simp only [cc3__masked_linear_kernel_eq_skeleton]; unfold cc3__masked_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) :
    (dat V c).after 4 t = out (iblk V c 0 t) (iblk V c 1 t) (iblk V c 2 t) (iblk V c 3 t) := by dsimp only [dat]

theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  iframe

theorem body_obligation (c : Dev nD) : Pipeline.BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := by
  rw [show (dat V c).Φ 0 = Pipeline.ΦA spec3 c from rfl]

theorem hout (c : Dev nD) : (dat V c).Φ (Fin.last cfg3.N) ⊢ Pipeline.ΦA spec3 c := by
  rw [show (dat V c).Φ (Fin.last cfg3.N) = Pipeline.ΦA spec3 c from rfl]

theorem arrAt_in0 (c : Dev nD) : (dat V c).arrAt 0 cfg3.N = V c main_v67 :=
  ((dat V c).arrAt_in 0 rfl _).trans (A_eq V c 0)
theorem arrAt_in1 (c : Dev nD) : (dat V c).arrAt 1 cfg3.N = V c main_arg12 :=
  ((dat V c).arrAt_in 1 rfl _).trans (A_eq V c 1)
theorem arrAt_in2 (c : Dev nD) : (dat V c).arrAt 2 cfg3.N = V c main_v68 :=
  ((dat V c).arrAt_in 2 rfl _).trans (A_eq V c 2)
theorem arrAt_in3 (c : Dev nD) : (dat V c).arrAt 3 cfg3.N = V c main_v63 :=
  ((dat V c).arrAt_in 3 rfl _).trans (A_eq V c 3)

end Cert.Kernel.R3

end
-- ==== Proof.KRun.lean ====
import proofs.«421360_j76029511074377_3_alg».proof.Proof.Gen.Kernel.Regions
import proofs.«421360_j76029511074377_3_alg».proof.Proof.KR0Body
import proofs.«421360_j76029511074377_3_alg».proof.Proof.KR1Body
import proofs.«421360_j76029511074377_3_alg».proof.Proof.KR2Body
import proofs.«421360_j76029511074377_3_alg».proof.Proof.KR3Body
import Idealize.ShloMosaic.Lib.Pipeline.Frame
import Idealize.ShloMosaic.Lib.Pipeline.FrameSuffix
import Idealize.ShloMosaic.Lib.Pipeline.RegionsLoop

set_option maxRecDepth 1200

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def o9 (c : Dev nD) : Buf (Elt F) ((c : Thread nD τ).loc main_v17) := (R0.dat (fun c b => Gen.V8 m c b) c).arrAt 2 cfg0.N

abbrev W9 (c : Dev nD) : Valuation τ sig (Elt F) := Function.update (Gen.V8 m c) main_v17 (o9 m c)
abbrev W10 (c : Dev nD) : Valuation τ sig (Elt F) := StableHlo.after hostOps1 (W9 m c)
abbrev W11 (c : Dev nD) : Valuation τ sig (Elt F) := StableHlo.after hostOps1_1 (W10 m c)

def o12 (c : Dev nD) : Buf (Elt F) ((c : Thread nD τ).loc main_v23) := (R1.dat (fun c b => W11 m c b) c).arrAt 2 cfg1.N
abbrev W12 (c : Dev nD) : Valuation τ sig (Elt F) := Function.update (W11 m c) main_v23 (o12 m c)
abbrev W13 (c : Dev nD) : Valuation τ sig (Elt F) := StableHlo.after hostOps2 (W12 m c)

def o14 (c : Dev nD) : Buf (Elt F) ((c : Thread nD τ).loc main_v25) := (R2.dat (fun c b => W13 m c b) c).arrAt 2 cfg2.N
abbrev W14 (c : Dev nD) : Valuation τ sig (Elt F) := Function.update (W13 m c) main_v25 (o14 m c)
abbrev W15 (c : Dev nD) : Valuation τ sig (Elt F) := StableHlo.after hostOps3 (W14 m c)

def o16 (c : Dev nD) : Buf (Elt F) ((c : Thread nD τ).loc main_v69) := (R3.dat (fun c b => W15 m c b) c).arrAt 4 cfg3.N
abbrev W16 (c : Dev nD) : Valuation τ sig (Elt F) := Function.update (W15 m c) main_v69 (o16 m c)

/-- What each region leaves behind, as the contents of the program's arrays between the items of @main. -/
def outs : Gen.Outs (F := F) := fun J r c =>
  match J with
  | 9 => W9 m c r
  | 12 => W12 m c r
  | 14 => W14 m c r
  | 16 => W16 m c r
  | _ => Gen.V0 m c r

theorem V9_eq (c : Dev nD) : Gen.V9 m (outs m) c = W9 m c := by
  show Function.update (Gen.V8 m c) main_v17 (W9 m c main_v17) = W9 m c
  rw [show W9 m c main_v17 = o9 m c from Function.update_self _ _ _]
theorem V10_eq (c : Dev nD) : Gen.V10 m (outs m) c = W10 m c := by
  show StableHlo.after hostOps1 (Gen.V9 m (outs m) c) = _; rw [V9_eq]
theorem V11_eq (c : Dev nD) : Gen.V11 m (outs m) c = W11 m c := by
  show StableHlo.after hostOps1_1 (Gen.V10 m (outs m) c) = _; rw [V10_eq]
theorem V12_eq (c : Dev nD) : Gen.V12 m (outs m) c = W12 m c := by
  show Function.update (Gen.V11 m (outs m) c) main_v23 (W12 m c main_v23) = W12 m c
  rw [V11_eq, show W12 m c main_v23 = o12 m c from Function.update_self _ _ _]
theorem V13_eq (c : Dev nD) : Gen.V13 m (outs m) c = W13 m c := by
  show StableHlo.after hostOps2 (Gen.V12 m (outs m) c) = _; rw [V12_eq]
theorem V14_eq (c : Dev nD) : Gen.V14 m (outs m) c = W14 m c := by
  show Function.update (Gen.V13 m (outs m) c) main_v25 (W14 m c main_v25) = W14 m c
  rw [V13_eq, show W14 m c main_v25 = o14 m c from Function.update_self _ _ _]
theorem V15_eq (c : Dev nD) : Gen.V15 m (outs m) c = W15 m c := by
  show StableHlo.after hostOps3 (Gen.V14 m (outs m) c) = _; rw [V14_eq]
theorem V16_eq (c : Dev nD) : Gen.V16 m (outs m) c = W16 m c := by
  show Function.update (Gen.V15 m (outs m) c) main_v69 (W16 m c main_v69) = W16 m c
  rw [V15_eq, show W16 m c main_v69 = o16 m c from Function.update_self _ _ _]

def pdats : (p : Fin 4) → (c : Dev nD) → Dat τ (Elt F) Unit ℕ (UR sig nD τ) ℕ (cfgs p) c
  | ⟨0, _⟩ => fun c => R0.dat (fun c b => Gen.V8 m c b) c
  | ⟨1, _⟩ => fun c => R1.dat (fun c b => W11 m c b) c
  | ⟨2, _⟩ => fun c => R2.dat (fun c b => W13 m c b) c
  | ⟨3, _⟩ => fun c => R3.dat (fun c b => W15 m c b) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem W9_out (c : Dev nD) : W9 m c main_v17 = o9 m c := Function.update_self _ _ _
theorem W9_of_ne (c : Dev nD) (r : Ref sig .tc) (h : r ≠ main_v17) : W9 m c r = Gen.V8 m c r :=
  Function.update_of_ne (StableHlo.devRef_ne_of_ne h) _ _
theorem W12_out (c : Dev nD) : W12 m c main_v23 = o12 m c := Function.update_self _ _ _
theorem W12_of_ne (c : Dev nD) (r : Ref sig .tc) (h : r ≠ main_v23) : W12 m c r = W11 m c r :=
  Function.update_of_ne (StableHlo.devRef_ne_of_ne h) _ _
theorem W14_out (c : Dev nD) : W14 m c main_v25 = o14 m c := Function.update_self _ _ _
theorem W14_of_ne (c : Dev nD) (r : Ref sig .tc) (h : r ≠ main_v25) : W14 m c r = W13 m c r :=
  Function.update_of_ne (StableHlo.devRef_ne_of_ne h) _ _
theorem W16_out (c : Dev nD) : W16 m c main_v69 = o16 m c := Function.update_self _ _ _
theorem W16_of_ne (c : Dev nD) (r : Ref sig .tc) (h : r ≠ main_v69) : W16 m c r = W15 m c r :=
  Function.update_of_ne (StableHlo.devRef_ne_of_ne h) _ _

theorem hF0 (c : Dev nD) (w : Fin cfg0.W) : (pdats m 0 c).arrAt w cfg0.N = W9 m c (Pipeline.arrRef spec0 w) := by
  match w with
  | ⟨0, _⟩ => exact (R0.arrAt_in0 (fun c b => Gen.V8 m c b) c).trans (W9_of_ne m c main_arg7 (by decide)).symm
  | ⟨1, _⟩ => exact (R0.arrAt_in1 (fun c b => Gen.V8 m c b) c).trans (W9_of_ne m c main_v16 (by decide)).symm
  | ⟨2, _⟩ => exact (W9_out m c).symm
theorem hrest0 (c : Dev nD) : ∀ b, b ∉ Finset.univ.image (Pipeline.arrRef spec0) → W9 m c b = Gen.V8 m c b :=
  fun b hb => Function.update_of_ne (StableHlo.devRef_ne_of_ne fun e => hb (Finset.mem_image.mpr ⟨2, Finset.mem_univ _, by rw [e]⟩)) _ _

theorem hF1 (c : Dev nD) (w : Fin cfg1.W) : (pdats m 1 c).arrAt w cfg1.N = W12 m c (Pipeline.arrRef spec1 w) := by
  match w with
  | ⟨0, _⟩ => exact (R1.arrAt_in0 (fun c b => W11 m c b) c).trans (W12_of_ne m c main_arg7 (by decide)).symm
  | ⟨1, _⟩ => exact (R1.arrAt_in1 (fun c b => W11 m c b) c).trans (W12_of_ne m c main_v22 (by decide)).symm
  | ⟨2, _⟩ => exact (W12_out m c).symm
theorem hrest1 (c : Dev nD) : ∀ b, b ∉ Finset.univ.image (Pipeline.arrRef spec1) → W12 m c b = W11 m c b :=
  fun b hb => Function.update_of_ne (StableHlo.devRef_ne_of_ne fun e => hb (Finset.mem_image.mpr ⟨2, Finset.mem_univ _, by rw [e]⟩)) _ _

theorem hF2 (c : Dev nD) (w : Fin cfg2.W) : (pdats m 2 c).arrAt w cfg2.N = W14 m c (Pipeline.arrRef spec2 w) := by
  match w with
  | ⟨0, _⟩ => exact (R2.arrAt_in0 (fun c b => W13 m c b) c).trans (W14_of_ne m c main_v23 (by decide)).symm
  | ⟨1, _⟩ => exact (R2.arrAt_in1 (fun c b => W13 m c b) c).trans (W14_of_ne m c main_v24 (by decide)).symm
  | ⟨2, _⟩ => exact (W14_out m c).symm
theorem hrest2 (c : Dev nD) : ∀ b, b ∉ Finset.univ.image (Pipeline.arrRef spec2) → W14 m c b = W13 m c b :=
  fun b hb => Function.update_of_ne (StableHlo.devRef_ne_of_ne fun e => hb (Finset.mem_image.mpr ⟨2, Finset.mem_univ _, by rw [e]⟩)) _ _

theorem hF3 (c : Dev nD) (w : Fin cfg3.W) : (pdats m 3 c).arrAt w cfg3.N = W16 m c (Pipeline.arrRef spec3 w) := by
  match w with
  | ⟨0, _⟩ => exact (R3.arrAt_in0 (fun c b => W15 m c b) c).trans (W16_of_ne m c main_v67 (by decide)).symm
  | ⟨1, _⟩ => exact (R3.arrAt_in1 (fun c b => W15 m c b) c).trans (W16_of_ne m c main_arg12 (by decide)).symm
  | ⟨2, _⟩ => exact (R3.arrAt_in2 (fun c b => W15 m c b) c).trans (W16_of_ne m c main_v68 (by decide)).symm
  | ⟨3, _⟩ => exact (R3.arrAt_in3 (fun c b => W15 m c b) c).trans (W16_of_ne m c main_v63 (by decide)).symm
  | ⟨4, _⟩ => exact (W16_out m c).symm
theorem hrest3 (c : Dev nD) : ∀ b, b ∉ Finset.univ.image (Pipeline.arrRef spec3) → W16 m c b = W15 m c b :=
  fun b hb => Function.update_of_ne (StableHlo.devRef_ne_of_ne fun e => hb (Finset.mem_image.mpr ⟨4, Finset.mem_univ _, by rw [e]⟩)) _ _

set_option backward.isDefEq.respectTransparency.types false in
/-- One region as an item of @main's run: entered with the program's arrays at `Vi`, left with them at `Vo`, given the region's
    body obligation and the two ends of its invariant. -/
def mkReg {p : Fin 4} (lf : Pipeline.LaunchFacts (nD := nD) (τ := τ) cfgs p) (Vi Vo : Dev nD → Valuation τ sig (Elt F))
    (hq : ∀ c w, (pdats m p c).q w = fullShare) (howed : ∀ c t, (pdats m p c).owed t = 0)
    (hrec : ∀ c t, (pdats m p c).recorded t = Set.univ)
    (hA : ∀ c w, (pdats m p c).A w = Vi c (Pipeline.arrRef (cfgs p).spec w))
    (body : ∀ c, BodyObligation (pdats m p c) (defs₀ (F := F)) Variants.none () Set.univ)
    (Φin : ∀ c, Pipeline.ΦA (cfgs p).spec c ⊢ (pdats m p c).Φ 0)
    (Φout : ∀ c, (pdats m p c).Φ (Fin.last (cfgs p).N) ⊢ Pipeline.ΦA (cfgs p).spec c)
    (hF : ∀ c w, (pdats m p c).arrAt w (cfgs p).N = Vo c (Pipeline.arrRef (cfgs p).spec w))
    (hrest : ∀ c b, b ∉ Finset.univ.image (Pipeline.arrRef (cfgs p).spec) → Vo c b = Vi c b) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (body c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) Gen.adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ trivial)
      iexact HO
    iframe
  hin c := by
    refine BIBase.Entails.trans ?_ (Φin c)
    unfold Pipeline.ΦA
    iintro ⟨Hp, -, Hr⟩
    iframe
  hout c := by
    rw [Pipeline.ownSems0_none]
    refine BIBase.Entails.trans (Φout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m Gen.launch0 (Gen.V8 m) (W9 m) (fun _ _ => rfl) (fun _ _ => rfl) (fun _ _ => rfl) (fun _ _ => rfl)
  (R0.body_obligation fun c b => Gen.V8 m c b) (R0.hin fun c b => Gen.V8 m c b) (R0.hout fun c b => Gen.V8 m c b) (hF0 m) (hrest0 m)
def reg1 := mkReg m Gen.launch1 (W11 m) (W12 m) (fun _ _ => rfl) (fun _ _ => rfl) (fun _ _ => rfl) (fun _ _ => rfl)
  (R1.body_obligation fun c b => W11 m c b) (R1.hin fun c b => W11 m c b) (R1.hout fun c b => W11 m c b) (hF1 m) (hrest1 m)
def reg2 := mkReg m Gen.launch2 (W13 m) (W14 m) (fun _ _ => rfl) (fun _ _ => rfl) (fun _ _ => rfl) (fun _ _ => rfl)
  (R2.body_obligation fun c b => W13 m c b) (R2.hin fun c b => W13 m c b) (R2.hout fun c b => W13 m c b) (hF2 m) (hrest2 m)
def reg3 := mkReg m Gen.launch3 (W15 m) (W16 m) (fun _ _ => rfl) (fun _ _ => rfl) (fun _ _ => rfl) (fun _ _ => rfl)
  (R3.body_obligation fun c b => W15 m c b) (R3.hin fun c b => W15 m c b) (R3.hout fun c b => W15 m c b) (hF3 m) (hrest3 m)

/-- The result buffer at region 3's write-back, and every argument as launched. -/
abbrev kept (mem : (ℓ : Loc nD τ sig) → Buf (Elt F) ℓ) (c : Dev nD) : Prop :=
      mem ((c.tc : Thread nD τ).loc main_v69) = o16 m c
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)

variable (ρ : Dev nD → PrngReg)

set_option backward.isDefEq.respectTransparency.types false in
/-- Every execution ends, with the result at region 3's write-back and all nineteen arguments as launched. -/
theorem run : θ_run defs (onTc (τ := τ) (main (F := F))) ⟨m, fun _ => 0, ρ⟩ (fun r => ∀ c : Dev nD, kept m r.2.mem c) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m))
    (fun c Q => by
      rewrite [main_chain c, Pipeline.Seg.run_eq_chain,
        show (Gen.segs m (outs m) 𝒱₀ L lv (fun _ c => R c) () (pdats m) (reg0 m) (reg1 m) (reg2 m) (reg3 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V16 m (outs m) c) ∗ ∃ r, prngReg c r))
    (hch := fun c => ⟨.rfl, .rfl, .rfl, .rfl, .rfl, .rfl, .rfl, .rfl, .rfl,
      by show (iprop(StableHlo.held (c : Thread nD τ) (Pipeline.ucRefs τ sig) (W9 m c) ∗ R c) : sProp 𝕄) ⊢ iprop(StableHlo.held (c : Thread nD τ) (Pipeline.ucRefs τ sig) (Gen.V9 m (outs m) c) ∗ R c); rw [V9_eq],
      .rfl,
      by show (iprop(StableHlo.held (c : Thread nD τ) (Pipeline.ucRefs τ sig) (Gen.V11 m (outs m) c) ∗ R c) : sProp 𝕄) ⊢ iprop(StableHlo.held (c : Thread nD τ) (Pipeline.ucRefs τ sig) (W11 m c) ∗ R c); rw [V11_eq],
      by show (iprop(StableHlo.held (c : Thread nD τ) (Pipeline.ucRefs τ sig) (W12 m c) ∗ R c) : sProp 𝕄) ⊢ iprop(StableHlo.held (c : Thread nD τ) (Pipeline.ucRefs τ sig) (Gen.V12 m (outs m) c) ∗ R c); rw [V12_eq],
      by show (iprop(StableHlo.held (c : Thread nD τ) (Pipeline.ucRefs τ sig) (Gen.V13 m (outs m) c) ∗ R c) : sProp 𝕄) ⊢ iprop(StableHlo.held (c : Thread nD τ) (Pipeline.ucRefs τ sig) (W13 m c) ∗ R c); rw [V13_eq],
      by show (iprop(StableHlo.held (c : Thread nD τ) (Pipeline.ucRefs τ sig) (W14 m c) ∗ R c) : sProp 𝕄) ⊢ iprop(StableHlo.held (c : Thread nD τ) (Pipeline.ucRefs τ sig) (Gen.V14 m (outs m) c) ∗ R c); rw [V14_eq],
      by show (iprop(StableHlo.held (c : Thread nD τ) (Pipeline.ucRefs τ sig) (Gen.V15 m (outs m) c) ∗ R c) : sProp 𝕄) ⊢ iprop(StableHlo.held (c : Thread nD τ) (Pipeline.ucRefs τ sig) (W15 m c) ∗ R c); rw [V15_eq],
      by
        show (iprop(StableHlo.held (c : Thread nD τ) (Pipeline.ucRefs τ sig) (W16 m c) ∗ R c) : sProp 𝕄)
          ⊢ iprop((StableHlo.held (c : Thread nD τ) (Pipeline.ucRefs τ sig) (Gen.V16 m (outs m) c) ∗ ∃ r, prngReg c r) ∗ ∃ W, owes (c.tc : Thread nD τ) (0 : CellTallies nD τ sig Unit) W)
        rw [V16_eq]
        iintro ⟨Hh, Hp, HO⟩
        isplitr [HO]
        · iframe
        iexact HO⟩)
    (hinit := ?_) (QY := fun c s => kept m s.mem c)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (Gen.V0 m c) ∗ R c) : sProp 𝕄) := by
      have hcore : ∀ c : Dev nD, (iprop(unscopedBufs c (fun b => m ((c.tc : Thread nD τ).loc b)) ∗ unscopedSems0 c
            ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ iprop(StableHlo.held (c : Thread nD τ) (Pipeline.ucRefs τ sig) (Gen.V0 m c) ∗ R c) := by
        intro c
        rw [← Pipeline.unscopedBufs_held (Ix := Unit) (Name := ℕ) (U := UR sig nD τ) (Lvl := ℕ) c (Gen.V0 m c)]
        iintro ⟨Hh, -, HO, -, Hp, -⟩
        isplitl [Hh]; · iexact Hh
        isplitl [Hp]; · iexists _; iexact Hp
        iexists ∅; iexact HO
      exact bigSep_mono fun c _ => hcore c
    iintro ⟨H, -⟩
    ihave H' := hsplit $$ H
    imodintro
    iexact H'
  ·
    unfold StableHlo.held
    iintro ⟨⟨Hh, -⟩, HSI⟩
    ihave Hr := (pointsTo_read_all (Pipeline.ucRefs τ sig) (fun b => ((c : Thread nD τ).1, b)) (Gen.V16 m (outs m) c) s') $$ [Hh HSI]
    · isplitl [Hh] <;> iassumption
    icases Hr with ⟨%h, HSI⟩
    imodintro
    isplitr
    · ipureintro
      have key := fun (b : Ref sig .tc) (hb : ¬ (Proc.devRef (τ := τ) .tc b).isScoped) =>
        h (Proc.devRef .tc b) (Finset.mem_filter.mpr ⟨StableHlo.devRef_mem_tcRefs b, hb⟩)
      exact ⟨(key main_v69 (by decide)).trans
          ((congrFun (V16_eq m c) _).trans (Function.update_self _ _ _)),
        (key main_arg0 (by decide)).trans (Gen.V16_main_arg0 m (outs m) c),
        (key main_arg1 (by decide)).trans (Gen.V16_main_arg1 m (outs m) c),
        (key main_arg2 (by decide)).trans (Gen.V16_main_arg2 m (outs m) c),
        (key main_arg3 (by decide)).trans (Gen.V16_main_arg3 m (outs m) c),
        (key main_arg4 (by decide)).trans (Gen.V16_main_arg4 m (outs m) c),
        (key main_arg5 (by decide)).trans (Gen.V16_main_arg5 m (outs m) c),
        (key main_arg6 (by decide)).trans (Gen.V16_main_arg6 m (outs m) c),
        (key main_arg7 (by decide)).trans (Gen.V16_main_arg7 m (outs m) c),
        (key main_arg8 (by decide)).trans (Gen.V16_main_arg8 m (outs m) c),
        (key main_arg9 (by decide)).trans (Gen.V16_main_arg9 m (outs m) c),
        (key main_arg10 (by decide)).trans (Gen.V16_main_arg10 m (outs m) c),
        (key main_arg11 (by decide)).trans (Gen.V16_main_arg11 m (outs m) c),
        (key main_arg12 (by decide)).trans (Gen.V16_main_arg12 m (outs m) c),
        (key main_arg13 (by decide)).trans (Gen.V16_main_arg13 m (outs m) c),
        (key main_arg14 (by decide)).trans (Gen.V16_main_arg14 m (outs m) c),
        (key main_arg15 (by decide)).trans (Gen.V16_main_arg15 m (outs m) c),
        (key main_arg16 (by decide)).trans (Gen.V16_main_arg16 m (outs m) c),
        (key main_arg17 (by decide)).trans (Gen.V16_main_arg17 m (outs m) c),
        (key main_arg18 (by decide)).trans (Gen.V16_main_arg18 m (outs m) c)⟩
    · iexact HSI

end Cert.Kernel.Run

end
-- ==== Proof.R0Body.lean ====
import proofs.«421360_j76029511074377_3_alg».proof.Proof.Gen.KernelIdeal.Points
import proofs.«421360_j76029511074377_3_alg».proof.Proof.Gen.KernelIdeal.Launch
import proofs.«421360_j76029511074377_3_alg».proof.Proof.Gen.KernelIdeal.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev k0_cond1 (i : grid0.Coords) : Prop :=
  (Scalar.cmpi .ne (Scalar.extui (Scalar.cmpi .eq (BitVec.ofNat 32 (i 1).val) 0#32)) 0#32) = 1#1

abbrev hRowsAt (i : grid0.Coords) (x1 : Vec F S16384x64 .f32) : Vec F S8192x64 .f32 :=
  View.ld x1 (Rect.unit (s := S16384x64) (k0_off1 i) S8192x64.size (k0_off1_inb i))

abbrev hBandAt (i : grid0.Coords) (h2 : k0_cond2 i = 1#1) (x1 : Vec F S16384x64 .f32) : Vec F S256x64 .f32 :=
  View.ld x1 (Rect.unit (s := S16384x64) (k0_off2 i) S256x64.size (k0_off2_inb i h2))

theorem zero_offsets_S256x64 : (![0, 0] : Fin S256x64.rank → Nat) = fun _ => 0 := by
  funext a; fin_cases a <;> rfl

theorem zero_offsets_S256x8192 : (![0, 0] : Fin S256x8192.rank → Nat) = fun _ => 0 := by
  funext a; fin_cases a <;> rfl

set_option maxHeartbeats 1000000 in
theorem run_first_half (c : Dev nD) (i : grid0.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : k0_cond1 i) (hc2 : ¬ k0_cond2 i = 1#1)
    (x0 : Vec F S256x8192 .f32) (x1 : Vec F S16384x64 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k0_pay2 (hRowsAt i x1) (k0_pay1 (F := F)) x0)) -∗ K ⟨⟩))
      ⊢ wp frame (wpE (defs₀ (F := F)) Variants.none c none) E (cc0__gnn_layer_kernel i arg2 harg2 arg3 harg3 arg4 harg4 arg5 harg5) K := by
  simp only [cc0__gnn_layer_kernel_eq_skeleton]; unfold cc0__gnn_layer_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero zero_offsets_S256x64 inb_S256x64_S256x64_0_0 y⟩),
    View.canon_cons_unit_zero zero_offsets_S256x64]
  sl_unfold_run_names
  simp only [View.readAt_eq_ld, harg2.read_unread, harg3.read_unread, View.ld_unit_zero (S := S256x8192) zero_offsets_S256x8192,
    View.readCov_unit_zero (S := S256x64) _ zero_offsets_S256x64]

set_option maxHeartbeats 1000000 in
theorem run_second_half (c : Dev nD) (i : grid0.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : ¬ k0_cond1 i) (hc2 : k0_cond2 i = 1#1)
    (x0 : Vec F S256x8192 .f32) (x1 : Vec F S16384x64 .f32) (xs : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (hBandAt i hc2 x1) (k0_pay2 (hRowsAt i x1) xs x0))
            ∗ owns (c : Thread nD τ) arg5 fullShare (k0_pay2 (hRowsAt i x1) xs x0)) -∗ K ⟨⟩))
      ⊢ wp frame (wpE (defs₀ (F := F)) Variants.none c none) E (cc0__gnn_layer_kernel i arg2 harg2 arg3 harg3 arg4 harg4 arg5 harg5) K := by
  simp only [cc0__gnn_layer_kernel_eq_skeleton]; unfold cc0__gnn_layer_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero zero_offsets_S256x64 inb_S256x64_S256x64_0_0 y⟩),
      View.canon_unit_zero zero_offsets_S256x64]
    sl_unfold_run_names
    simp only [View.readAt_eq_ld, harg2.read_unread, harg3.read_unread, harg5.read_unread, View.ld_unit_zero (S := S256x8192) zero_offsets_S256x8192,
      View.ld_unit_zero (S := S256x64) zero_offsets_S256x64, View.readCov_unit_zero (S := S256x64) _ zero_offsets_S256x64]
  iexists _; isplitr
  swap; · iexact HS0
  ipureintro
  sl_unfold_run_names
  rw [View.read_writes_eq_canon _ _ _ (fun y => ⟨_, List.mem_cons_self, View.mem_set_unit_zero zero_offsets_S256x64 inb_S256x64_S256x64_0_0 y⟩),
    View.canon_unit_zero zero_offsets_S256x64]
  simp only [View.readAt_eq_ld, harg2.read_unread, harg3.read_unread, harg5.read_unread, View.ld_unit_zero (S := S256x8192) zero_offsets_S256x8192,
    View.ld_unit_zero (S := S256x64) zero_offsets_S256x64]

theorem hcond1 : ∀ t : Fin cfg0.N, k0_cond1 (grid0.coords t) ↔ t.val % 2 = 0 :=
  (by decide +kernel : ∀ t : Fin grid0.N, k0_cond1 (grid0.coords t) ↔ t.val % 2 = 0)

theorem hcond2 : ∀ t : Fin cfg0.N, (k0_cond2 (grid0.coords t) = 1#1) ↔ t.val % 2 = 1 :=
  (by decide +kernel : ∀ t : Fin grid0.N, (k0_cond2 (grid0.coords t) = 1#1) ↔ t.val % 2 = 1)

theorem live_in0 : ∀ t : Fin cfg0.N, cfg0.idle 0 (grid0.coords t) = false := by decide +kernel
theorem live_in1 : ∀ t : Fin cfg0.N, cfg0.idle 1 (grid0.coords t) = false := by decide +kernel

theorem idle_out_even : ∀ t : Fin cfg0.N, t.val % 2 = 0 → cfg0.idle 2 (grid0.coords t) = true := by decide +kernel
theorem live_out_odd : ∀ t : Fin cfg0.N, t.val % 2 = 1 → cfg0.idle 2 (grid0.coords t) = false := by decide +kernel

theorem noFlush_out_even (t : Fin cfg0.N) (h : t.val % 2 = 0) : (cfg0.win 2).flush t = false := by
  cases hf : (cfg0.win 2).flush t
  · rfl
  · have := (flush0_2 t).mp hf; omega

abbrev otherScoped (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop((∃ d, owns (c : Thread nD τ) (Memref.whole cc0_scratch0) fullShare d) ∗ otherScoped (F := F) c ∗ (∃ r, prngReg c r)) := by
  unfold Pipeline.ΦA
  rw [Pipeline.scopedRest_split_of_list spec0 c [cc0_scratch0] (by decide) (by decide)]
  simp only [Idealize.SL.BI.bigSepL_singleton, owns_whole]
  exact equiv_iff.mp ⟨BI.sep_assoc, BI.sep_assoc'⟩

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev adjBlockAt (c : Dev nD) (t : Fin cfg0.N) : Vec F S256x8192 .f32 := iblk V c 0 t

abbrev hStagedAt (c : Dev nD) (t : Fin cfg0.N) : Vec F S16384x64 .f32 := iblk V c 1 t

/-- The band's product with the first 8192 columns: the accumulator after an even point. -/
def accFirstHalf (c : Dev nD) (t : Fin cfg0.N) : Vec F S256x64 .f32 :=
  k0_pay2 (hRowsAt (grid0.coords t) (hStagedAt V c t)) (k0_pay1 (F := F)) (adjBlockAt V c t)

/-- The accumulator after point `t`: the first-half product at even `t`, that plus the second-half product at odd `t`. -/
def accAfter (c : Dev nD) (t : Fin cfg0.N) : Vec F S256x64 .f32 :=
  if t.val % 2 = 0 then accFirstHalf V c t
  else k0_pay2 (hRowsAt (grid0.coords t) (hStagedAt V c t))
    (accFirstHalf V c ⟨t.val - 1, Nat.lt_of_le_of_lt (Nat.sub_le _ _) t.isLt⟩) (adjBlockAt V c t)

/-- The result block after point `t`: at odd `t` the finished band, the accumulated product plus the band's own rows. -/
def outAfter (c : Dev nD) (t : Fin cfg0.N) : Vec F S256x64 .f32 :=
  if h : k0_cond2 (grid0.coords t) = 1#1 then k0_pay3 (hBandAt (grid0.coords t) h (hStagedAt V c t)) (accAfter V c t)
  else k0_pay1 (F := F)

theorem accAfter_even (c : Dev nD) (t : Fin cfg0.N) (h : t.val % 2 = 0) : accAfter V c t = accFirstHalf V c t := if_pos h

theorem accAfter_odd (c : Dev nD) (t : Fin cfg0.N) (h : ¬ t.val % 2 = 0) :
    accAfter V c t = k0_pay2 (hRowsAt (grid0.coords t) (hStagedAt V c t))
      (accFirstHalf V c ⟨t.val - 1, Nat.lt_of_le_of_lt (Nat.sub_le _ _) t.isLt⟩) (adjBlockAt V c t) := if_neg h

theorem outAfter_odd (c : Dev nD) (t : Fin cfg0.N) (h : k0_cond2 (grid0.coords t) = 1#1) :
    outAfter V c t = k0_pay3 (hBandAt (grid0.coords t) h (hStagedAt V c t)) (accAfter V c t) := dif_pos h

def PhiS (c : Dev nD) : (n : ℕ) → n ≤ cfg0.N → sProp 𝕄
  | 0, _ => Pipeline.ΦA spec0 c
  | n + 1, hn => iprop(owns (c : Thread nD τ) (Memref.whole cc0_scratch0) fullShare (accAfter V c ⟨n, hn⟩)
      ∗ otherScoped (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) (Memref.whole cc0_scratch0) fullShare (accAfter V c ⟨n, hn⟩)
      ∗ otherScoped (F := F) c ∗ (∃ r, prngReg c r)) := rfl

theorem PhiS_pos (c : Dev nD) (n : ℕ) (h : n ≤ cfg0.N) (hz : n ≠ 0) :
    PhiS V c n h = iprop(owns (c : Thread nD τ) (Memref.whole cc0_scratch0) fullShare (accAfter V c ⟨n - 1, by omega⟩)
      ∗ otherScoped (F := F) c ∗ (∃ r, prngReg c r)) := by
  cases n with
  | zero => exact absurd rfl hz
  | succ n => rfl

def dat (c : Dev nD) : Pipeline.Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAfter V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_out (c : Dev nD) (t : Fin cfg0.N) : (dat V c).after 2 t = outAfter V c t := by dsimp only [dat]

theorem before_in0 (c : Dev nD) (t : Fin cfg0.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

theorem before_in1 (c : Dev nD) (t : Fin cfg0.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

abbrev stageAt0 (t : Fin cfg0.N) : Memref sig .tc .vmem S256x8192 .f32 := win0_0.stage (cfg0.slots t 0)
abbrev stageAt1 (t : Fin cfg0.N) : Memref sig .tc .vmem S16384x64 .f32 := win0_1.stage (cfg0.slots t 1)
abbrev stageAt2 (t : Fin cfg0.N) : Memref sig .tc .vmem S256x64 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (stageAt0 t) fullShare ((dat V c).before 0 t d))
    ∗ (∃ d, owns (c : Thread nD τ) (stageAt1 t) fullShare ((dat V c).before 1 t d))
    ∗ (∃ d, owns (c : Thread nD τ) (stageAt2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 2000000 in
/-- One grid point takes the accumulator and the result block from their values before the point to those after it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (stageAt0 t) fullShare ((dat V c).after 0 t) from by
    unfold Dat.leavesExact; rw [live_in0 t], after_in0]
  rw [show (dat V c).leavesExact 1 t = owns (c : Thread nD τ) (stageAt1 t) fullShare ((dat V c).after 1 t) from by
    unfold Dat.leavesExact; rw [live_in1 t], after_in1]
  by_cases h0 : t.val % 2 = 0
  · have hc1 : k0_cond1 (grid0.coords t) := (hcond1 t).mpr h0
    have hc2 : ¬ k0_cond2 (grid0.coords t) = 1#1 := fun h => by have := (hcond2 t).mp h; omega
    rw [Dat.leavesExact_idle (dat V c) 2 t (idle_out_even t h0) (noFlush_out_even t h0)]
    rw [accAfter_even V c t h0]
    unfold accFirstHalf
    by_cases hz : t.val = 0
    · rw [PhiS_castSucc V c t, PhiS_zero V c _ _ hz, PhiA_eq]
      iintro ⟨⟨HS, HR, Hg⟩, Ho, ⟨%d0, H0⟩, ⟨%d1, H1⟩, H2⟩
      iapply (run_first_half c (grid0.coords t) _ _ _ _ _ _ _ _ hc1 hc2 (adjBlockAt V c t) (hStagedAt V c t) Set.univ _)
      isplitl [H0]; · iexact H0
      isplitl [H1]; · iexact H1
      isplitl [HS]; · iexact HS
      iintro ⟨H0, H1, HS⟩
      iframe
    · rw [PhiS_castSucc V c t, PhiS_pos V c _ _ hz]
      iintro ⟨⟨HS, HR, Hg⟩, Ho, ⟨%d0, H0⟩, ⟨%d1, H1⟩, H2⟩
      iapply (run_first_half c (grid0.coords t) _ _ _ _ _ _ _ _ hc1 hc2 (adjBlockAt V c t) (hStagedAt V c t) Set.univ _)
      isplitl [H0]; · iexact H0
      isplitl [H1]; · iexact H1
      isplitl [HS]; · iexists _; iexact HS
      iintro ⟨H0, H1, HS⟩
      iframe
  · have h1 : t.val % 2 = 1 := by omega
    have hc1 : ¬ k0_cond1 (grid0.coords t) := fun h => h0 ((hcond1 t).mp h)
    have hc2 : k0_cond2 (grid0.coords t) = 1#1 := (hcond2 t).mpr h1
    have hz : t.val ≠ 0 := by omega
    rw [show (dat V c).leavesExact 2 t = owns (c : Thread nD τ) (stageAt2 t) fullShare ((dat V c).after 2 t) from by
      unfold Dat.leavesExact; rw [live_out_odd t h1], after_out]
    rw [outAfter_odd V c t hc2, accAfter_odd V c t h0]
    rw [PhiS_castSucc V c t, PhiS_pos V c _ _ hz]
    rw [accAfter_even V c ⟨t.val - 1, _⟩ (by show (t.val - 1) % 2 = 0; omega)]
    iintro ⟨⟨HS, HR, Hg⟩, Ho, ⟨%d0, H0⟩, ⟨%d1, H1⟩, ⟨%d2, H2⟩⟩
    iapply (run_second_half c (grid0.coords t) _ _ _ _ _ _ _ _ hc1 hc2 (adjBlockAt V c t) (hStagedAt V c t)
      (accFirstHalf V c ⟨t.val - 1, Nat.lt_of_le_of_lt (Nat.sub_le _ _) t.isLt⟩) Set.univ _)
    isplitl [H0]; · iexact H0
    isplitl [H1]; · iexact H1
    isplitl [H2]; · iexists _; iexact H2
    isplitl [HS]; · iexact HS
    iintro ⟨H0, H1, H2, HS⟩
    iframe

theorem body_obligation (c : Dev nD) : Pipeline.BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨HS, HR, Hg⟩
  isplitl [HS]
  · iexists _; iexact HS
  iframe

theorem hout (c : Dev nD) : (dat V c).Φ (Fin.last cfg0.N) ⊢ Pipeline.ΦA spec0 c :=
  Phi_out V c _ (by rw [Fin.val_last]; have : cfg0.N = 128 := N_0; omega)

theorem arrAt_in0 (c : Dev nD) : (dat V c).arrAt 0 cfg0.N = V c main_arg7 :=
  ((dat V c).arrAt_in 0 rfl _).trans (A_eq V c 0)

theorem arrAt_in1 (c : Dev nD) : (dat V c).arrAt 1 cfg0.N = V c main_v16 :=
  ((dat V c).arrAt_in 1 rfl _).trans (A_eq V c 1)

end Cert.KernelIdeal.R0

end
-- ==== Proof.R1Body.lean ====
import proofs.«421360_j76029511074377_3_alg».proof.Proof.Gen.KernelIdeal.Points
import proofs.«421360_j76029511074377_3_alg».proof.Proof.Gen.KernelIdeal.Launch
import proofs.«421360_j76029511074377_3_alg».proof.Proof.Gen.KernelIdeal.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev k1_cond1 (i : grid1.Coords) : Prop :=
  (Scalar.cmpi .ne (Scalar.extui (Scalar.cmpi .eq (BitVec.ofNat 32 (i 1).val) 0#32)) 0#32) = 1#1

abbrev hRowsAt (i : grid1.Coords) (x1 : Vec F S16384x64 .f32) : Vec F S8192x64 .f32 :=
  View.ld x1 (Rect.unit (s := S16384x64) (k1_off1 i) S8192x64.size (k1_off1_inb i))

abbrev hBandAt (i : grid1.Coords) (h2 : k1_cond2 i = 1#1) (x1 : Vec F S16384x64 .f32) : Vec F S256x64 .f32 :=
  View.ld x1 (Rect.unit (s := S16384x64) (k1_off2 i) S256x64.size (k1_off2_inb i h2))

theorem zero_offsets_S256x64 : (![0, 0] : Fin S256x64.rank → Nat) = fun _ => 0 := by
  funext a; fin_cases a <;> rfl

theorem zero_offsets_S256x8192 : (![0, 0] : Fin S256x8192.rank → Nat) = fun _ => 0 := by
  funext a; fin_cases a <;> rfl

set_option maxHeartbeats 1000000 in
theorem run_first_half (c : Dev nD) (i : grid1.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : k1_cond1 i) (hc2 : ¬ k1_cond2 i = 1#1)
    (x0 : Vec F S256x8192 .f32) (x1 : Vec F S16384x64 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (hRowsAt i x1) (k1_pay1 (F := F)) x0)) -∗ K ⟨⟩))
      ⊢ wp frame (wpE (defs₀ (F := F)) Variants.none c none) E (cc1__gnn_layer_kernel i arg2 harg2 arg3 harg3 arg4 harg4 arg5 harg5) K := by
  simp only [cc1__gnn_layer_kernel_eq_skeleton]; unfold cc1__gnn_layer_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero zero_offsets_S256x64 inb_S256x64_S256x64_0_0 y⟩),
    View.canon_cons_unit_zero zero_offsets_S256x64]
  sl_unfold_run_names
  simp only [View.readAt_eq_ld, harg2.read_unread, harg3.read_unread, View.ld_unit_zero (S := S256x8192) zero_offsets_S256x8192,
    View.readCov_unit_zero (S := S256x64) _ zero_offsets_S256x64]

set_option maxHeartbeats 1000000 in
theorem run_second_half (c : Dev nD) (i : grid1.Coords)
    (arg2 : Memref sig .tc .vmem S256x8192 .f32) (harg2 : arg2.IsWhole) (arg3 : Memref sig .tc .vmem S16384x64 .f32) (harg3 : arg3.IsWhole)
    (arg4 : Memref sig .tc .vmem S256x64 .f32) (harg4 : arg4.IsWhole) (arg5 : Memref sig .tc .vmem S256x64 .f32) (harg5 : arg5.IsWhole)
    (hc1 : ¬ k1_cond1 i) (hc2 : k1_cond2 i = 1#1)
    (x0 : Vec F S256x8192 .f32) (x1 : Vec F S16384x64 .f32) (xs : Vec F S256x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (hBandAt i hc2 x1) (k1_pay2 (hRowsAt i x1) xs x0))
            ∗ owns (c : Thread nD τ) arg5 fullShare (k1_pay2 (hRowsAt i x1) xs x0)) -∗ K ⟨⟩))
      ⊢ wp frame (wpE (defs₀ (F := F)) Variants.none c none) E (cc1__gnn_layer_kernel i arg2 harg2 arg3 harg3 arg4 harg4 arg5 harg5) K := by
  simp only [cc1__gnn_layer_kernel_eq_skeleton]; unfold cc1__gnn_layer_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero zero_offsets_S256x64 inb_S256x64_S256x64_0_0 y⟩),
      View.canon_unit_zero zero_offsets_S256x64]
    sl_unfold_run_names
    simp only [View.readAt_eq_ld, harg2.read_unread, harg3.read_unread, harg5.read_unread, View.ld_unit_zero (S := S256x8192) zero_offsets_S256x8192,
      View.ld_unit_zero (S := S256x64) zero_offsets_S256x64, View.readCov_unit_zero (S := S256x64) _ zero_offsets_S256x64]
  iexists _; isplitr
  swap; · iexact HS0
  ipureintro
  sl_unfold_run_names
  rw [View.read_writes_eq_canon _ _ _ (fun y => ⟨_, List.mem_cons_self, View.mem_set_unit_zero zero_offsets_S256x64 inb_S256x64_S256x64_0_0 y⟩),
    View.canon_unit_zero zero_offsets_S256x64]
  simp only [View.readAt_eq_ld, harg2.read_unread, harg3.read_unread, harg5.read_unread, View.ld_unit_zero (S := S256x8192) zero_offsets_S256x8192,
    View.ld_unit_zero (S := S256x64) zero_offsets_S256x64]

theorem hcond1 : ∀ t : Fin cfg1.N, k1_cond1 (grid1.coords t) ↔ t.val % 2 = 0 :=
  (by decide +kernel : ∀ t : Fin grid1.N, k1_cond1 (grid1.coords t) ↔ t.val % 2 = 0)

theorem hcond2 : ∀ t : Fin cfg1.N, (k1_cond2 (grid1.coords t) = 1#1) ↔ t.val % 2 = 1 :=
  (by decide +kernel : ∀ t : Fin grid1.N, (k1_cond2 (grid1.coords t) = 1#1) ↔ t.val % 2 = 1)

theorem live_in0 : ∀ t : Fin cfg1.N, cfg1.idle 0 (grid1.coords t) = false := by decide +kernel
theorem live_in1 : ∀ t : Fin cfg1.N, cfg1.idle 1 (grid1.coords t) = false := by decide +kernel

theorem idle_out_even : ∀ t : Fin cfg1.N, t.val % 2 = 0 → cfg1.idle 2 (grid1.coords t) = true := by decide +kernel
theorem live_out_odd : ∀ t : Fin cfg1.N, t.val % 2 = 1 → cfg1.idle 2 (grid1.coords t) = false := by decide +kernel

theorem noFlush_out_even (t : Fin cfg1.N) (h : t.val % 2 = 0) : (cfg1.win 2).flush t = false := by
  cases hf : (cfg1.win 2).flush t
  · rfl
  · have := (flush1_2 t).mp hf; omega

abbrev otherScoped (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop((∃ d, owns (c : Thread nD τ) (Memref.whole cc1_scratch0) fullShare d) ∗ otherScoped (F := F) c ∗ (∃ r, prngReg c r)) := by
  unfold Pipeline.ΦA
  rw [Pipeline.scopedRest_split_of_list spec1 c [cc1_scratch0] (by decide) (by decide)]
  simp only [Idealize.SL.BI.bigSepL_singleton, owns_whole]
  exact equiv_iff.mp ⟨BI.sep_assoc, BI.sep_assoc'⟩

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adjBlockAt (c : Dev nD) (t : Fin cfg1.N) : Vec F S256x8192 .f32 := iblk V c 0 t

abbrev hStagedAt (c : Dev nD) (t : Fin cfg1.N) : Vec F S16384x64 .f32 := iblk V c 1 t

/-- The band's product with the first 8192 columns: the accumulator after an even point. -/
def accFirstHalf (c : Dev nD) (t : Fin cfg1.N) : Vec F S256x64 .f32 :=
  k1_pay2 (hRowsAt (grid1.coords t) (hStagedAt V c t)) (k1_pay1 (F := F)) (adjBlockAt V c t)

/-- The accumulator after point `t`: the first-half product at even `t`, that plus the second-half product at odd `t`. -/
def accAfter (c : Dev nD) (t : Fin cfg1.N) : Vec F S256x64 .f32 :=
  if t.val % 2 = 0 then accFirstHalf V c t
  else k1_pay2 (hRowsAt (grid1.coords t) (hStagedAt V c t))
    (accFirstHalf V c ⟨t.val - 1, Nat.lt_of_le_of_lt (Nat.sub_le _ _) t.isLt⟩) (adjBlockAt V c t)

/-- The result block after point `t`: at odd `t` the finished band, the accumulated product plus the band's own rows. -/
def outAfter (c : Dev nD) (t : Fin cfg1.N) : Vec F S256x64 .f32 :=
  if h : k1_cond2 (grid1.coords t) = 1#1 then k1_pay3 (hBandAt (grid1.coords t) h (hStagedAt V c t)) (accAfter V c t)
  else k1_pay1 (F := F)

theorem accAfter_even (c : Dev nD) (t : Fin cfg1.N) (h : t.val % 2 = 0) : accAfter V c t = accFirstHalf V c t := if_pos h

theorem accAfter_odd (c : Dev nD) (t : Fin cfg1.N) (h : ¬ t.val % 2 = 0) :
    accAfter V c t = k1_pay2 (hRowsAt (grid1.coords t) (hStagedAt V c t))
      (accFirstHalf V c ⟨t.val - 1, Nat.lt_of_le_of_lt (Nat.sub_le _ _) t.isLt⟩) (adjBlockAt V c t) := if_neg h

theorem outAfter_odd (c : Dev nD) (t : Fin cfg1.N) (h : k1_cond2 (grid1.coords t) = 1#1) :
    outAfter V c t = k1_pay3 (hBandAt (grid1.coords t) h (hStagedAt V c t)) (accAfter V c t) := dif_pos h

def PhiS (c : Dev nD) : (n : ℕ) → n ≤ cfg1.N → sProp 𝕄
  | 0, _ => Pipeline.ΦA spec1 c
  | n + 1, hn => iprop(owns (c : Thread nD τ) (Memref.whole cc1_scratch0) fullShare (accAfter V c ⟨n, hn⟩)
      ∗ otherScoped (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) (Memref.whole cc1_scratch0) fullShare (accAfter V c ⟨n, hn⟩)
      ∗ otherScoped (F := F) c ∗ (∃ r, prngReg c r)) := rfl

theorem PhiS_pos (c : Dev nD) (n : ℕ) (h : n ≤ cfg1.N) (hz : n ≠ 0) :
    PhiS V c n h = iprop(owns (c : Thread nD τ) (Memref.whole cc1_scratch0) fullShare (accAfter V c ⟨n - 1, by omega⟩)
      ∗ otherScoped (F := F) c ∗ (∃ r, prngReg c r)) := by
  cases n with
  | zero => exact absurd rfl hz
  | succ n => rfl

def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAfter V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_out (c : Dev nD) (t : Fin cfg1.N) : (dat V c).after 2 t = outAfter V c t := by dsimp only [dat]

theorem before_in0 (c : Dev nD) (t : Fin cfg1.N) (d) : (dat V c).before 0 t d = iblk V c 0 t :=
  ((dat V c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

theorem before_in1 (c : Dev nD) (t : Fin cfg1.N) (d) : (dat V c).before 1 t d = iblk V c 1 t :=
  ((dat V c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

abbrev stageAt0 (t : Fin cfg1.N) : Memref sig .tc .vmem S256x8192 .f32 := win1_0.stage (cfg1.slots t 0)
abbrev stageAt1 (t : Fin cfg1.N) : Memref sig .tc .vmem S16384x64 .f32 := win1_1.stage (cfg1.slots t 1)
abbrev stageAt2 (t : Fin cfg1.N) : Memref sig .tc .vmem S256x64 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (stageAt0 t) fullShare ((dat V c).before 0 t d))
    ∗ (∃ d, owns (c : Thread nD τ) (stageAt1 t) fullShare ((dat V c).before 1 t d))
    ∗ (∃ d, owns (c : Thread nD τ) (stageAt2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 2000000 in
/-- One grid point takes the accumulator and the result block from their values before the point to those after it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (stageAt0 t) fullShare ((dat V c).after 0 t) from by
    unfold Dat.leavesExact; rw [live_in0 t], after_in0]
  rw [show (dat V c).leavesExact 1 t = owns (c : Thread nD τ) (stageAt1 t) fullShare ((dat V c).after 1 t) from by
    unfold Dat.leavesExact; rw [live_in1 t], after_in1]
  by_cases h0 : t.val % 2 = 0
  · have hc1 : k1_cond1 (grid1.coords t) := (hcond1 t).mpr h0
    have hc2 : ¬ k1_cond2 (grid1.coords t) = 1#1 := fun h => by have := (hcond2 t).mp h; omega
    rw [Dat.leavesExact_idle (dat V c) 2 t (idle_out_even t h0) (noFlush_out_even t h0)]
    rw [accAfter_even V c t h0]
    unfold accFirstHalf
    by_cases hz : t.val = 0
    · rw [PhiS_castSucc V c t, PhiS_zero V c _ _ hz, PhiA_eq]
      iintro ⟨⟨HS, HR, Hg⟩, Ho, ⟨%d0, H0⟩, ⟨%d1, H1⟩, H2⟩
      iapply (run_first_half c (grid1.coords t) _ _ _ _ _ _ _ _ hc1 hc2 (adjBlockAt V c t) (hStagedAt V c t) Set.univ _)
      isplitl [H0]; · iexact H0
      isplitl [H1]; · iexact H1
      isplitl [HS]; · iexact HS
      iintro ⟨H0, H1, HS⟩
      iframe
    · rw [PhiS_castSucc V c t, PhiS_pos V c _ _ hz]
      iintro ⟨⟨HS, HR, Hg⟩, Ho, ⟨%d0, H0⟩, ⟨%d1, H1⟩, H2⟩
      iapply (run_first_half c (grid1.coords t) _ _ _ _ _ _ _ _ hc1 hc2 (adjBlockAt V c t) (hStagedAt V c t) Set.univ _)
      isplitl [H0]; · iexact H0
      isplitl [H1]; · iexact H1
      isplitl [HS]; · iexists _; iexact HS
      iintro ⟨H0, H1, HS⟩
      iframe
  · have h1 : t.val % 2 = 1 := by omega
    have hc1 : ¬ k1_cond1 (grid1.coords t) := fun h => h0 ((hcond1 t).mp h)
    have hc2 : k1_cond2 (grid1.coords t) = 1#1 := (hcond2 t).mpr h1
    have hz : t.val ≠ 0 := by omega
    rw [show (dat V c).leavesExact 2 t = owns (c : Thread nD τ) (stageAt2 t) fullShare ((dat V c).after 2 t) from by
      unfold Dat.leavesExact; rw [live_out_odd t h1], after_out]
    rw [outAfter_odd V c t hc2, accAfter_odd V c t h0]
    rw [PhiS_castSucc V c t, PhiS_pos V c _ _ hz]
    rw [accAfter_even V c ⟨t.val - 1, _⟩ (by show (t.val - 1) % 2 = 0; omega)]
    iintro ⟨⟨HS, HR, Hg⟩, Ho, ⟨%d0, H0⟩, ⟨%d1, H1⟩, ⟨%d2, H2⟩⟩
    iapply (run_second_half c (grid1.coords t) _ _ _ _ _ _ _ _ hc1 hc2 (adjBlockAt V c t) (hStagedAt V c t)
      (accFirstHalf V c ⟨t.val - 1, Nat.lt_of_le_of_lt (Nat.sub_le _ _) t.isLt⟩) Set.univ _)
    isplitl [H0]; · iexact H0
    isplitl [H1]; · iexact H1
    isplitl [H2]; · iexists _; iexact H2
    isplitl [HS]; · iexact HS
    iintro ⟨H0, H1, H2, HS⟩
    iframe

theorem body_obligation (c : Dev nD) : Pipeline.BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS, HR, Hg⟩
  isplitl [HS]
  · iexists _; iexact HS
  iframe

theorem hout (c : Dev nD) : (dat V c).Φ (Fin.last cfg1.N) ⊢ Pipeline.ΦA spec1 c :=
  Phi_out V c _ (by rw [Fin.val_last]; have : cfg1.N = 128 := N_1; omega)

theorem arrAt_in0 (c : Dev nD) : (dat V c).arrAt 0 cfg1.N = V c main_arg7 :=
  ((dat V c).arrAt_in 0 rfl _).trans (A_eq V c 0)

theorem arrAt_in1 (c : Dev nD) : (dat V c).arrAt 1 cfg1.N = V c main_v22 :=
  ((dat V c).arrAt_in 1 rfl _).trans (A_eq V c 1)

end Cert.KernelIdeal.R1

end
-- ==== Proof.R2Body.lean ====
import proofs.«421360_j76029511074377_3_alg».proof.Proof.Gen.KernelIdeal.Points
import proofs.«421360_j76029511074377_3_alg».proof.Proof.Gen.KernelIdeal.Launch
import proofs.«421360_j76029511074377_3_alg».proof.Proof.Gen.KernelIdeal.Skeleton
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev fvBlk (c : Dev nD) (t : Fin cfg2.N) : Vec F S2048x64 .f32 := iblk V c 0 t

abbrev segBlk (c : Dev nD) (t : Fin cfg2.N) : Vec F S1x2048 .i32 := iblk V c 1 t

/-- The accumulator after the first `n` pieces of atoms: zero, then one indicator product added per piece. -/
def acc (c : Dev nD) : ℕ → Vec F S1024x64 .f32
  | 0 => k2_pay1 (F := F)
  | n + 1 => if hn : n < cfg2.N then k2_pay2 (segBlk V c ⟨n, hn⟩) (fvBlk V c ⟨n, hn⟩) (acc c n) else acc c n

abbrev scM : Memref sig .tc .vmem S1024x64 .f32 := Memref.whole cc2_scratch0

def restOf (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f))

def PhiS (c : Dev nD) : ℕ → sProp 𝕄
  | 0 => Pipeline.ΦA spec2 c
  | n + 1 => iprop(restOf (F := F) c ∗ owns (c : Thread nD τ) scM fullShare (acc V c (n + 1)) ∗ (∃ r, prngReg c r))

def dat (c : Dev nD) : Pipeline.Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc V c (t.val + 1)
  Φ t := PhiS V c t.val
  q _ := fullShare
  owed _ := 0

theorem A_eq (c : Dev nD) (w : Fin cfg2.W) : (dat V c).A w = V c (Pipeline.arrRef spec2 w) := by
  dsimp only [dat]

theorem PhiA_split (c : Dev nD) :
    (Pipeline.ΦA spec2 c : sProp 𝕄) ⊢ iprop(restOf (F := F) c ∗ (∃ d, owns (c : Thread nD τ) scM fullShare d) ∗ (∃ r, prngReg c r)) := by
  unfold Pipeline.ΦA restOf; rw [scopedRest2_eq]; simp only [scM, owns_whole]
  iintro ⟨⟨H1, H2, H3, H4, H5, H6, H7, H8, H9, H10, H11, H12, H13, H14, H15, H16, H17, H18⟩, Hg⟩
  iframe

theorem PhiA_join (c : Dev nD) :
    iprop(restOf (F := F) c ∗ (∃ d, owns (c : Thread nD τ) scM fullShare d) ∗ (∃ r, prngReg c r)) ⊢ (Pipeline.ΦA spec2 c : sProp 𝕄) := by
  unfold Pipeline.ΦA restOf; rw [scopedRest2_eq]; simp only [scM, owns_whole]
  iintro ⟨⟨H1, H2, H3, H4, H5, H6, H7, H8, H9, H10, H11, H12, H14, H15, H16, H17, H18⟩, H13, Hg⟩
  iframe

theorem PhiS_zero (c : Dev nD) : PhiS V c 0 = Pipeline.ΦA spec2 c := rfl

theorem PhiS_succ (c : Dev nD) (n : ℕ) :
    PhiS V c (n + 1) = iprop(restOf (F := F) c ∗ owns (c : Thread nD τ) scM fullShare (acc V c (n + 1)) ∗ (∃ r, prngReg c r)) := rfl

theorem PhiS_pos (c : Dev nD) (n : ℕ) (hn : n ≠ 0) :
    PhiS V c n = iprop(restOf (F := F) c ∗ owns (c : Thread nD τ) scM fullShare (acc V c n) ∗ (∃ r, prngReg c r)) := by
  cases n with
  | zero => exact absurd rfl hn
  | succ n => rfl

theorem hin (c : Dev nD) : Pipeline.ΦA spec2 c ⊢ (dat V c).Φ 0 := by
  rw [show (dat V c).Φ 0 = PhiS V c 0 from rfl, PhiS_zero]

theorem Phi_out (c : Dev nD) (n : ℕ) (hn : n ≠ 0) : PhiS V c n ⊢ Pipeline.ΦA spec2 c := by
  rw [PhiS_pos V c n hn]
  iintro ⟨HR, HS, Hg⟩
  iapply (PhiA_join c)
  isplitl [HR]; · iexact HR
  isplitl [HS]; · iexists _; iexact HS
  iexact Hg

theorem hout (c : Dev nD) : (dat V c).Φ (Fin.last cfg2.N) ⊢ Pipeline.ΦA spec2 c := by
  rw [show (dat V c).Φ (Fin.last cfg2.N) = PhiS V c (Fin.last cfg2.N).val from rfl]
  exact Phi_out V c _ (by rw [Fin.val_last]; have : cfg2.N = 8 := N_2; omega)

abbrev cond1 (i : grid2.Coords) : Prop := (Scalar.cmpi .ne (Scalar.extui (Scalar.cmpi .eq (BitVec.ofNat 32 (i 0).val) 0#32)) 0#32) = 1#1

theorem hcond1 : ∀ t : Fin cfg2.N, cond1 (grid2.coords t) ↔ t.val = 0 :=
  (by decide +kernel : ∀ t : Fin grid2.N, cond1 (grid2.coords t) ↔ t.val = 0)

abbrev cond2 (i : grid2.Coords) : Prop := k2_cond2 i = 1#1

theorem hcond2 : ∀ t : Fin cfg2.N, cond2 (grid2.coords t) ↔ t.val = 7 :=
  (by decide +kernel : ∀ t : Fin grid2.N, cond2 (grid2.coords t) ↔ t.val = 7)

theorem live0 : ∀ t : Fin cfg2.N, cfg2.idle 0 (grid2.coords t) = false := by decide +kernel
theorem live1 : ∀ t : Fin cfg2.N, cfg2.idle 1 (grid2.coords t) = false := by decide +kernel

theorem idle2_of : ∀ t : Fin cfg2.N, ¬cond2 (grid2.coords t) → cfg2.idle 2 (grid2.coords t) = true := by decide +kernel
theorem noFlush2_of : ∀ t : Fin cfg2.N, ¬cond2 (grid2.coords t) → (cfg2.win 2).flush t = false := by decide +kernel

theorem live2_of : ∀ t : Fin cfg2.N, cond2 (grid2.coords t) → cfg2.idle 2 (grid2.coords t) = false := by decide +kernel

theorem hz2 : (![0, 0] : Fin 2 → ℕ) = fun _ => 0 := by
  funext a; fin_cases a <;> rfl

theorem read_writes_last {κ : Kind} {sp : Space} (v : View sig κ sp S1024x64 .f32) (f : v.ty.Contents (Elt F))
    (w : Vec F S1024x64 .f32) (L : List (View.Piece (Elt F) S1024x64 .f32)) :
    v.read (Elt F) (v.writes (Elt F) f ((⟨Rect.unit ![0, 0] S1024x64.size inb_S1024x64_S1024x64_0_0, w⟩ : View.Piece (Elt F) S1024x64 .f32) :: L)) = w := by
  rw [View.read_writes_eq_canon _ _ _ (fun y => ⟨_, List.mem_cons_self, View.mem_set_unit_zero hz2 inb_S1024x64_S1024x64_0_0 y⟩),
    View.canon_cons_unit_zero hz2]

set_option maxHeartbeats 1000000 in
theorem run_mid (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : ¬cond1 i) (hc2 : ¬cond2 i)
    (x0 : Vec F S2048x64 .f32) (x1 : Vec F S1x2048 .i32) (xi xs : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x1 x0 xs)) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2
  obtain rfl := harg4.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [read_writes_last]
  simp only [View.readAt_eq_ld, harg1.read_unread, harg2.read_unread, harg4.read_unread, View.ld_unit_zero (S := S1x2048) hz2, View.ld_unit_zero (S := S2048x64) hz2, View.ld_unit_zero (S := S1024x64) hz2]

set_option maxHeartbeats 1000000 in
theorem run_first (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : cond1 i) (hc2 : ¬cond2 i)
    (x0 : Vec F S2048x64 .f32) (x1 : Vec F S1x2048 .i32) (xi : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k2_pay2 x1 x0 (k2_pay1 (F := F)))) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_words
  rw [read_writes_last]
  simp only [View.readAt_eq_ld, harg1.read_unread, harg2.read_unread, View.readCov_unit_zero (S := S1024x64) _ hz2, View.ld_unit_zero (S := S1x2048) hz2, View.ld_unit_zero (S := S2048x64) hz2]

set_option maxHeartbeats 1000000 in
theorem run_last (c : Dev nD) (i : grid2.Coords) (arg1 : Memref sig .tc .vmem S2048x64 .f32) (harg1 : arg1.IsWhole)
    (arg2 : Memref sig .tc .vmem S1x2048 .i32) (harg2 : arg2.IsWhole) (arg3 : Memref sig .tc .vmem S1024x64 .f32) (harg3 : arg3.IsWhole)
    (arg4 : Memref sig .tc .vmem S1024x64 .f32) (harg4 : arg4.IsWhole) (hc1 : ¬cond1 i) (hc2 : cond2 i)
    (x0 : Vec F S2048x64 .f32) (x1 : Vec F S1x2048 .i32) (xs : Vec F S1024x64 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x1 x0 xs)
            ∗ owns (c : Thread nD τ) arg4 fullShare (k2_pay2 x1 x0 xs)) -∗ K ⟨⟩))
      ⊢ wp frame (wpE (defs₀ (F := F)) Variants.none c none) E (cc2__segsum_kernel i arg1 harg1 arg2 harg2 arg3 harg3 arg4 harg4) K := by
  simp only [cc2__segsum_kernel_eq_skeleton]; unfold cc2__segsum_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1
  obtain rfl := harg4.eq_unread hfs
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_last]
    simp only [View.readAt_eq_ld, harg1.read_unread, harg2.read_unread, harg4.read_unread, View.readCov_unit_zero (S := S1024x64) _ hz2, View.ld_unit_zero (S := S1x2048) hz2, View.ld_unit_zero (S := S2048x64) hz2, View.ld_unit_zero (S := S1024x64) hz2]
  iexists _; isplitr
  swap; · iexact HS
  ipureintro
  sl_unfold_words
  rw [read_writes_last]
  simp only [View.readAt_eq_ld, harg1.read_unread, harg2.read_unread, harg4.read_unread, View.readCov_unit_zero (S := S1024x64) _ hz2, View.ld_unit_zero (S := S1x2048) hz2, View.ld_unit_zero (S := S2048x64) hz2, View.ld_unit_zero (S := S1024x64) hz2]

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x2048 .i32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x64 .f32 := win2_2.stage (cfg2.slots t 2)
abbrev hs2 (t : Fin cfg2.N) : (ms2 t).IsWhole := hstage2_2 ((cfg2.slots t 2).cast nbuf2_2)

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = acc V c (t.val + 1) := by dsimp only [dat]

theorem before0 (c : Dev nD) (t : Fin cfg2.N) (d) : (dat V c).before 0 t d = iblk V c 0 t := by
  rw [(dat V c).before_fetched 0 t (fetch2_0 t) d]
  unfold Dat.fetched Dat.blockOf iblk; rw [A_eq]; try rfl
theorem before1 (c : Dev nD) (t : Fin cfg2.N) (d) : (dat V c).before 1 t d = iblk V c 1 t := by
  rw [(dat V c).before_fetched 1 t (fetch2_1 t) d]
  unfold Dat.fetched Dat.blockOf iblk; rw [A_eq]; try rfl

theorem acc_succ (c : Dev nD) (t : Fin cfg2.N) :
    acc V c (t.val + 1) = k2_pay2 (segBlk V c t) (fvBlk V c t) (acc V c t.val) := by
  rw [acc]; exact dif_pos t.isLt

theorem leaves0 (c : Dev nD) (t : Fin cfg2.N) :
    (dat V c).leavesExact 0 t = owns (c : Thread nD τ) (ms0 t) fullShare (iblk V c 0 t) := by
  unfold Dat.leavesExact; rw [live0 t, after0]
theorem leaves1 (c : Dev nD) (t : Fin cfg2.N) :
    (dat V c).leavesExact 1 t = owns (c : Thread nD τ) (ms1 t) fullShare (iblk V c 1 t) := by
  unfold Dat.leavesExact; rw [live1 t, after1]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- One grid point adds its piece's indicator product to the accumulator; the last point also stores the sum as the result. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).owesAt () t.succ = (dat V c).owesAt () t.castSucc from rfl]
  rw [show (dat V c).Φ t.succ = PhiS V c (t.val + 1) from rfl, PhiS_succ]
  rw [show (dat V c).Φ t.castSucc = PhiS V c t.val from rfl]
  rw [leaves0, leaves1, acc_succ]
  have hN : t.val < 8 := lt_of_lt_of_eq t.isLt (show cfg2.N = 8 from N_2)
  by_cases h7 : t.val = 7
  · have hc1 : ¬cond1 (grid2.coords t) := fun h => by have := (hcond1 t).mp h; omega
    have hc2 : cond2 (grid2.coords t) := (hcond2 t).mpr h7
    rw [show (dat V c).leavesExact 2 t = owns (c : Thread nD τ) (ms2 t) fullShare ((dat V c).after 2 t) from by
      unfold Dat.leavesExact; rw [live2_of t hc2], after2, acc_succ]
    rw [PhiS_pos V c _ (by omega)]
    iintro ⟨⟨HR, HS, Hg⟩, Ho, ⟨%d0, H0⟩, ⟨%d1, H1⟩, ⟨%d2, H2⟩⟩
    iapply (run_last c (grid2.coords t) _ (hs0 t) _ (hs1 t) _ (hs2 t) _ (Memref.isWhole_whole _) hc1 hc2 (fvBlk V c t) (segBlk V c t) (acc V c t.val) Set.univ _)
    isplitl [H0]; · iexact H0
    isplitl [H1]; · iexact H1
    isplitl [H2]; · iexists _; iexact H2
    isplitl [HS]; · iexact HS
    iintro ⟨H0, H1, H2, HS⟩
    iframe
  · have hc2 : ¬cond2 (grid2.coords t) := fun h => h7 ((hcond2 t).mp h)
    rw [Dat.leavesExact_idle (dat V c) 2 t (idle2_of t hc2) (noFlush2_of t hc2)]
    by_cases h0 : t.val = 0
    · have hc1 : cond1 (grid2.coords t) := (hcond1 t).mpr h0
      rw [show acc V c t.val = k2_pay1 (F := F) from by rw [h0]; rfl]
      rw [show PhiS V c t.val = Pipeline.ΦA spec2 c from by rw [h0]; rfl]
      iintro ⟨HΦ, Ho, ⟨%d0, H0⟩, ⟨%d1, H1⟩, ⟨%d2, H2⟩⟩
      icases (PhiA_split (F := F) c) $$ HΦ with ⟨HR, HS, Hg⟩
      iapply (run_first c (grid2.coords t) _ (hs0 t) _ (hs1 t) _ (hs2 t) _ (Memref.isWhole_whole _) hc1 hc2 (fvBlk V c t) (segBlk V c t) _ Set.univ _)
      isplitl [H0]; · iexact H0
      isplitl [H1]; · iexact H1
      isplitl [H2]; · iexact H2
      isplitl [HS]; · iexact HS
      iintro ⟨H0, H1, H2, HS⟩
      isplitl [HR HS Hg]
      · iframe
      isplitl [Ho]; · iexact Ho
      isplitl [H0]; · iexact H0
      isplitl [H1]; · iexact H1
      iexists _; iexact H2
    · have hc1 : ¬cond1 (grid2.coords t) := fun h => h0 ((hcond1 t).mp h)
      rw [PhiS_pos V c _ h0]
      iintro ⟨⟨HR, HS, Hg⟩, Ho, ⟨%d0, H0⟩, ⟨%d1, H1⟩, ⟨%d2, H2⟩⟩
      iapply (run_mid c (grid2.coords t) _ (hs0 t) _ (hs1 t) _ (hs2 t) _ (Memref.isWhole_whole _) hc1 hc2 (fvBlk V c t) (segBlk V c t) _ (acc V c t.val) Set.univ _)
      isplitl [H0]; · iexact H0
      isplitl [H1]; · iexact H1
      isplitl [H2]; · iexact H2
      isplitl [HS]; · iexact HS
      iintro ⟨H0, H1, H2, HS⟩
      isplitl [HR HS Hg]
      · iframe
      isplitl [Ho]; · iexact Ho
      isplitl [H0]; · iexact H0
      isplitl [H1]; · iexact H1
      iexists _; iexact H2

theorem body_obligation (c : Dev nD) : Pipeline.BodyObligation (dat (F := F) V c) (defs₀ (F := F)) Variants.none () Set.univ := fun t => by
  rw [bigSep_W2, bigSep_W2]
  exact sound_body V c t

theorem arrAt_in0 (c : Dev nD) : (dat V c).arrAt 0 cfg2.N = V c main_v23 :=
  ((dat V c).arrAt_in 0 rfl _).trans (A_eq V c 0)

theorem arrAt_in1 (c : Dev nD) : (dat V c).arrAt 1 cfg2.N = V c main_v24 :=
  ((dat V c).arrAt_in 1 rfl _).trans (A_eq V c 1)

end Cert.KernelIdeal.R2

end
-- ==== Proof.R3Body.lean ====
import proofs.«421360_j76029511074377_3_alg».proof.Proof.Gen.KernelIdeal.Points
import proofs.«421360_j76029511074377_3_alg».proof.Proof.Gen.KernelIdeal.Launch
import proofs.«421360_j76029511074377_3_alg».proof.Proof.Gen.KernelIdeal.Skeleton
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rBip : Rect S512x1024 := Rect.unit (s := S512x1024) ![0, 0] S512x1024.size inb_S512x1024_S512x1024_0_0
abbrev rW : Rect S1024x512 := Rect.unit (s := S1024x512) ![0, 0] S1024x512.size inb_S1024x512_S1024x512_0_0
abbrev rO : Rect S512x512 := Rect.unit (s := S512x512) ![0, 0] S512x512.size inb_S512x512_S512x512_0_0

theorem zeros2 : (![0, 0] : Fin 2 → Nat) = fun _ => 0 := funext fun a => by fin_cases a <;> rfl

/-- The body's one stored value as a function of its four operands. -/
def out (x0 : Vec F S512x1024 .f32) (x1 x2 : Vec F S1024x512 .f32) (x3 : Vec F S512x512 .f32) : Vec F S512x512 .f32 :=
  View.canon [⟨rO, k3_pay1 (View.ld x1 rW) (View.ld x2 rW) (View.ld x0 rBip) (View.ld x3 rO)⟩]

theorem cover (p : Vec F S512x512 .f32) (y : S512x512.Idx) :
    ∃ pc ∈ ([⟨rO, p⟩] : List (View.Piece (Elt F) S512x512 .f32)), y ∈ pc.1.set :=
  ⟨_, List.mem_singleton_self _, View.mem_set_unit_zero (S := S512x512) zeros2 inb_S512x512_S512x512_0_0 y⟩

set_option maxHeartbeats 1000000 in
theorem sound_kernel (c : Dev nD) (E : Set ℕ) (i : grid3.Coords)
    (arg1 : Memref sig .tc .vmem S512x1024 .f32) (harg1 : arg1.IsWhole)
    (arg2 : Memref sig .tc .vmem S1024x512 .f32) (harg2 : arg2.IsWhole)
    (arg3 : Memref sig .tc .vmem S1024x512 .f32) (harg3 : arg3.IsWhole)
    (arg4 : Memref sig .tc .vmem S512x512 .f32) (harg4 : arg4.IsWhole)
    (arg5 : Memref sig .tc .vmem S512x512 .f32) (harg5 : arg5.IsWhole)
    (x0 : Vec F S512x1024 .f32) (x1 x2 : Vec F S1024x512 .f32) (x3 : Vec F S512x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out x0 x1 x2 x3)) -∗ K ⟨⟩))
      ⊢ wp frame (wpE (defs₀ (F := F)) Variants.none c none) E
          (cc3__masked_linear_kernel i arg1 harg1 arg2 harg2 arg3 harg3 arg4 harg4 arg5 harg5) K := by
  simp only [cc3__masked_linear_kernel_eq_skeleton]; unfold cc3__masked_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) :
    (dat V c).after 4 t = out (iblk V c 0 t) (iblk V c 1 t) (iblk V c 2 t) (iblk V c 3 t) := by dsimp only [dat]

theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  iframe

theorem body_obligation (c : Dev nD) : Pipeline.BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := by
  rw [show (dat V c).Φ 0 = Pipeline.ΦA spec3 c from rfl]

theorem hout (c : Dev nD) : (dat V c).Φ (Fin.last cfg3.N) ⊢ Pipeline.ΦA spec3 c := by
  rw [show (dat V c).Φ (Fin.last cfg3.N) = Pipeline.ΦA spec3 c from rfl]

theorem arrAt_in0 (c : Dev nD) : (dat V c).arrAt 0 cfg3.N = V c main_v67 :=
  ((dat V c).arrAt_in 0 rfl _).trans (A_eq V c 0)
theorem arrAt_in1 (c : Dev nD) : (dat V c).arrAt 1 cfg3.N = V c main_arg12 :=
  ((dat V c).arrAt_in 1 rfl _).trans (A_eq V c 1)
theorem arrAt_in2 (c : Dev nD) : (dat V c).arrAt 2 cfg3.N = V c main_v68 :=
  ((dat V c).arrAt_in 2 rfl _).trans (A_eq V c 2)
theorem arrAt_in3 (c : Dev nD) : (dat V c).arrAt 3 cfg3.N = V c main_v63 :=
  ((dat V c).arrAt_in 3 rfl _).trans (A_eq V c 3)

end Cert.KernelIdeal.R3

end
-- ==== Proof.Run.lean ====
import proofs.«421360_j76029511074377_3_alg».proof.Proof.Gen.KernelIdeal.Regions
import proofs.«421360_j76029511074377_3_alg».proof.Proof.R0Body
import proofs.«421360_j76029511074377_3_alg».proof.Proof.R1Body
import proofs.«421360_j76029511074377_3_alg».proof.Proof.R2Body
import proofs.«421360_j76029511074377_3_alg».proof.Proof.R3Body
import Idealize.ShloMosaic.Lib.Pipeline.Frame
import Idealize.ShloMosaic.Lib.Pipeline.FrameSuffix
import Idealize.ShloMosaic.Lib.Pipeline.RegionsLoop

set_option maxRecDepth 1200

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def o9 (c : Dev nD) : Buf (Elt F) ((c : Thread nD τ).loc main_v17) := (R0.dat (fun c b => Gen.V8 m c b) c).arrAt 2 cfg0.N

abbrev W9 (c : Dev nD) : Valuation τ sig (Elt F) := Function.update (Gen.V8 m c) main_v17 (o9 m c)
abbrev W10 (c : Dev nD) : Valuation τ sig (Elt F) := StableHlo.after hostOps1 (W9 m c)
abbrev W11 (c : Dev nD) : Valuation τ sig (Elt F) := StableHlo.after hostOps1_1 (W10 m c)

def o12 (c : Dev nD) : Buf (Elt F) ((c : Thread nD τ).loc main_v23) := (R1.dat (fun c b => W11 m c b) c).arrAt 2 cfg1.N
abbrev W12 (c : Dev nD) : Valuation τ sig (Elt F) := Function.update (W11 m c) main_v23 (o12 m c)
abbrev W13 (c : Dev nD) : Valuation τ sig (Elt F) := StableHlo.after hostOps2 (W12 m c)

def o14 (c : Dev nD) : Buf (Elt F) ((c : Thread nD τ).loc main_v25) := (R2.dat (fun c b => W13 m c b) c).arrAt 2 cfg2.N
abbrev W14 (c : Dev nD) : Valuation τ sig (Elt F) := Function.update (W13 m c) main_v25 (o14 m c)
abbrev W15 (c : Dev nD) : Valuation τ sig (Elt F) := StableHlo.after hostOps3 (W14 m c)

def o16 (c : Dev nD) : Buf (Elt F) ((c : Thread nD τ).loc main_v69) := (R3.dat (fun c b => W15 m c b) c).arrAt 4 cfg3.N
abbrev W16 (c : Dev nD) : Valuation τ sig (Elt F) := Function.update (W15 m c) main_v69 (o16 m c)

/-- What each region leaves behind, as the contents of the program's arrays between the items of @main. -/
def outs : Gen.Outs (F := F) := fun J r c =>
  match J with
  | 9 => W9 m c r
  | 12 => W12 m c r
  | 14 => W14 m c r
  | 16 => W16 m c r
  | _ => Gen.V0 m c r

theorem V9_eq (c : Dev nD) : Gen.V9 m (outs m) c = W9 m c := by
  show Function.update (Gen.V8 m c) main_v17 (W9 m c main_v17) = W9 m c
  rw [show W9 m c main_v17 = o9 m c from Function.update_self _ _ _]
theorem V10_eq (c : Dev nD) : Gen.V10 m (outs m) c = W10 m c := by
  show StableHlo.after hostOps1 (Gen.V9 m (outs m) c) = _; rw [V9_eq]
theorem V11_eq (c : Dev nD) : Gen.V11 m (outs m) c = W11 m c := by
  show StableHlo.after hostOps1_1 (Gen.V10 m (outs m) c) = _; rw [V10_eq]
theorem V12_eq (c : Dev nD) : Gen.V12 m (outs m) c = W12 m c := by
  show Function.update (Gen.V11 m (outs m) c) main_v23 (W12 m c main_v23) = W12 m c
  rw [V11_eq, show W12 m c main_v23 = o12 m c from Function.update_self _ _ _]
theorem V13_eq (c : Dev nD) : Gen.V13 m (outs m) c = W13 m c := by
  show StableHlo.after hostOps2 (Gen.V12 m (outs m) c) = _; rw [V12_eq]
theorem V14_eq (c : Dev nD) : Gen.V14 m (outs m) c = W14 m c := by
  show Function.update (Gen.V13 m (outs m) c) main_v25 (W14 m c main_v25) = W14 m c
  rw [V13_eq, show W14 m c main_v25 = o14 m c from Function.update_self _ _ _]
theorem V15_eq (c : Dev nD) : Gen.V15 m (outs m) c = W15 m c := by
  show StableHlo.after hostOps3 (Gen.V14 m (outs m) c) = _; rw [V14_eq]
theorem V16_eq (c : Dev nD) : Gen.V16 m (outs m) c = W16 m c := by
  show Function.update (Gen.V15 m (outs m) c) main_v69 (W16 m c main_v69) = W16 m c
  rw [V15_eq, show W16 m c main_v69 = o16 m c from Function.update_self _ _ _]

def pdats : (p : Fin 4) → (c : Dev nD) → Dat τ (Elt F) Unit ℕ (UR sig nD τ) ℕ (cfgs p) c
  | ⟨0, _⟩ => fun c => R0.dat (fun c b => Gen.V8 m c b) c
  | ⟨1, _⟩ => fun c => R1.dat (fun c b => W11 m c b) c
  | ⟨2, _⟩ => fun c => R2.dat (fun c b => W13 m c b) c
  | ⟨3, _⟩ => fun c => R3.dat (fun c b => W15 m c b) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem W9_out (c : Dev nD) : W9 m c main_v17 = o9 m c := Function.update_self _ _ _
theorem W9_of_ne (c : Dev nD) (r : Ref sig .tc) (h : r ≠ main_v17) : W9 m c r = Gen.V8 m c r :=
  Function.update_of_ne (StableHlo.devRef_ne_of_ne h) _ _
theorem W12_out (c : Dev nD) : W12 m c main_v23 = o12 m c := Function.update_self _ _ _
theorem W12_of_ne (c : Dev nD) (r : Ref sig .tc) (h : r ≠ main_v23) : W12 m c r = W11 m c r :=
  Function.update_of_ne (StableHlo.devRef_ne_of_ne h) _ _
theorem W14_out (c : Dev nD) : W14 m c main_v25 = o14 m c := Function.update_self _ _ _
theorem W14_of_ne (c : Dev nD) (r : Ref sig .tc) (h : r ≠ main_v25) : W14 m c r = W13 m c r :=
  Function.update_of_ne (StableHlo.devRef_ne_of_ne h) _ _
theorem W16_out (c : Dev nD) : W16 m c main_v69 = o16 m c := Function.update_self _ _ _
theorem W16_of_ne (c : Dev nD) (r : Ref sig .tc) (h : r ≠ main_v69) : W16 m c r = W15 m c r :=
  Function.update_of_ne (StableHlo.devRef_ne_of_ne h) _ _

theorem hF0 (c : Dev nD) (w : Fin cfg0.W) : (pdats m 0 c).arrAt w cfg0.N = W9 m c (Pipeline.arrRef spec0 w) := by
  match w with
  | ⟨0, _⟩ => exact (R0.arrAt_in0 (fun c b => Gen.V8 m c b) c).trans (W9_of_ne m c main_arg7 (by decide)).symm
  | ⟨1, _⟩ => exact (R0.arrAt_in1 (fun c b => Gen.V8 m c b) c).trans (W9_of_ne m c main_v16 (by decide)).symm
  | ⟨2, _⟩ => exact (W9_out m c).symm
theorem hrest0 (c : Dev nD) : ∀ b, b ∉ Finset.univ.image (Pipeline.arrRef spec0) → W9 m c b = Gen.V8 m c b :=
  fun b hb => Function.update_of_ne (StableHlo.devRef_ne_of_ne fun e => hb (Finset.mem_image.mpr ⟨2, Finset.mem_univ _, by rw [e]⟩)) _ _

theorem hF1 (c : Dev nD) (w : Fin cfg1.W) : (pdats m 1 c).arrAt w cfg1.N = W12 m c (Pipeline.arrRef spec1 w) := by
  match w with
  | ⟨0, _⟩ => exact (R1.arrAt_in0 (fun c b => W11 m c b) c).trans (W12_of_ne m c main_arg7 (by decide)).symm
  | ⟨1, _⟩ => exact (R1.arrAt_in1 (fun c b => W11 m c b) c).trans (W12_of_ne m c main_v22 (by decide)).symm
  | ⟨2, _⟩ => exact (W12_out m c).symm
theorem hrest1 (c : Dev nD) : ∀ b, b ∉ Finset.univ.image (Pipeline.arrRef spec1) → W12 m c b = W11 m c b :=
  fun b hb => Function.update_of_ne (StableHlo.devRef_ne_of_ne fun e => hb (Finset.mem_image.mpr ⟨2, Finset.mem_univ _, by rw [e]⟩)) _ _

theorem hF2 (c : Dev nD) (w : Fin cfg2.W) : (pdats m 2 c).arrAt w cfg2.N = W14 m c (Pipeline.arrRef spec2 w) := by
  match w with
  | ⟨0, _⟩ => exact (R2.arrAt_in0 (fun c b => W13 m c b) c).trans (W14_of_ne m c main_v23 (by decide)).symm
  | ⟨1, _⟩ => exact (R2.arrAt_in1 (fun c b => W13 m c b) c).trans (W14_of_ne m c main_v24 (by decide)).symm
  | ⟨2, _⟩ => exact (W14_out m c).symm
theorem hrest2 (c : Dev nD) : ∀ b, b ∉ Finset.univ.image (Pipeline.arrRef spec2) → W14 m c b = W13 m c b :=
  fun b hb => Function.update_of_ne (StableHlo.devRef_ne_of_ne fun e => hb (Finset.mem_image.mpr ⟨2, Finset.mem_univ _, by rw [e]⟩)) _ _

theorem hF3 (c : Dev nD) (w : Fin cfg3.W) : (pdats m 3 c).arrAt w cfg3.N = W16 m c (Pipeline.arrRef spec3 w) := by
  match w with
  | ⟨0, _⟩ => exact (R3.arrAt_in0 (fun c b => W15 m c b) c).trans (W16_of_ne m c main_v67 (by decide)).symm
  | ⟨1, _⟩ => exact (R3.arrAt_in1 (fun c b => W15 m c b) c).trans (W16_of_ne m c main_arg12 (by decide)).symm
  | ⟨2, _⟩ => exact (R3.arrAt_in2 (fun c b => W15 m c b) c).trans (W16_of_ne m c main_v68 (by decide)).symm
  | ⟨3, _⟩ => exact (R3.arrAt_in3 (fun c b => W15 m c b) c).trans (W16_of_ne m c main_v63 (by decide)).symm
  | ⟨4, _⟩ => exact (W16_out m c).symm
theorem hrest3 (c : Dev nD) : ∀ b, b ∉ Finset.univ.image (Pipeline.arrRef spec3) → W16 m c b = W15 m c b :=
  fun b hb => Function.update_of_ne (StableHlo.devRef_ne_of_ne fun e => hb (Finset.mem_image.mpr ⟨4, Finset.mem_univ _, by rw [e]⟩)) _ _

set_option backward.isDefEq.respectTransparency.types false in
/-- One region as an item of @main's run: entered with the program's arrays at `Vi`, left with them at `Vo`, given the region's
    body obligation and the two ends of its invariant. -/
def mkReg {p : Fin 4} (lf : Pipeline.LaunchFacts (nD := nD) (τ := τ) cfgs p) (Vi Vo : Dev nD → Valuation τ sig (Elt F))
    (hq : ∀ c w, (pdats m p c).q w = fullShare) (howed : ∀ c t, (pdats m p c).owed t = 0)
    (hrec : ∀ c t, (pdats m p c).recorded t = Set.univ)
    (hA : ∀ c w, (pdats m p c).A w = Vi c (Pipeline.arrRef (cfgs p).spec w))
    (body : ∀ c, BodyObligation (pdats m p c) (defs₀ (F := F)) Variants.none () Set.univ)
    (Φin : ∀ c, Pipeline.ΦA (cfgs p).spec c ⊢ (pdats m p c).Φ 0)
    (Φout : ∀ c, (pdats m p c).Φ (Fin.last (cfgs p).N) ⊢ Pipeline.ΦA (cfgs p).spec c)
    (hF : ∀ c w, (pdats m p c).arrAt w (cfgs p).N = Vo c (Pipeline.arrRef (cfgs p).spec w))
    (hrest : ∀ c b, b ∉ Finset.univ.image (Pipeline.arrRef (cfgs p).spec) → Vo c b = Vi c b) :
    Pipeline.RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (body c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) Gen.adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl ((hrec c 0).symm ▸ trivial)
      iexact HO
    iframe
  hin c := by
    refine BIBase.Entails.trans ?_ (Φin c)
    unfold Pipeline.ΦA
    iintro ⟨Hp, -, Hr⟩
    iframe
  hout c := by
    rw [Pipeline.ownSems0_none]
    refine BIBase.Entails.trans (Φout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m Gen.launch0 (Gen.V8 m) (W9 m) (fun _ _ => rfl) (fun _ _ => rfl) (fun _ _ => rfl) (fun _ _ => rfl)
  (R0.body_obligation fun c b => Gen.V8 m c b) (R0.hin fun c b => Gen.V8 m c b) (R0.hout fun c b => Gen.V8 m c b) (hF0 m) (hrest0 m)
def reg1 := mkReg m Gen.launch1 (W11 m) (W12 m) (fun _ _ => rfl) (fun _ _ => rfl) (fun _ _ => rfl) (fun _ _ => rfl)
  (R1.body_obligation fun c b => W11 m c b) (R1.hin fun c b => W11 m c b) (R1.hout fun c b => W11 m c b) (hF1 m) (hrest1 m)
def reg2 := mkReg m Gen.launch2 (W13 m) (W14 m) (fun _ _ => rfl) (fun _ _ => rfl) (fun _ _ => rfl) (fun _ _ => rfl)
  (R2.body_obligation fun c b => W13 m c b) (R2.hin fun c b => W13 m c b) (R2.hout fun c b => W13 m c b) (hF2 m) (hrest2 m)
def reg3 := mkReg m Gen.launch3 (W15 m) (W16 m) (fun _ _ => rfl) (fun _ _ => rfl) (fun _ _ => rfl) (fun _ _ => rfl)
  (R3.body_obligation fun c b => W15 m c b) (R3.hin fun c b => W15 m c b) (R3.hout fun c b => W15 m c b) (hF3 m) (hrest3 m)

/-- The result buffer at region 3's write-back, and every argument as launched. -/
abbrev kept (mem : (ℓ : Loc nD τ sig) → Buf (Elt F) ℓ) (c : Dev nD) : Prop :=
      mem ((c.tc : Thread nD τ).loc main_v69) = o16 m c
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)

variable (ρ : Dev nD → PrngReg)

set_option backward.isDefEq.respectTransparency.types false in
/-- Every execution ends, with the result at region 3's write-back and all nineteen arguments as launched. -/
theorem run : θ_run defs (onTc (τ := τ) (main (F := F))) ⟨m, fun _ => 0, ρ⟩ (fun r => ∀ c : Dev nD, kept m r.2.mem c) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m))
    (fun c Q => by
      rewrite [main_chain c, Pipeline.Seg.run_eq_chain,
        show (Gen.segs m (outs m) 𝒱₀ L lv (fun _ c => R c) () (pdats m) (reg0 m) (reg1 m) (reg2 m) (reg3 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V16 m (outs m) c) ∗ ∃ r, prngReg c r))
    (hch := fun c => ⟨.rfl, .rfl, .rfl, .rfl, .rfl, .rfl, .rfl, .rfl, .rfl,
      by show (iprop(StableHlo.held (c : Thread nD τ) (Pipeline.ucRefs τ sig) (W9 m c) ∗ R c) : sProp 𝕄) ⊢ iprop(StableHlo.held (c : Thread nD τ) (Pipeline.ucRefs τ sig) (Gen.V9 m (outs m) c) ∗ R c); rw [V9_eq],
      .rfl,
      by show (iprop(StableHlo.held (c : Thread nD τ) (Pipeline.ucRefs τ sig) (Gen.V11 m (outs m) c) ∗ R c) : sProp 𝕄) ⊢ iprop(StableHlo.held (c : Thread nD τ) (Pipeline.ucRefs τ sig) (W11 m c) ∗ R c); rw [V11_eq],
      by show (iprop(StableHlo.held (c : Thread nD τ) (Pipeline.ucRefs τ sig) (W12 m c) ∗ R c) : sProp 𝕄) ⊢ iprop(StableHlo.held (c : Thread nD τ) (Pipeline.ucRefs τ sig) (Gen.V12 m (outs m) c) ∗ R c); rw [V12_eq],
      by show (iprop(StableHlo.held (c : Thread nD τ) (Pipeline.ucRefs τ sig) (Gen.V13 m (outs m) c) ∗ R c) : sProp 𝕄) ⊢ iprop(StableHlo.held (c : Thread nD τ) (Pipeline.ucRefs τ sig) (W13 m c) ∗ R c); rw [V13_eq],
      by show (iprop(StableHlo.held (c : Thread nD τ) (Pipeline.ucRefs τ sig) (W14 m c) ∗ R c) : sProp 𝕄) ⊢ iprop(StableHlo.held (c : Thread nD τ) (Pipeline.ucRefs τ sig) (Gen.V14 m (outs m) c) ∗ R c); rw [V14_eq],
      by show (iprop(StableHlo.held (c : Thread nD τ) (Pipeline.ucRefs τ sig) (Gen.V15 m (outs m) c) ∗ R c) : sProp 𝕄) ⊢ iprop(StableHlo.held (c : Thread nD τ) (Pipeline.ucRefs τ sig) (W15 m c) ∗ R c); rw [V15_eq],
      by
        show (iprop(StableHlo.held (c : Thread nD τ) (Pipeline.ucRefs τ sig) (W16 m c) ∗ R c) : sProp 𝕄)
          ⊢ iprop((StableHlo.held (c : Thread nD τ) (Pipeline.ucRefs τ sig) (Gen.V16 m (outs m) c) ∗ ∃ r, prngReg c r) ∗ ∃ W, owes (c.tc : Thread nD τ) (0 : CellTallies nD τ sig Unit) W)
        rw [V16_eq]
        iintro ⟨Hh, Hp, HO⟩
        isplitr [HO]
        · iframe
        iexact HO⟩)
    (hinit := ?_) (QY := fun c s => kept m s.mem c)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (Gen.V0 m c) ∗ R c) : sProp 𝕄) := by
      have hcore : ∀ c : Dev nD, (iprop(unscopedBufs c (fun b => m ((c.tc : Thread nD τ).loc b)) ∗ unscopedSems0 c
            ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
          ⊢ iprop(StableHlo.held (c : Thread nD τ) (Pipeline.ucRefs τ sig) (Gen.V0 m c) ∗ R c) := by
        intro c
        rw [← Pipeline.unscopedBufs_held (Ix := Unit) (Name := ℕ) (U := UR sig nD τ) (Lvl := ℕ) c (Gen.V0 m c)]
        iintro ⟨Hh, -, HO, -, Hp, -⟩
        isplitl [Hh]; · iexact Hh
        isplitl [Hp]; · iexists _; iexact Hp
        iexists ∅; iexact HO
      exact bigSep_mono fun c _ => hcore c
    iintro ⟨H, -⟩
    ihave H' := hsplit $$ H
    imodintro
    iexact H'
  ·
    unfold StableHlo.held
    iintro ⟨⟨Hh, -⟩, HSI⟩
    ihave Hr := (pointsTo_read_all (Pipeline.ucRefs τ sig) (fun b => ((c : Thread nD τ).1, b)) (Gen.V16 m (outs m) c) s') $$ [Hh HSI]
    · isplitl [Hh] <;> iassumption
    icases Hr with ⟨%h, HSI⟩
    imodintro
    isplitr
    · ipureintro
      have key := fun (b : Ref sig .tc) (hb : ¬ (Proc.devRef (τ := τ) .tc b).isScoped) =>
        h (Proc.devRef .tc b) (Finset.mem_filter.mpr ⟨StableHlo.devRef_mem_tcRefs b, hb⟩)
      exact ⟨(key main_v69 (by decide)).trans
          ((congrFun (V16_eq m c) _).trans (Function.update_self _ _ _)),
        (key main_arg0 (by decide)).trans (Gen.V16_main_arg0 m (outs m) c),
        (key main_arg1 (by decide)).trans (Gen.V16_main_arg1 m (outs m) c),
        (key main_arg2 (by decide)).trans (Gen.V16_main_arg2 m (outs m) c),
        (key main_arg3 (by decide)).trans (Gen.V16_main_arg3 m (outs m) c),
        (key main_arg4 (by decide)).trans (Gen.V16_main_arg4 m (outs m) c),
        (key main_arg5 (by decide)).trans (Gen.V16_main_arg5 m (outs m) c),
        (key main_arg6 (by decide)).trans (Gen.V16_main_arg6 m (outs m) c),
        (key main_arg7 (by decide)).trans (Gen.V16_main_arg7 m (outs m) c),
        (key main_arg8 (by decide)).trans (Gen.V16_main_arg8 m (outs m) c),
        (key main_arg9 (by decide)).trans (Gen.V16_main_arg9 m (outs m) c),
        (key main_arg10 (by decide)).trans (Gen.V16_main_arg10 m (outs m) c),
        (key main_arg11 (by decide)).trans (Gen.V16_main_arg11 m (outs m) c),
        (key main_arg12 (by decide)).trans (Gen.V16_main_arg12 m (outs m) c),
        (key main_arg13 (by decide)).trans (Gen.V16_main_arg13 m (outs m) c),
        (key main_arg14 (by decide)).trans (Gen.V16_main_arg14 m (outs m) c),
        (key main_arg15 (by decide)).trans (Gen.V16_main_arg15 m (outs m) c),
        (key main_arg16 (by decide)).trans (Gen.V16_main_arg16 m (outs m) c),
        (key main_arg17 (by decide)).trans (Gen.V16_main_arg17 m (outs m) c),
        (key main_arg18 (by decide)).trans (Gen.V16_main_arg18 m (outs m) c)⟩
    · iexact HSI

end Cert.KernelIdeal.Run

end
-- ==== Proof.Spec.lean ====
import proofs.«421360_j76029511074377_3_alg».proof.ReferenceIdeal

noncomputable section

namespace Cert.Spec

open Idealize.ShloMosaic Idealize.ShloMosaic.TcCoe Idealize.SL.Sem Idealize.ShloMosaic.StableHlo
open Cert.ReferenceIdeal Cert.ReferenceIdeal.Facts₀

variable {F : FTy → Type} [FloatOps F] [Cert.ReferenceIdeal.Facts₀]

def hOf (fv : Vec F S16384x64 .f32) (w : Vec F S64x64 .f32) (b : Vec F S64 .f32) : Vec F S16384x64 .f32 :=
  maximumf
    (addf (Host.dotGeneral dot_S16384x64_S64x64_S16384x64_1_0_0_1_n_n none fv w)
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

def attGate (query : Vec F S512x64 .f32) (mol : Vec F S1024x64 .f32) (x8 : Vec F S512x1024 .f32) : Vec F S512x512 .f32 :=
  Host.divf (broadcastInDim S512x512 ![] bcast_S_S512x512 (constant S_ .f32 0x3F800000#32))
    (addf (broadcastInDim S512x512 ![] bcast_S_S512x512 (constant S_ .f32 0x3F800000#32))
      (Host.exp (Host.negf
        (Host.dotGeneral dot_S512x64_S64x512_S512x512_1_0_0_1_n_n none query
          (transpose S64x512 [1, 0] (Host.dotGeneral dot_S512x1024_S1024x64_S512x64_1_0_0_1_n_n none x8 mol)
            transposes_S512x64_S64x512_1_0)))))

def attPre (g : Vec F S512x512 .f32) (x13 : Vec F S512x512 .f32) (x14 : Vec F S512 .f32) : Vec F S512x512 .f32 :=
  addf (addf g (Host.dotGeneral dot_S512x512_S512x512_S512x512_1_0_0_1_n_n none g x13))
    (broadcastInDim S512x512 ![0, 1] bcast_S1x512_S512x512_0_1 (broadcastInDim S1x512 ![1] bcast_S512_S1x512_1 x14))

def rowMean (z : Vec F S512x512 .f32) : Vec F S512x1 .f32 :=
  Host.divf
    (broadcastInDim S512x1 ![0] bcast_S512_S512x1_0
      (Host.reduceAdd z (constant S_ .f32 0x00000000#32) reducesTo_S512x512_S512_d1 h_S_))
    (broadcastInDim S512x1 ![] bcast_S_S512x1 (constant S_ .f32 0x44000000#32))

def rowCentred (z : Vec F S512x512 .f32) : Vec F S512x512 .f32 :=
  subf z (broadcastInDim S512x512 ![0, 1] bcast_S512x1_S512x512_0_1 (rowMean z))

def rowNorm (z : Vec F S512x512 .f32) (x15 x16 : Vec F S512 .f32) : Vec F S512x512 .f32 :=
  addf
    (mulf
      (mulf (rowCentred z)
        (broadcastInDim S512x512 ![0, 1] bcast_S512x1_S512x512_0_1
          (Host.rsqrt
            (addf (rowMean (mulf (rowCentred z) (rowCentred z)))
              (broadcastInDim S512x1 ![] bcast_S_S512x1 (constant S_ .f32 0x3727C5AC#32))))))
      (broadcastInDim S512x512 ![0, 1] bcast_S1x512_S512x512_0_1 (broadcastInDim S1x512 ![1] bcast_S512_S1x512_1 x15)))
    (broadcastInDim S512x512 ![0, 1] bcast_S1x512_S512x512_0_1 (broadcastInDim S1x512 ![1] bcast_S512_S1x512_1 x16))

def attOf (query : Vec F S512x64 .f32) (mol : Vec F S1024x64 .f32) (x8 : Vec F S512x1024 .f32)
    (x13 : Vec F S512x512 .f32) (x14 x15 x16 : Vec F S512 .f32) : Vec F S512x512 .f32 :=
  rowNorm (attPre (attGate query mol x8) x13 x14) x15 x16

def bipOf (query : Vec F S512x64 .f32) (x10 : Vec F S64x1024 .f32) (x11 : Vec F S1024 .f32) : Vec F S512x1024 .f32 :=
  addf (Host.dotGeneral dot_S512x64_S64x1024_S512x1024_1_0_0_1_n_n none query x10)
    (broadcastInDim S512x1024 ![0, 1] bcast_S1x1024_S512x1024_0_1 (broadcastInDim S1x1024 ![1] bcast_S1024_S1x1024_1 x11))

def maskTOf (x9 : Vec F S512x1024 .f32) : Vec F S1024x512 .f32 :=
  transpose S1024x512 [1, 0] x9 transposes_S512x1024_S1024x512_1_0

def outOf (bip : Vec F S512x1024 .f32) (bow maskT : Vec F S1024x512 .f32) (att : Vec F S512x512 .f32) : Vec F S512x512 .f32 :=
  Host.divf (broadcastInDim S512x512 ![] bcast_S_S512x512 (constant S_ .f32 0x3F800000#32)) (addf (broadcastInDim S512x512 ![] bcast_S_S512x512 (constant S_ .f32 0x3F800000#32)) (Host.exp (Host.negf (mulf (Host.dotGeneral dot_S512x1024_S1024x512_S512x512_1_0_0_1_n_n none bip (mulf bow maskT)) att))))

end Cert.Spec

end
-- ==== Proof.RefRunHand.lean ====
import proofs.«421360_j76029511074377_3_alg».proof.Proof.Gen.ReferenceIdeal
import proofs.«421360_j76029511074377_3_alg».proof.Proof.Spec
import Idealize.ShloMosaic.Lib.StableHlo.Run
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

def wrapIdx (n : BitVec 32) (i : Vec F S512 .i32) : Vec F S512 .i32 :=
  select (cmpi .slt i (broadcastInDim S512 ![] bcast_S_S512 (constantI S_ 32 0#32)))
    (addi i (broadcastInDim S512 ![] bcast_S_S512 (constantI S_ 32 n))) i

def lastVisit (x1 : Vec F S512x32 .i1) : Vec F S512 .i32 :=
  subi (Host.reduce IntOp.addi (extui 32 x1 natLt_1_32) (constantI S_ 32 0#32) reducesTo_S512x32_S512_d1 h_S_)
    (broadcastInDim S512 ![] bcast_S_S512 (constantI S_ 32 1#32))

def queryOf (x0 : Vec F S512x32x64 .f32) (x1 : Vec F S512x32 .i1) : Vec F S512x64 .f32 :=
  Host.gather gather_S512x32x64_S512x2_S512x64_1_01_n_n_01_1_1164 x0
    (concatenate S512x2 1
      [⟨S512x1, broadcastInDim S512x1 ![0] bcast_S512_S512x1_0 (wrapIdx (F := F) 512#32 (iotaInDim S512 32 0))⟩,
       ⟨S512x1, broadcastInDim S512x1 ![0] bcast_S512_S512x1_0 (wrapIdx 32#32 (lastVisit x1))⟩]
      concatenates_S512x1_S512x1_S512x2_d1)

def embOf (x2 : Vec F S4096x64 .f32) (x17 : Vec F S16384 .i32) : Vec F S16384x64 .f32 :=
  Host.gather gather_S4096x64_S16384x1_S16384x64_1_0_n_n_0_1_164 x2
    (broadcastInDim S16384x1 ![0] bcast_S16384_S16384x1_0
      (select (cmpi .slt x17 (broadcastInDim S16384 ![] bcast_S_S16384 (constantI S_ 32 0#32)))
        (addi x17 (broadcastInDim S16384 ![] bcast_S_S16384 (constantI S_ 32 4096#32))) x17))

def aggOf (x7 : Vec F S16384x16384 .f32) (h : Vec F S16384x64 .f32) : Vec F S16384x64 .f32 :=
  addf h (Host.dotGeneral dot_S16384x16384_S16384x64_S16384x64_1_0_0_1_n_n none x7 h)

def molOf (x2 : Vec F S4096x64 .f32) (x3 : Vec F S64x64 .f32) (x4 : Vec F S64 .f32) (x5 : Vec F S64x64 .f32) (x6 : Vec F S64 .f32)
    (x7 : Vec F S16384x16384 .f32) (x17 x18 : Vec F S16384 .i32) : Vec F S1024x64 .f32 :=
  Host.scatterAdd scatter_S1024x64_S16384x1_S16384x64_1_0_0_1
    (broadcastInDim S1024x64 ![] bcast_S_S1024x64 (constant S_ .f32 0x00000000#32))
    (broadcastInDim S16384x1 ![0] bcast_S16384_S16384x1_0 x18)
    (aggOf x7 (Cert.Spec.hOf (aggOf x7 (Cert.Spec.hOf (embOf x2 x17) x3 x4)) x5 x6))

/-- The reference's result as one term of its arguments. -/
def refResult (m : (ℓ : Loc nD τ sig) → Buf (Elt F) ℓ) (c : Dev nD) : Buf (Elt F) ((c.tc : Thread nD τ).loc main_v94) :=
  Cert.Spec.outOf
    (Cert.Spec.bipOf (queryOf (m ((c.tc : Thread nD τ).loc main_arg0)) (m ((c.tc : Thread nD τ).loc main_arg1))) (m ((c.tc : Thread nD τ).loc main_arg10)) (m ((c.tc : Thread nD τ).loc main_arg11)))
    (m ((c.tc : Thread nD τ).loc main_arg12)) (Cert.Spec.maskTOf (m ((c.tc : Thread nD τ).loc main_arg9)))
    (Cert.Spec.attOf (queryOf (m ((c.tc : Thread nD τ).loc main_arg0)) (m ((c.tc : Thread nD τ).loc main_arg1)))
      (molOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg17)) (m ((c.tc : Thread nD τ).loc main_arg18)))
      (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)))

abbrev opsA : List (HloOp τ sig (Elt F)) :=
  [ unary main_arg1 main_v0 ((extui 32 · natLt_1_32) : (⟨S512x32, .i1⟩ : BufTy).Contents (Elt F) → (⟨S512x32, .i32⟩ : BufTy).Contents (Elt F)),
    nullary main_c (constantI S_ 32 0#32),
    binary main_v0 main_c main_v1 ((fun x v => Host.reduce IntOp.addi x v reducesTo_S512x32_S512_d1 h_S_) : (⟨S512x32, .i32⟩ : BufTy).Contents (Elt F) → (⟨S_, .i32⟩ : BufTy).Contents (Elt F) → (⟨S512, .i32⟩ : BufTy).Contents (Elt F)),
    nullary main_c_0 (constantI S_ 32 1#32),
    unary main_c_0 main_v2 (broadcastInDim S512 ![] bcast_S_S512 : (⟨S_, .i32⟩ : BufTy).Contents (Elt F) → (⟨S512, .i32⟩ : BufTy).Contents (Elt F)),
    binary main_v1 main_v2 main_v3 (subi : (⟨S512, .i32⟩ : BufTy).Contents (Elt F) → (⟨S512, .i32⟩ : BufTy).Contents (Elt F) → (⟨S512, .i32⟩ : BufTy).Contents (Elt F)),
    nullary main_v4 (iotaInDim S512 32 0),
    nullary main_c_1 (constantI S_ 32 0#32),
    unary main_c_1 main_v5 (broadcastInDim S512 ![] bcast_S_S512 : (⟨S_, .i32⟩ : BufTy).Contents (Elt F) → (⟨S512, .i32⟩ : BufTy).Contents (Elt F)),
    binary main_v4 main_v5 main_v6 (cmpi .slt : (⟨S512, .i32⟩ : BufTy).Contents (Elt F) → (⟨S512, .i32⟩ : BufTy).Contents (Elt F) → (⟨S512, .i1⟩ : BufTy).Contents (Elt F)),
    nullary main_c_2 (constantI S_ 32 512#32),
    unary main_c_2 main_v7 (broadcastInDim S512 ![] bcast_S_S512 : (⟨S_, .i32⟩ : BufTy).Contents (Elt F) → (⟨S512, .i32⟩ : BufTy).Contents (Elt F)),
    binary main_v4 main_v7 main_v8 (addi : (⟨S512, .i32⟩ : BufTy).Contents (Elt F) → (⟨S512, .i32⟩ : BufTy).Contents (Elt F) → (⟨S512, .i32⟩ : BufTy).Contents (Elt F)),
    ternary main_v6 main_v8 main_v4 main_v9 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_3 (constantI S_ 32 0#32),
    unary main_c_3 main_v10 (broadcastInDim S512 ![] bcast_S_S512 : (⟨S_, .i32⟩ : BufTy).Contents (Elt F) → (⟨S512, .i32⟩ : BufTy).Contents (Elt F)),
    binary main_v3 main_v10 main_v11 (cmpi .slt : (⟨S512, .i32⟩ : BufTy).Contents (Elt F) → (⟨S512, .i32⟩ : BufTy).Contents (Elt F) → (⟨S512, .i1⟩ : BufTy).Contents (Elt F)),
    nullary main_c_4 (constantI S_ 32 32#32),
    unary main_c_4 main_v12 (broadcastInDim S512 ![] bcast_S_S512 : (⟨S_, .i32⟩ : BufTy).Contents (Elt F) → (⟨S512, .i32⟩ : BufTy).Contents (Elt F)),
    binary main_v3 main_v12 main_v13 (addi : (⟨S512, .i32⟩ : BufTy).Contents (Elt F) → (⟨S512, .i32⟩ : BufTy).Contents (Elt F) → (⟨S512, .i32⟩ : BufTy).Contents (Elt F)),
    ternary main_v11 main_v13 main_v3 main_v14 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v9 main_v15 (broadcastInDim S512x1 ![0] bcast_S512_S512x1_0 : (⟨S512, .i32⟩ : BufTy).Contents (Elt F) → (⟨S512x1, .i32⟩ : BufTy).Contents (Elt F)),
    unary main_v14 main_v16 (broadcastInDim S512x1 ![0] bcast_S512_S512x1_0 : (⟨S512, .i32⟩ : BufTy).Contents (Elt F) → (⟨S512x1, .i32⟩ : BufTy).Contents (Elt F)),
    binary main_v15 main_v16 main_v17 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_arg0 main_v17 main_v18 ((fun x i => Host.gather gather_S512x32x64_S512x2_S512x64_1_01_n_n_01_1_1164 x i) : (⟨S512x32x64, .f32⟩ : BufTy).Contents (Elt F) → (⟨S512x2, .i32⟩ : BufTy).Contents (Elt F) → (⟨S512x64, .f32⟩ : BufTy).Contents (Elt F)) ]

theorem opsA_sub : (opsA : List (HloOp τ sig (Elt F))).Forall fun op => op.bufs ⊆ tcRefs τ sig :=
  ⟨unary_bufs_sub .., nullary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

theorem opsA_fresh : (opsA : List (HloOp τ sig (Elt F))).Forall fun op => op.fresh = ∅ := by
  simp only [List.Forall]; repeat' constructor

abbrev opsA_W : List (Ref sig .tc) := [main_v0, main_c, main_v1, main_c_0, main_v2, main_v3, main_v4, main_c_1, main_v5, main_v6, main_c_2, main_v7, main_v8, main_v9, main_c_3, main_v10, main_v11, main_c_4, main_v12, main_v13, main_v14, main_v15, main_v16, main_v17, main_v18]

theorem opsA_writes : (opsA : List (HloOp τ sig (Elt F))).Forall fun op => op.writes ⊆ (opsA_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

abbrev opsB : List (HloOp τ sig (Elt F)) :=
  [ nullary main_c_5 (constantI S_ 32 0#32),
    unary main_c_5 main_v19 (broadcastInDim S16384 ![] bcast_S_S16384 : (⟨S_, .i32⟩ : BufTy).Contents (Elt F) → (⟨S16384, .i32⟩ : BufTy).Contents (Elt F)),
    binary main_arg17 main_v19 main_v20 (cmpi .slt : (⟨S16384, .i32⟩ : BufTy).Contents (Elt F) → (⟨S16384, .i32⟩ : BufTy).Contents (Elt F) → (⟨S16384, .i1⟩ : BufTy).Contents (Elt F)),
    nullary main_c_6 (constantI S_ 32 4096#32),
    unary main_c_6 main_v21 (broadcastInDim S16384 ![] bcast_S_S16384 : (⟨S_, .i32⟩ : BufTy).Contents (Elt F) → (⟨S16384, .i32⟩ : BufTy).Contents (Elt F)),
    binary main_arg17 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_arg17 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v23 main_v24 (broadcastInDim S16384x1 ![0] bcast_S16384_S16384x1_0 : (⟨S16384, .i32⟩ : BufTy).Contents (Elt F) → (⟨S16384x1, .i32⟩ : BufTy).Contents (Elt F)),
    binary main_arg2 main_v24 main_v25 ((fun x i => Host.gather gather_S4096x64_S16384x1_S16384x64_1_0_n_n_0_1_164 x i) : (⟨S4096x64, .f32⟩ : BufTy).Contents (Elt F) → (⟨S16384x1, .i32⟩ : BufTy).Contents (Elt F) → (⟨S16384x64, .f32⟩ : BufTy).Contents (Elt F)),
    binary main_v25 main_arg3 main_v26 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg4 main_v27 (broadcastInDim S1x64 ![1] bcast_S64_S1x64_1 : (⟨S64, .f32⟩ : BufTy).Contents (Elt F) → (⟨S1x64, .f32⟩ : BufTy).Contents (Elt F)),
    unary main_v27 main_v28 (broadcastInDim S16384x64 ![0, 1] bcast_S1x64_S16384x64_0_1 : (⟨S1x64, .f32⟩ : BufTy).Contents (Elt F) → (⟨S16384x64, .f32⟩ : BufTy).Contents (Elt F)),
    binary main_v26 main_v28 main_v29 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x64, .f32⟩) main_call0_v0) (broadcastInDim S16384x64 ![] bcast_S_S16384x64),
    TRef.binary (TRef.of (T := ⟨S16384x64, .f32⟩) main_v29) (TRef.of (T := ⟨S16384x64, .f32⟩) main_call0_v0) (TRef.of (T := ⟨S16384x64, .f32⟩) main_v30) maximumf,
    binary main_arg7 main_v30 main_v31 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    binary main_v30 main_v31 main_v32 (addf : (⟨S16384x64, .f32⟩ : BufTy).Contents (Elt F) → (⟨S16384x64, .f32⟩ : BufTy).Contents (Elt F) → (⟨S16384x64, .f32⟩ : BufTy).Contents (Elt F)),
    binary main_v32 main_arg5 main_v33 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg6 main_v34 (broadcastInDim S1x64 ![1] bcast_S64_S1x64_1 : (⟨S64, .f32⟩ : BufTy).Contents (Elt F) → (⟨S1x64, .f32⟩ : BufTy).Contents (Elt F)),
    unary main_v34 main_v35 (broadcastInDim S16384x64 ![0, 1] bcast_S1x64_S16384x64_0_1 : (⟨S1x64, .f32⟩ : BufTy).Contents (Elt F) → (⟨S16384x64, .f32⟩ : BufTy).Contents (Elt F)),
    binary main_v33 main_v35 main_v36 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x64, .f32⟩) main_call1_v0) (broadcastInDim S16384x64 ![] bcast_S_S16384x64),
    TRef.binary (TRef.of (T := ⟨S16384x64, .f32⟩) main_v36) (TRef.of (T := ⟨S16384x64, .f32⟩) main_call1_v0) (TRef.of (T := ⟨S16384x64, .f32⟩) main_v37) maximumf,
    binary main_arg7 main_v37 main_v38 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    binary main_v37 main_v38 main_v39 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v40 (broadcastInDim S1024x64 ![] bcast_S_S1024x64 : (⟨S_, .f32⟩ : BufTy).Contents (Elt F) → (⟨S1024x64, .f32⟩ : BufTy).Contents (Elt F)),
    unary main_arg18 main_v41 (broadcastInDim S16384x1 ![0] bcast_S16384_S16384x1_0 : (⟨S16384, .i32⟩ : BufTy).Contents (Elt F) → (⟨S16384x1, .i32⟩ : BufTy).Contents (Elt F)),
    ternary main_v40 main_v41 main_v39 main_v42 ((fun x i u => Host.scatterAdd scatter_S1024x64_S16384x1_S16384x64_1_0_0_1 x i u) : (⟨S1024x64, .f32⟩ : BufTy).Contents (Elt F) → (⟨S16384x1, .i32⟩ : BufTy).Contents (Elt F) → (⟨S16384x64, .f32⟩ : BufTy).Contents (Elt F) → (⟨S1024x64, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub ..⟩

theorem opsB_fresh : (opsB : List (HloOp τ sig (Elt F))).Forall fun op => op.fresh = ∅ := by
  simp only [List.Forall]; repeat' constructor

abbrev opsB_W : List (Ref sig .tc) := [main_c_5, main_v19, main_v20, main_c_6, main_v21, main_v22, main_v23, main_v24, main_v25, main_v26, main_v27, main_v28, main_v29, main_call0_cst, main_call0_v0, main_v30, main_v31, main_v32, main_v33, main_v34, main_v35, main_v36, main_call1_cst, main_call1_v0, main_v37, main_v38, main_v39, main_cst, main_v40, main_v41, main_v42]

theorem opsB_writes : (opsB : List (HloOp τ sig (Elt F))).Forall fun op => op.writes ⊆ (opsB_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

abbrev opsC1 : List (HloOp τ sig (Elt F)) :=
  [ binary main_arg8 main_v42 main_v43 ((fun l r => Host.dotGeneral dot_S512x1024_S1024x64_S512x64_1_0_0_1_n_n none l r) : (⟨S512x1024, .f32⟩ : BufTy).Contents (Elt F) → (⟨S1024x64, .f32⟩ : BufTy).Contents (Elt F) → (⟨S512x64, .f32⟩ : BufTy).Contents (Elt F)),
    unary main_v43 main_v44 ((transpose S64x512 [1, 0] · transposes_S512x64_S64x512_1_0) : (⟨S512x64, .f32⟩ : BufTy).Contents (Elt F) → (⟨S64x512, .f32⟩ : BufTy).Contents (Elt F)),
    binary main_v18 main_v44 main_v45 ((fun l r => Host.dotGeneral dot_S512x64_S64x512_S512x512_1_0_0_1_n_n none l r) : (⟨S512x64, .f32⟩ : BufTy).Contents (Elt F) → (⟨S64x512, .f32⟩ : BufTy).Contents (Elt F) → (⟨S512x512, .f32⟩ : BufTy).Contents (Elt F)),
    unary main_v45 main_v46 (Host.negf : (⟨S512x512, .f32⟩ : BufTy).Contents (Elt F) → (⟨S512x512, .f32⟩ : BufTy).Contents (Elt F)),
    unary main_v46 main_v47 (Host.exp : (⟨S512x512, .f32⟩ : BufTy).Contents (Elt F) → (⟨S512x512, .f32⟩ : BufTy).Contents (Elt F)),
    nullary main_cst_7 (constant S_ .f32 0x3F800000#32),
    unary main_cst_7 main_v48 (broadcastInDim S512x512 ![] bcast_S_S512x512 : (⟨S_, .f32⟩ : BufTy).Contents (Elt F) → (⟨S512x512, .f32⟩ : BufTy).Contents (Elt F)),
    binary main_v48 main_v47 main_v49 (addf : (⟨S512x512, .f32⟩ : BufTy).Contents (Elt F) → (⟨S512x512, .f32⟩ : BufTy).Contents (Elt F) → (⟨S512x512, .f32⟩ : BufTy).Contents (Elt F)) ]

theorem opsC1_sub : (opsC1 : List (HloOp τ sig (Elt F))).Forall fun op => op.bufs ⊆ tcRefs τ sig :=
  ⟨binary_bufs_sub .., unary_bufs_sub .., binary_bufs_sub .., unary_bufs_sub .., unary_bufs_sub .., nullary_bufs_sub .., unary_bufs_sub .., binary_bufs_sub ..⟩

theorem opsC1_fresh : (opsC1 : List (HloOp τ sig (Elt F))).Forall fun op => op.fresh = ∅ := by
  simp only [List.Forall]; repeat' constructor

abbrev opsC1_W : List (Ref sig .tc) := [main_v43, main_v44, main_v45, main_v46, main_v47, main_cst_7, main_v48, main_v49]

theorem opsC1_writes : (opsC1 : List (HloOp τ sig (Elt F))).Forall fun op => op.writes ⊆ (opsC1_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

abbrev opsC2 : List (HloOp τ sig (Elt F)) :=
  [ nullary main_cst_8 (constant S_ .f32 0x3F800000#32),
    unary main_cst_8 main_v50 (broadcastInDim S512x512 ![] bcast_S_S512x512 : (⟨S_, .f32⟩ : BufTy).Contents (Elt F) → (⟨S512x512, .f32⟩ : BufTy).Contents (Elt F)),
    binary main_v50 main_v49 main_v51 (Host.divf : (⟨S512x512, .f32⟩ : BufTy).Contents (Elt F) → (⟨S512x512, .f32⟩ : BufTy).Contents (Elt F) → (⟨S512x512, .f32⟩ : BufTy).Contents (Elt F)),
    binary main_v51 main_arg13 main_v52 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v51 main_v52 main_v53 (addf : (⟨S512x512, .f32⟩ : BufTy).Contents (Elt F) → (⟨S512x512, .f32⟩ : BufTy).Contents (Elt F) → (⟨S512x512, .f32⟩ : BufTy).Contents (Elt F)),
    unary main_arg14 main_v54 (broadcastInDim S1x512 ![1] bcast_S512_S1x512_1 : (⟨S512, .f32⟩ : BufTy).Contents (Elt F) → (⟨S1x512, .f32⟩ : BufTy).Contents (Elt F)),
    unary main_v54 main_v55 (broadcastInDim S512x512 ![0, 1] bcast_S1x512_S512x512_0_1 : (⟨S1x512, .f32⟩ : BufTy).Contents (Elt F) → (⟨S512x512, .f32⟩ : BufTy).Contents (Elt F)),
    binary main_v53 main_v55 main_v56 (addf : (⟨S512x512, .f32⟩ : BufTy).Contents (Elt F) → (⟨S512x512, .f32⟩ : BufTy).Contents (Elt F) → (⟨S512x512, .f32⟩ : BufTy).Contents (Elt F)),
    nullary main_cst_9 (constant S_ .f32 0x00000000#32),
    binary main_v56 main_cst_9 main_v57 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v57 main_v58 (broadcastInDim S512x1 ![0] bcast_S512_S512x1_0 : (⟨S512, .f32⟩ : BufTy).Contents (Elt F) → (⟨S512x1, .f32⟩ : BufTy).Contents (Elt F)),
    nullary main_cst_10 (constant S_ .f32 0x44000000#32),
    unary main_cst_10 main_v59 (broadcastInDim S512x1 ![] bcast_S_S512x1 : (⟨S_, .f32⟩ : BufTy).Contents (Elt F) → (⟨S512x1, .f32⟩ : BufTy).Contents (Elt F)),
    binary main_v58 main_v59 main_v60 (Host.divf : (⟨S512x1, .f32⟩ : BufTy).Contents (Elt F) → (⟨S512x1, .f32⟩ : BufTy).Contents (Elt F) → (⟨S512x1, .f32⟩ : BufTy).Contents (Elt F)),
    unary main_v60 main_v61 (broadcastInDim S512x512 ![0, 1] bcast_S512x1_S512x512_0_1 : (⟨S512x1, .f32⟩ : BufTy).Contents (Elt F) → (⟨S512x512, .f32⟩ : BufTy).Contents (Elt F)),
    binary main_v56 main_v61 main_v62 (subf : (⟨S512x512, .f32⟩ : BufTy).Contents (Elt F) → (⟨S512x512, .f32⟩ : BufTy).Contents (Elt F) → (⟨S512x512, .f32⟩ : BufTy).Contents (Elt F)),
    binary main_v62 main_v62 main_v63 (mulf : (⟨S512x512, .f32⟩ : BufTy).Contents (Elt F) → (⟨S512x512, .f32⟩ : BufTy).Contents (Elt F) → (⟨S512x512, .f32⟩ : BufTy).Contents (Elt F)),
    nullary main_cst_11 (constant S_ .f32 0x00000000#32),
    binary main_v63 main_cst_11 main_v64 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v64 main_v65 (broadcastInDim S512x1 ![0] bcast_S512_S512x1_0 : (⟨S512, .f32⟩ : BufTy).Contents (Elt F) → (⟨S512x1, .f32⟩ : BufTy).Contents (Elt F)),
    nullary main_cst_12 (constant S_ .f32 0x44000000#32),
    unary main_cst_12 main_v66 (broadcastInDim S512x1 ![] bcast_S_S512x1 : (⟨S_, .f32⟩ : BufTy).Contents (Elt F) → (⟨S512x1, .f32⟩ : BufTy).Contents (Elt F)),
    binary main_v65 main_v66 main_v67 (Host.divf : (⟨S512x1, .f32⟩ : BufTy).Contents (Elt F) → (⟨S512x1, .f32⟩ : BufTy).Contents (Elt F) → (⟨S512x1, .f32⟩ : BufTy).Contents (Elt F)),
    unary main_v60 main_v68 (broadcastInDim S512x512 ![0, 1] bcast_S512x1_S512x512_0_1 : (⟨S512x1, .f32⟩ : BufTy).Contents (Elt F) → (⟨S512x512, .f32⟩ : BufTy).Contents (Elt F)),
    binary main_v56 main_v68 main_v69 (subf : (⟨S512x512, .f32⟩ : BufTy).Contents (Elt F) → (⟨S512x512, .f32⟩ : BufTy).Contents (Elt F) → (⟨S512x512, .f32⟩ : BufTy).Contents (Elt F)),
    nullary main_cst_13 (constant S_ .f32 0x3727C5AC#32),
    unary main_cst_13 main_v70 (broadcastInDim S512x1 ![] bcast_S_S512x1 : (⟨S_, .f32⟩ : BufTy).Contents (Elt F) → (⟨S512x1, .f32⟩ : BufTy).Contents (Elt F)),
    binary main_v67 main_v70 main_v71 (addf : (⟨S512x1, .f32⟩ : BufTy).Contents (Elt F) → (⟨S512x1, .f32⟩ : BufTy).Contents (Elt F) → (⟨S512x1, .f32⟩ : BufTy).Contents (Elt F)),
    unary main_v71 main_v72 (Host.rsqrt : (⟨S512x1, .f32⟩ : BufTy).Contents (Elt F) → (⟨S512x1, .f32⟩ : BufTy).Contents (Elt F)),
    unary main_v72 main_v73 (broadcastInDim S512x512 ![0, 1] bcast_S512x1_S512x512_0_1 : (⟨S512x1, .f32⟩ : BufTy).Contents (Elt F) → (⟨S512x512, .f32⟩ : BufTy).Contents (Elt F)),
    binary main_v69 main_v73 main_v74 (mulf : (⟨S512x512, .f32⟩ : BufTy).Contents (Elt F) → (⟨S512x512, .f32⟩ : BufTy).Contents (Elt F) → (⟨S512x512, .f32⟩ : BufTy).Contents (Elt F)),
    unary main_arg15 main_v75 (broadcastInDim S1x512 ![1] bcast_S512_S1x512_1 : (⟨S512, .f32⟩ : BufTy).Contents (Elt F) → (⟨S1x512, .f32⟩ : BufTy).Contents (Elt F)),
    unary main_v75 main_v76 (broadcastInDim S512x512 ![0, 1] bcast_S1x512_S512x512_0_1 : (⟨S1x512, .f32⟩ : BufTy).Contents (Elt F) → (⟨S512x512, .f32⟩ : BufTy).Contents (Elt F)),
    binary main_v74 main_v76 main_v77 (mulf : (⟨S512x512, .f32⟩ : BufTy).Contents (Elt F) → (⟨S512x512, .f32⟩ : BufTy).Contents (Elt F) → (⟨S512x512, .f32⟩ : BufTy).Contents (Elt F)),
    unary main_arg16 main_v78 (broadcastInDim S1x512 ![1] bcast_S512_S1x512_1 : (⟨S512, .f32⟩ : BufTy).Contents (Elt F) → (⟨S1x512, .f32⟩ : BufTy).Contents (Elt F)),
    unary main_v78 main_v79 (broadcastInDim S512x512 ![0, 1] bcast_S1x512_S512x512_0_1 : (⟨S1x512, .f32⟩ : BufTy).Contents (Elt F) → (⟨S512x512, .f32⟩ : BufTy).Contents (Elt F)),
    binary main_v77 main_v79 main_v80 (addf : (⟨S512x512, .f32⟩ : BufTy).Contents (Elt F) → (⟨S512x512, .f32⟩ : BufTy).Contents (Elt F) → (⟨S512x512, .f32⟩ : BufTy).Contents (Elt F)) ]

theorem opsC2_sub : (opsC2 : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem opsC2_fresh : (opsC2 : List (HloOp τ sig (Elt F))).Forall fun op => op.fresh = ∅ := by
  simp only [List.Forall]; repeat' constructor

abbrev opsC2_W : List (Ref sig .tc) := [main_cst_8, main_v50, main_v51, main_v52, main_v53, main_v54, main_v55, main_v56, main_cst_9, main_v57, main_v58, main_cst_10, main_v59, main_v60, main_v61, main_v62, main_v63, main_cst_11, main_v64, main_v65, main_cst_12, main_v66, main_v67, main_v68, main_v69, main_cst_13, main_v70, main_v71, main_v72, main_v73, main_v74, main_v75, main_v76, main_v77, main_v78, main_v79, main_v80]

theorem opsC2_writes : (opsC2 : List (HloOp τ sig (Elt F))).Forall fun op => op.writes ⊆ (opsC2_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

abbrev opsD : List (HloOp τ sig (Elt F)) :=
  [ binary main_v18 main_arg10 main_v81 ((fun l r => Host.dotGeneral dot_S512x64_S64x1024_S512x1024_1_0_0_1_n_n none l r) : (⟨S512x64, .f32⟩ : BufTy).Contents (Elt F) → (⟨S64x1024, .f32⟩ : BufTy).Contents (Elt F) → (⟨S512x1024, .f32⟩ : BufTy).Contents (Elt F)),
    unary main_arg11 main_v82 (broadcastInDim S1x1024 ![1] bcast_S1024_S1x1024_1 : (⟨S1024, .f32⟩ : BufTy).Contents (Elt F) → (⟨S1x1024, .f32⟩ : BufTy).Contents (Elt F)),
    unary main_v82 main_v83 (broadcastInDim S512x1024 ![0, 1] bcast_S1x1024_S512x1024_0_1 : (⟨S1x1024, .f32⟩ : BufTy).Contents (Elt F) → (⟨S512x1024, .f32⟩ : BufTy).Contents (Elt F)),
    binary main_v81 main_v83 main_v84 (addf : (⟨S512x1024, .f32⟩ : BufTy).Contents (Elt F) → (⟨S512x1024, .f32⟩ : BufTy).Contents (Elt F) → (⟨S512x1024, .f32⟩ : BufTy).Contents (Elt F)),
    unary main_arg9 main_v85 ((transpose S1024x512 [1, 0] · transposes_S512x1024_S1024x512_1_0) : (⟨S512x1024, .f32⟩ : BufTy).Contents (Elt F) → (⟨S1024x512, .f32⟩ : BufTy).Contents (Elt F)),
    binary main_arg12 main_v85 main_v86 (mulf : (⟨S1024x512, .f32⟩ : BufTy).Contents (Elt F) → (⟨S1024x512, .f32⟩ : BufTy).Contents (Elt F) → (⟨S1024x512, .f32⟩ : BufTy).Contents (Elt F)),
    binary main_v84 main_v86 main_v87 ((fun l r => Host.dotGeneral dot_S512x1024_S1024x512_S512x512_1_0_0_1_n_n none l r) : (⟨S512x1024, .f32⟩ : BufTy).Contents (Elt F) → (⟨S1024x512, .f32⟩ : BufTy).Contents (Elt F) → (⟨S512x512, .f32⟩ : BufTy).Contents (Elt F)),
    binary main_v87 main_v80 main_v88 (mulf : (⟨S512x512, .f32⟩ : BufTy).Contents (Elt F) → (⟨S512x512, .f32⟩ : BufTy).Contents (Elt F) → (⟨S512x512, .f32⟩ : BufTy).Contents (Elt F)),
    unary main_v88 main_v89 (Host.negf : (⟨S512x512, .f32⟩ : BufTy).Contents (Elt F) → (⟨S512x512, .f32⟩ : BufTy).Contents (Elt F)),
    unary main_v89 main_v90 (Host.exp : (⟨S512x512, .f32⟩ : BufTy).Contents (Elt F) → (⟨S512x512, .f32⟩ : BufTy).Contents (Elt F)),
    nullary main_cst_14 (constant S_ .f32 0x3F800000#32),
    unary main_cst_14 main_v91 (broadcastInDim S512x512 ![] bcast_S_S512x512 : (⟨S_, .f32⟩ : BufTy).Contents (Elt F) → (⟨S512x512, .f32⟩ : BufTy).Contents (Elt F)),
    binary main_v91 main_v90 main_v92 (addf : (⟨S512x512, .f32⟩ : BufTy).Contents (Elt F) → (⟨S512x512, .f32⟩ : BufTy).Contents (Elt F) → (⟨S512x512, .f32⟩ : BufTy).Contents (Elt F)),
    nullary main_cst_15 (constant S_ .f32 0x3F800000#32),
    unary main_cst_15 main_v93 (broadcastInDim S512x512 ![] bcast_S_S512x512 : (⟨S_, .f32⟩ : BufTy).Contents (Elt F) → (⟨S512x512, .f32⟩ : BufTy).Contents (Elt F)),
    binary main_v93 main_v92 main_v94 (Host.divf : (⟨S512x512, .f32⟩ : BufTy).Contents (Elt F) → (⟨S512x512, .f32⟩ : BufTy).Contents (Elt F) → (⟨S512x512, .f32⟩ : BufTy).Contents (Elt F)) ]

theorem opsD_sub : (opsD : List (HloOp τ sig (Elt F))).Forall fun op => op.bufs ⊆ tcRefs τ sig :=
  ⟨binary_bufs_sub .., unary_bufs_sub .., unary_bufs_sub .., binary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

theorem opsD_fresh : (opsD : List (HloOp τ sig (Elt F))).Forall fun op => op.fresh = ∅ := by
  simp only [List.Forall]; repeat' constructor

abbrev opsD_W : List (Ref sig .tc) := [main_v81, main_v82, main_v83, main_v84, main_v85, main_v86, main_v87, main_v88, main_v89, main_v90, main_cst_14, main_v91, main_v92, main_cst_15, main_v93, main_v94]

theorem opsD_writes : (opsD : List (HloOp τ sig (Elt F))).Forall fun op => op.writes ⊆ (opsD_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

abbrev ops : List (HloOp τ sig (Elt F)) := (opsA ++ (opsB ++ opsC1)) ++ (opsC2 ++ opsD)

set_option maxHeartbeats 4000000 in
theorem part0_eq (c : Dev nD) : main_part0 (F := F) c = seq (opsA ++ (opsB ++ opsC1)) := rfl

set_option maxHeartbeats 4000000 in
theorem part1_eq (c : Dev nD) : main_part1 (F := F) c = seq (opsC2 ++ opsD) := rfl

theorem main_eq (c : Dev nD) : main (F := F) c = seq ops := by
  show (main_part0 (F := F) c >>= fun _ => main_part1 (F := F) c) = _
  rw [part0_eq, part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append (forall_append opsA_sub (forall_append opsB_sub opsC1_sub)) (forall_append opsC2_sub opsD_sub)

theorem ops_fresh : (ops : List (HloOp τ sig (Elt F))).Forall fun op => op.fresh = ∅ :=
  forall_append (forall_append opsA_fresh (forall_append opsB_fresh opsC1_fresh)) (forall_append opsC2_fresh opsD_fresh)

section Pieces

variable (W : Valuation τ sig (Elt F))

theorem readA : StableHlo.after opsA W (Proc.devRef .tc main_v18) = queryOf (W main_arg0) (W main_arg1) := by
  simp only [opsA]
  after_results
  rfl

theorem readB :
    StableHlo.after opsB W (Proc.devRef .tc main_v42)
      = molOf (W main_arg2) (W main_arg3) (W main_arg4) (W main_arg5) (W main_arg6) (W main_arg7) (W main_arg17) (W main_arg18) := by
  simp only [opsB]
  after_results_simp
  rfl

theorem readC :
    StableHlo.after opsC2 (StableHlo.after opsC1 W) (Proc.devRef .tc main_v80)
      = Cert.Spec.attOf (W main_v18) (W main_v42) (W main_arg8) (W main_arg13) (W main_arg14) (W main_arg15) (W main_arg16) := by
  simp only [opsC2, opsC1]
  after_results_simp
  rfl

theorem readD :
    StableHlo.after opsD W (Proc.devRef .tc main_v94)
      = Cert.Spec.outOf (Cert.Spec.bipOf (W main_v18) (W main_arg10) (W main_arg11)) (W main_arg12) (Cert.Spec.maskTOf (W main_arg9)) (W main_v80) := by
  simp only [opsD]
  after_results_simp
  rfl

theorem keepA (r : Ref sig .tc) (h : r ∉ opsA_W := by decide) : StableHlo.after opsA W (Proc.devRef .tc r) = W (Proc.devRef .tc r) :=
  after_of_writes_sub opsA W opsA_writes h
theorem keepB (r : Ref sig .tc) (h : r ∉ opsB_W := by decide) : StableHlo.after opsB W (Proc.devRef .tc r) = W (Proc.devRef .tc r) :=
  after_of_writes_sub opsB W opsB_writes h
theorem keepC1 (r : Ref sig .tc) (h : r ∉ opsC1_W := by decide) : StableHlo.after opsC1 W (Proc.devRef .tc r) = W (Proc.devRef .tc r) :=
  after_of_writes_sub opsC1 W opsC1_writes h
theorem keepC2 (r : Ref sig .tc) (h : r ∉ opsC2_W := by decide) : StableHlo.after opsC2 W (Proc.devRef .tc r) = W (Proc.devRef .tc r) :=
  after_of_writes_sub opsC2 W opsC2_writes h
theorem keepD (r : Ref sig .tc) (h : r ∉ opsD_W := by decide) : StableHlo.after opsD W (Proc.devRef .tc r) = W (Proc.devRef .tc r) :=
  after_of_writes_sub opsD W opsD_writes h

end Pieces

section Composed

variable (V : Valuation τ sig (Elt F))

theorem atB_keep (r : Ref sig .tc) (hA : r ∉ opsA_W := by decide) (hB : r ∉ opsB_W := by decide) :
    StableHlo.after opsB (StableHlo.after opsA V) (Proc.devRef .tc r) = V (Proc.devRef .tc r) :=
  (keepB _ r hB).trans (keepA V r hA)

theorem atC_keep (r : Ref sig .tc) (hA : r ∉ opsA_W := by decide) (hB : r ∉ opsB_W := by decide) (hC1 : r ∉ opsC1_W := by decide)
    (hC2 : r ∉ opsC2_W := by decide) :
    StableHlo.after opsC2 (StableHlo.after opsC1 (StableHlo.after opsB (StableHlo.after opsA V))) (Proc.devRef .tc r)
      = V (Proc.devRef .tc r) :=
  (keepC2 _ r hC2).trans <| (keepC1 _ r hC1).trans (atB_keep V r hA hB)

theorem atB_query :
    StableHlo.after opsB (StableHlo.after opsA V) (Proc.devRef .tc main_v18) = queryOf (V main_arg0) (V main_arg1) :=
  (keepB _ main_v18).trans (readA V)

theorem atC_query :
    StableHlo.after opsC2 (StableHlo.after opsC1 (StableHlo.after opsB (StableHlo.after opsA V))) (Proc.devRef .tc main_v18)
      = queryOf (V main_arg0) (V main_arg1) :=
  (keepC2 _ main_v18).trans <| (keepC1 _ main_v18).trans (atB_query V)

theorem atB_mol :
    StableHlo.after opsB (StableHlo.after opsA V) (Proc.devRef .tc main_v42)
      = molOf (V main_arg2) (V main_arg3) (V main_arg4) (V main_arg5) (V main_arg6) (V main_arg7) (V main_arg17) (V main_arg18) :=
  (readB _).trans (by
    rw [keepA V main_arg2, keepA V main_arg3, keepA V main_arg4, keepA V main_arg5, keepA V main_arg6, keepA V main_arg7,
      keepA V main_arg17, keepA V main_arg18])

theorem atC_att :
    StableHlo.after opsC2 (StableHlo.after opsC1 (StableHlo.after opsB (StableHlo.after opsA V))) (Proc.devRef .tc main_v80)
      = Cert.Spec.attOf (queryOf (V main_arg0) (V main_arg1)) (molOf (V main_arg2) (V main_arg3) (V main_arg4) (V main_arg5) (V main_arg6) (V main_arg7) (V main_arg17) (V main_arg18))
          (V main_arg8) (V main_arg13) (V main_arg14) (V main_arg15) (V main_arg16) :=
  (readC _).trans (by
    rw [atB_query V, atB_mol V, atB_keep V main_arg8, atB_keep V main_arg13, atB_keep V main_arg14, atB_keep V main_arg15,
      atB_keep V main_arg16])

theorem after_ops :
    StableHlo.after ops V
      = StableHlo.after opsD (StableHlo.after opsC2 (StableHlo.after opsC1 (StableHlo.after opsB (StableHlo.after opsA V)))) := by
  show StableHlo.after ((opsA ++ (opsB ++ opsC1)) ++ (opsC2 ++ opsD)) V = _
  rw [StableHlo.after_append, StableHlo.after_append, StableHlo.after_append, StableHlo.after_append]

theorem after_ops_keep (r : Ref sig .tc) (hA : r ∉ opsA_W := by decide) (hB : r ∉ opsB_W := by decide) (hC1 : r ∉ opsC1_W := by decide)
    (hC2 : r ∉ opsC2_W := by decide) (hD : r ∉ opsD_W := by decide) :
    StableHlo.after ops V (Proc.devRef .tc r) = V (Proc.devRef .tc r) :=
  (congrFun (after_ops V) _).trans <| (keepD _ r hD).trans (atC_keep V r hA hB hC1 hC2)

theorem after_ops_result :
    StableHlo.after ops V (Proc.devRef .tc main_v94)
      = Cert.Spec.outOf (Cert.Spec.bipOf (queryOf (V main_arg0) (V main_arg1)) (V main_arg10) (V main_arg11)) (V main_arg12) (Cert.Spec.maskTOf (V main_arg9))
          (Cert.Spec.attOf (queryOf (V main_arg0) (V main_arg1)) (molOf (V main_arg2) (V main_arg3) (V main_arg4) (V main_arg5) (V main_arg6) (V main_arg7) (V main_arg17) (V main_arg18))
            (V main_arg8) (V main_arg13) (V main_arg14) (V main_arg15) (V main_arg16)) :=
  (congrFun (after_ops V) _).trans <| (readD _).trans (by
    rw [atC_query V, atC_att V, atC_keep V main_arg10, atC_keep V main_arg11, atC_keep V main_arg12, atC_keep V main_arg9])

end Composed

/-- Every execution of the reference ends, with its result at `refResult` and its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v94).trans (after_ops_result (launchContents m c)),
      (h c main_arg0).trans (after_ops_keep (launchContents m c) main_arg0),
      (h c main_arg1).trans (after_ops_keep (launchContents m c) main_arg1),
      (h c main_arg2).trans (after_ops_keep (launchContents m c) main_arg2),
      (h c main_arg3).trans (after_ops_keep (launchContents m c) main_arg3),
      (h c main_arg4).trans (after_ops_keep (launchContents m c) main_arg4),
      (h c main_arg5).trans (after_ops_keep (launchContents m c) main_arg5),
      (h c main_arg6).trans (after_ops_keep (launchContents m c) main_arg6),
      (h c main_arg7).trans (after_ops_keep (launchContents m c) main_arg7),
      (h c main_arg8).trans (after_ops_keep (launchContents m c) main_arg8),
      (h c main_arg9).trans (after_ops_keep (launchContents m c) main_arg9),
      (h c main_arg10).trans (after_ops_keep (launchContents m c) main_arg10),
      (h c main_arg11).trans (after_ops_keep (launchContents m c) main_arg11),
      (h c main_arg12).trans (after_ops_keep (launchContents m c) main_arg12),
      (h c main_arg13).trans (after_ops_keep (launchContents m c) main_arg13),
      (h c main_arg14).trans (after_ops_keep (launchContents m c) main_arg14),
      (h c main_arg15).trans (after_ops_keep (launchContents m c) main_arg15),
      (h c main_arg16).trans (after_ops_keep (launchContents m c) main_arg16),
      (h c main_arg17).trans (after_ops_keep (launchContents m c) main_arg17),
      (h c main_arg18).trans (after_ops_keep (launchContents m c) main_arg18)⟩)
    (run_seq scopedRefs_eq scopedSems_eq defs main (fun _ => ops) main_eq (fun _ => ops_sub) m ρ
      (fun _ => List.forall_iff_forall_mem.1 ops_fresh))

end Cert.ReferenceIdeal.HandRun

end
-- ==== Proof.GatherPre.lean ====
import proofs.«421360_j76029511074377_3_alg».proof.Pre_finite_inputs
import Idealize.ShloMosaic.Lib.ReduceAll
import Idealize.ShloMosaic.PureOps.Ideal

noncomputable section

namespace Cert.KernelIdeal.Gathers

open Idealize.ShloMosaic Cert.Pre_finite_inputs

variable [Cert.Pre_finite_inputs.Facts]

instance : Subsingleton S_.Idx := ⟨fun a b => funext fun d => d.elim0⟩

def ix0 : S_.Idx := fun d => d.elim0

theorem ofBool_eq_one (b : Bool) : BitVec.ofBool b = 1#1 ↔ b = true := by cases b <;> decide

theorem range_of_part4 (x15 x16 : FVec Ideal S512 .f32) (x17 : IVec S16384 32) (v63 v67 : IVec S_ 1)
    (h : fn_part4 (F := Ideal) x15 x16 x17 v63 v67 ix0 = 1#1) (a : S16384.Idx) :
    (4294963200#32).sle (x17 a) = true ∧ (x17 a).slt 4096#32 = true := by
  unfold fn_part4 fn_part5 at h
  dsimp only at h
  have h84 := (IntOp.andi_eq_one.1 h).2
  have ha := Host.reduce_andi_all _ _ _ _ ix0 h84 a
  obtain ⟨hge, hlt⟩ := IntOp.andi_eq_one.1 ha
  exact ⟨(ofBool_eq_one _).1 hge, (ofBool_eq_one _).1 hlt⟩

/-- The precondition's last conjunct read at one entry: every fingerprint id lies in [-4096, 4096). -/
theorem fp_range_of_pre (x0 : FVec Ideal S512x32x64 .f32) (x1 : IVec S512x32 1) (x2 : FVec Ideal S4096x64 .f32)
    (x3 : FVec Ideal S64x64 .f32) (x4 : FVec Ideal S64 .f32) (x5 : FVec Ideal S64x64 .f32) (x6 : FVec Ideal S64 .f32)
    (x7 : FVec Ideal S16384x16384 .f32) (x8 : FVec Ideal S512x1024 .f32) (x9 : FVec Ideal S512x1024 .f32)
    (x10 : FVec Ideal S64x1024 .f32) (x11 : FVec Ideal S1024 .f32) (x12 : FVec Ideal S1024x512 .f32)
    (x13 : FVec Ideal S512x512 .f32) (x14 : FVec Ideal S512 .f32) (x15 : FVec Ideal S512 .f32)
    (x16 : FVec Ideal S512 .f32) (x17 : IVec S16384 32) (x18 : IVec S16384 32)
    (h : fn (F := Ideal) x0 x1 x2 x3 x4 x5 x6 x7 x8 x9 x10 x11 x12 x13 x14 x15 x16 x17 x18 = (fun _ => 1#1)) :
    ∀ a : S16384.Idx, (4294963200#32).sle (x17 a) = true ∧ (x17 a).slt 4096#32 = true := by
  have e := congrFun h ix0
  unfold fn fn_part1 fn_part2 fn_part3 at e
  exact range_of_part4 _ _ x17 _ _ e

end Cert.KernelIdeal.Gathers

end
-- ==== Proof.Arr.lean ====
import proofs.«421360_j76029511074377_3_alg».proof.Proof.Gen.KernelIdeal.Skeleton
import Idealize.ShloMosaic.Lib.ValueIdx

noncomputable section

namespace Cert.KernelIdeal.Arr

open Idealize.ShloMosaic Idealize.ShloMosaic.ValueIdx Cert.KernelIdeal Cert.KernelIdeal.Gen

variable {F : FTy → Type} [FloatOps F]

def adjPiece (adj : Vec F S16384x16384 .f32) (i : Fin 64) (k : Fin 2) : Vec F S256x8192 .f32 :=
  fun y => adj (ix2 (⟨256 * i.val + (y 0).val, by have := idx2_lt0 y; omega⟩ : Fin 16384)
    (⟨8192 * k.val + (y 1).val, by have := idx2_lt1 y; omega⟩ : Fin 16384))

def rowsHalf (h : Vec F S16384x64 .f32) (k : Fin 2) : Vec F S8192x64 .f32 :=
  fun y => h (ix2 (⟨8192 * k.val + (y 0).val, by have := idx2_lt0 y; omega⟩ : Fin 16384) (⟨(y 1).val, idx2_lt1 y⟩ : Fin 64))

def rowsBand (h : Vec F S16384x64 .f32) (i : Fin 64) : Vec F S256x64 .f32 :=
  fun y => h (ix2 (⟨256 * i.val + (y 0).val, by have := idx2_lt0 y; omega⟩ : Fin 16384) (⟨(y 1).val, idx2_lt1 y⟩ : Fin 64))

def rowsPiece (x : Vec F S16384x64 .f32) (k : Fin 8) : Vec F S2048x64 .f32 :=
  fun y => x (ix2 (⟨2048 * k.val + (y 0).val, by have := idx2_lt0 y; omega⟩ : Fin 16384) (⟨(y 1).val, idx2_lt1 y⟩ : Fin 64))

def colsPiece (s : Vec F S1x16384 .i32) (k : Fin 8) : Vec F S1x2048 .i32 :=
  fun y => s (ix2 (⟨0, Nat.one_pos⟩ : Fin 1) (⟨2048 * k.val + (y 1).val, by have := idx2_lt1 y; omega⟩ : Fin 16384))

def gnnAcc0 (adj : Vec F S16384x16384 .f32) (h : Vec F S16384x64 .f32) (i : Fin 64) : ℕ → Vec F S256x64 .f32
  | 0 => k0_pay1 (F := F)
  | n + 1 => if hn : n < 2 then k0_pay2 (rowsHalf h ⟨n, hn⟩) (gnnAcc0 adj h i n) (adjPiece adj i ⟨n, hn⟩) else gnnAcc0 adj h i n

def gnnBand0 (adj : Vec F S16384x16384 .f32) (h : Vec F S16384x64 .f32) (i : Fin 64) : Vec F S256x64 .f32 :=
  k0_pay3 (rowsBand h i) (gnnAcc0 adj h i 2)

/-- Region 0's whole result: row `r` lies in band `r / 256`, at row `r % 256` of it. -/
def gnnOut0 (adj : Vec F S16384x16384 .f32) (h : Vec F S16384x64 .f32) : Vec F S16384x64 .f32 :=
  fun j => gnnBand0 adj h (⟨(j 0).val / 256, by have := idx2_lt0 j; omega⟩ : Fin 64)
    (ix2 (⟨(j 0).val % 256, Nat.mod_lt _ (by norm_num)⟩ : Fin 256) (⟨(j 1).val, idx2_lt1 j⟩ : Fin 64))

def gnnAcc1 (adj : Vec F S16384x16384 .f32) (h : Vec F S16384x64 .f32) (i : Fin 64) : ℕ → Vec F S256x64 .f32
  | 0 => k1_pay1 (F := F)
  | n + 1 => if hn : n < 2 then k1_pay2 (rowsHalf h ⟨n, hn⟩) (gnnAcc1 adj h i n) (adjPiece adj i ⟨n, hn⟩) else gnnAcc1 adj h i n

def gnnBand1 (adj : Vec F S16384x16384 .f32) (h : Vec F S16384x64 .f32) (i : Fin 64) : Vec F S256x64 .f32 :=
  k1_pay3 (rowsBand h i) (gnnAcc1 adj h i 2)

def gnnOut1 (adj : Vec F S16384x16384 .f32) (h : Vec F S16384x64 .f32) : Vec F S16384x64 .f32 :=
  fun j => gnnBand1 adj h (⟨(j 0).val / 256, by have := idx2_lt0 j; omega⟩ : Fin 64)
    (ix2 (⟨(j 0).val % 256, Nat.mod_lt _ (by norm_num)⟩ : Fin 256) (⟨(j 1).val, idx2_lt1 j⟩ : Fin 64))

def segAcc (x : Vec F S16384x64 .f32) (s : Vec F S1x16384 .i32) : ℕ → Vec F S1024x64 .f32
  | 0 => k2_pay1 (F := F)
  | n + 1 => if hn : n < 8 then k2_pay2 (colsPiece s ⟨n, hn⟩) (rowsPiece x ⟨n, hn⟩) (segAcc x s n) else segAcc x s n

/-- Region 2's whole result: the accumulator after all eight pieces. -/
def segOut (x : Vec F S16384x64 .f32) (s : Vec F S1x16384 .i32) : Vec F S1024x64 .f32 := segAcc x s 8

/-- Region 3's whole result: the body's one stored value of the four arrays. -/
def linOut (bip : Vec F S512x1024 .f32) (bow maskT : Vec F S1024x512 .f32) (att : Vec F S512x512 .f32) : Vec F S512x512 .f32 :=
  k3_pay1 bow maskT bip att

end Cert.KernelIdeal.Arr

end
-- ==== Proof.R0Value.lean ====
import proofs.«421360_j76029511074377_3_alg».proof.Proof.R0Body
import proofs.«421360_j76029511074377_3_alg».proof.Proof.Arr

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

abbrev adjArr (c : Dev nD) : Vec F S16384x16384 .f32 := V c main_arg7
abbrev hArr (c : Dev nD) : Vec F S16384x64 .f32 := V c main_v16

theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0
    ∧ k0_off1 (grid0.coords t) (0 : Fin 2) = 8192 * (t.val % 2) ∧ k0_off1 (grid0.coords t) (1 : Fin 2) = 0
    ∧ k0_off2 (grid0.coords t) (0 : Fin 2) = 256 * (t.val / 2) ∧ k0_off2 (grid0.coords t) (1 : Fin 2) = 0 :=
  (by decide +kernel : ∀ t : Fin grid0.N, _)

theorem adjBlockAt_eq (c : Dev nD) (t : Fin cfg0.N) (i : Fin 64) (k : Fin 2) (ht : t.val = 2 * i.val + k.val) :
    adjBlockAt V c t = Arr.adjPiece (adjArr V c) i k := by
  obtain ⟨e0, e1, -⟩ := idx_facts t
  have hk : k.val < 2 := k.isLt
  funext y
  show V c main_arg7 (((cfg0.win 0).blk t).view.emb y) = V c main_arg7 _
  refine congrArg (V c main_arg7) ?_
  funext a; apply Fin.ext
  match a with
  | ⟨0, _⟩ => show win0_0.index t (0 : Fin 2) * 256 + 1 * (y 0).val = 256 * i.val + (y 0).val; omega
  | ⟨1, _⟩ => show win0_0.index t (1 : Fin 2) * 8192 + 1 * (y 1).val = 8192 * k.val + (y 1).val; omega

theorem hRowsAt_eq (c : Dev nD) (t : Fin cfg0.N) (i : Fin 64) (k : Fin 2) (ht : t.val = 2 * i.val + k.val) :
    hRowsAt (grid0.coords t) (hStagedAt V c t) = Arr.rowsHalf (hArr V c) k := by
  obtain ⟨-, -, e2, e3, -, -, o0, o1, -⟩ := idx_facts t
  have hk : k.val < 2 := k.isLt
  funext y
  show V c main_v16 (((cfg0.win 1).blk t).view.emb
      ((Rect.unit (s := S16384x64) (k0_off1 (grid0.coords t)) S8192x64.size (k0_off1_inb (grid0.coords t))).idx y)) = V c main_v16 _
  refine congrArg (V c main_v16) ?_
  funext a; apply Fin.ext
  match a with
  | ⟨0, _⟩ =>
    show win0_1.index t (0 : Fin 2) * 16384 + 1 * (k0_off1 (grid0.coords t) (0 : Fin 2) + 1 * (y 0).val) = 8192 * k.val + (y 0).val
    omega
  | ⟨1, _⟩ =>
    show win0_1.index t (1 : Fin 2) * 64 + 1 * (k0_off1 (grid0.coords t) (1 : Fin 2) + 1 * (y 1).val) = (y 1).val
    omega

theorem hBandAt_eq (c : Dev nD) (t : Fin cfg0.N) (i : Fin 64) (k : Fin 2) (ht : t.val = 2 * i.val + k.val)
    (h2 : k0_cond2 (grid0.coords t) = 1#1) :
    hBandAt (grid0.coords t) h2 (hStagedAt V c t) = Arr.rowsBand (hArr V c) i := by
  obtain ⟨-, -, e2, e3, -, -, -, -, o0, o1⟩ := idx_facts t
  have hk : k.val < 2 := k.isLt
  funext y
  show V c main_v16 (((cfg0.win 1).blk t).view.emb
      ((Rect.unit (s := S16384x64) (k0_off2 (grid0.coords t)) S256x64.size (k0_off2_inb (grid0.coords t) h2)).idx y)) = V c main_v16 _
  refine congrArg (V c main_v16) ?_
  funext a; apply Fin.ext
  match a with
  | ⟨0, _⟩ =>
    show win0_1.index t (0 : Fin 2) * 16384 + 1 * (k0_off2 (grid0.coords t) (0 : Fin 2) + 1 * (y 0).val) = 256 * i.val + (y 0).val
    omega
  | ⟨1, _⟩ =>
    show win0_1.index t (1 : Fin 2) * 64 + 1 * (k0_off2 (grid0.coords t) (1 : Fin 2) + 1 * (y 1).val) = (y 1).val
    omega

theorem gnnAcc0_one (adj : Vec F S16384x16384 .f32) (h : Vec F S16384x64 .f32) (i : Fin 64) :
    Arr.gnnAcc0 adj h i 1 = k0_pay2 (Arr.rowsHalf h 0) (k0_pay1 (F := F)) (Arr.adjPiece adj i 0) := rfl

theorem gnnAcc0_two (adj : Vec F S16384x16384 .f32) (h : Vec F S16384x64 .f32) (i : Fin 64) :
    Arr.gnnAcc0 adj h i 2 = k0_pay2 (Arr.rowsHalf h 1) (Arr.gnnAcc0 adj h i 1) (Arr.adjPiece adj i 1) := rfl

theorem blkOut_gnnOut0 (t : Fin cfg0.N) (i : Fin 64) (k : Fin 2) (ht : t.val = 2 * i.val + k.val)
    (adj : Vec F S16384x16384 .f32) (h : Vec F S16384x64 .f32) :
    ((cfg0.win 2).blk t).view.read (Elt F) (Arr.gnnOut0 adj h) = Arr.gnnBand0 adj h i := by
  obtain ⟨-, -, -, -, e4, e5, -⟩ := idx_facts t
  have hk : k.val < 2 := k.isLt
  funext y
  have hy0 : (y 0).val < 256 := ValueIdx.idx2_lt0 y
  have hy1 : (y 1).val < 64 := ValueIdx.idx2_lt1 y
  rw [View.read_apply]
  show Arr.gnnOut0 adj h (((cfg0.win 2).blk t).view.emb y) = Arr.gnnBand0 adj h i y
  have r0 : ((((cfg0.win 2).blk t).view.emb y) 0 : Nat) = 256 * i.val + (y 0).val := by
    show win0_2.index t (0 : Fin 2) * 256 + 1 * (y 0).val = 256 * i.val + (y 0).val; omega
  have r1 : ((((cfg0.win 2).blk t).view.emb y) 1 : Nat) = (y 1).val := by
    show win0_2.index t (1 : Fin 2) * 64 + 1 * (y 1).val = (y 1).val; omega
  unfold Arr.gnnOut0
  refine congrArg₂ (Arr.gnnBand0 adj h) (Fin.ext ?_) ?_
  · show ((((cfg0.win 2).blk t).view.emb y) 0 : Nat) / 256 = i.val
    rw [r0]; omega
  · funext a; apply Fin.ext
    match a with
    | ⟨0, _⟩ => show ((((cfg0.win 2).blk t).view.emb y) 0 : Nat) % 256 = (y 0).val; rw [r0]; omega
    | ⟨1, _⟩ => show ((((cfg0.win 2).blk t).view.emb y) 1 : Nat) = (y 1).val; exact r1

theorem flushed_out_eq (c : Dev nD) (t : Fin cfg0.N) (hf : (cfg0.win 2).flush t = true) :
    (dat V c).flushed 2 t = ((cfg0.win 2).blk t).view.read (Elt F) (Arr.gnnOut0 (adjArr V c) (hArr V c)) := by
  have h1 : t.val % 2 = 1 := (flush0_2 t).mp hf
  have hN : t.val < 128 := lt_of_lt_of_eq t.isLt N_0
  have h0 : ¬ t.val % 2 = 0 := by omega
  have hc2 : k0_cond2 (grid0.coords t) = 1#1 := (hcond2 t).mpr h1
  obtain ⟨i, hi⟩ : ∃ i : Fin 64, i.val = t.val / 2 := ⟨⟨t.val / 2, by omega⟩, rfl⟩
  have ht1 : t.val = 2 * i.val + (1 : Fin 2).val := by
    show t.val = 2 * i.val + 1; omega
  have ht0 : (⟨t.val - 1, Nat.lt_of_le_of_lt (Nat.sub_le _ _) t.isLt⟩ : Fin cfg0.N).val = 2 * i.val + (0 : Fin 2).val := by
    show t.val - 1 = 2 * i.val + 0; omega
  show (cfg0.win 2).cut (grid0.coords t) ((dat V c).after 2 t) = _
  rw [after_out, outAfter_odd V c t hc2, accAfter_odd V c t h0]
  unfold accFirstHalf
  rw [hBandAt_eq V c t i 1 ht1 hc2, hRowsAt_eq V c t i 1 ht1, adjBlockAt_eq V c t i 1 ht1,
    hRowsAt_eq V c _ i 0 ht0, adjBlockAt_eq V c _ i 0 ht0, blkOut_gnnOut0 t i 1 ht1]
  rw [Arr.gnnBand0, gnnAcc0_two, gnnAcc0_one]
  rfl

/-- Band `i` of the result is written at point `2 i + 1` and the 64 bands tile the rows: the whole result is `gnnOut0` of the two arrays read. -/
theorem arrAt_out (c : Dev nD) : (dat V c).arrAt 2 cfg0.N = Arr.gnnOut0 (V c main_arg7) (V c main_v16) :=
  (dat V c).arrAt_eq_of_cover 2 (Arr.gnnOut0 (V c main_arg7) (V c main_v16)) (flushed_out_eq V c) fun j => by
    have hj0 : (j 0 : Nat) < 16384 := (j 0).isLt
    have hj1 : (j 1 : Nat) < 64 := (j 1).isLt
    have hN : cfg0.N = 128 := N_0
    have htN : 2 * ((j 0 : Nat) / 256) + 1 < cfg0.N := by omega
    obtain ⟨-, -, -, -, e4, e5, -⟩ := idx_facts ⟨2 * ((j 0 : Nat) / 256) + 1, htN⟩
    have e4' : win0_2.index ⟨2 * ((j 0 : Nat) / 256) + 1, htN⟩ (0 : Fin 2) = (j 0 : Nat) / 256 := by
      rw [e4]; show (2 * ((j 0 : Nat) / 256) + 1) / 2 = (j 0 : Nat) / 256; omega
    refine ⟨⟨2 * ((j 0 : Nat) / 256) + 1, htN⟩, (flush0_2 _).mpr (by show (2 * ((j 0 : Nat) / 256) + 1) % 2 = 1; omega), ?_⟩
    show j ∈ ((View.whole main_v17).slice (win0_2.rect ⟨2 * ((j 0 : Nat) / 256) + 1, htN⟩)).set
    rw [View.set_slice_whole, Rect.mem_set_unit]
    intro a
    match a with
    | ⟨0, _⟩ =>
      show win0_2.index ⟨2 * ((j 0 : Nat) / 256) + 1, htN⟩ (0 : Fin 2) * 256 ≤ (j 0 : Nat)
        ∧ (j 0 : Nat) < win0_2.index ⟨2 * ((j 0 : Nat) / 256) + 1, htN⟩ (0 : Fin 2) * 256 + 256
      rw [e4']; omega
    | ⟨1, _⟩ =>
      show win0_2.index ⟨2 * ((j 0 : Nat) / 256) + 1, htN⟩ (1 : Fin 2) * 64 ≤ (j 1 : Nat)
        ∧ (j 1 : Nat) < win0_2.index ⟨2 * ((j 0 : Nat) / 256) + 1, htN⟩ (1 : Fin 2) * 64 + 64
      rw [e5]; omega

end Cert.KernelIdeal.R0

end
-- ==== Proof.R1Value.lean ====
import proofs.«421360_j76029511074377_3_alg».proof.Proof.R1Body
import proofs.«421360_j76029511074377_3_alg».proof.Proof.Arr

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

abbrev adjArr (c : Dev nD) : Vec F S16384x16384 .f32 := V c main_arg7
abbrev hArr (c : Dev nD) : Vec F S16384x64 .f32 := V c main_v22

theorem idx_facts : ∀ t : Fin cfg1.N,
    win1_0.index t (0 : Fin 2) = t.val / 2 ∧ win1_0.index t (1 : Fin 2) = t.val % 2
    ∧ win1_1.index t (0 : Fin 2) = 0 ∧ win1_1.index t (1 : Fin 2) = 0
    ∧ win1_2.index t (0 : Fin 2) = t.val / 2 ∧ win1_2.index t (1 : Fin 2) = 0
    ∧ k1_off1 (grid1.coords t) (0 : Fin 2) = 8192 * (t.val % 2) ∧ k1_off1 (grid1.coords t) (1 : Fin 2) = 0
    ∧ k1_off2 (grid1.coords t) (0 : Fin 2) = 256 * (t.val / 2) ∧ k1_off2 (grid1.coords t) (1 : Fin 2) = 0 :=
  (by decide +kernel : ∀ t : Fin grid1.N, _)

theorem adjBlockAt_eq (c : Dev nD) (t : Fin cfg1.N) (i : Fin 64) (k : Fin 2) (ht : t.val = 2 * i.val + k.val) :
    adjBlockAt V c t = Arr.adjPiece (adjArr V c) i k := by
  obtain ⟨e0, e1, -⟩ := idx_facts t
  have hk : k.val < 2 := k.isLt
  funext y
  show V c main_arg7 (((cfg1.win 0).blk t).view.emb y) = V c main_arg7 _
  refine congrArg (V c main_arg7) ?_
  funext a; apply Fin.ext
  match a with
  | ⟨0, _⟩ => show win1_0.index t (0 : Fin 2) * 256 + 1 * (y 0).val = 256 * i.val + (y 0).val; omega
  | ⟨1, _⟩ => show win1_0.index t (1 : Fin 2) * 8192 + 1 * (y 1).val = 8192 * k.val + (y 1).val; omega

theorem hRowsAt_eq (c : Dev nD) (t : Fin cfg1.N) (i : Fin 64) (k : Fin 2) (ht : t.val = 2 * i.val + k.val) :
    hRowsAt (grid1.coords t) (hStagedAt V c t) = Arr.rowsHalf (hArr V c) k := by
  obtain ⟨-, -, e2, e3, -, -, o0, o1, -⟩ := idx_facts t
  have hk : k.val < 2 := k.isLt
  funext y
  show V c main_v22 (((cfg1.win 1).blk t).view.emb
      ((Rect.unit (s := S16384x64) (k1_off1 (grid1.coords t)) S8192x64.size (k1_off1_inb (grid1.coords t))).idx y)) = V c main_v22 _
  refine congrArg (V c main_v22) ?_
  funext a; apply Fin.ext
  match a with
  | ⟨0, _⟩ =>
    show win1_1.index t (0 : Fin 2) * 16384 + 1 * (k1_off1 (grid1.coords t) (0 : Fin 2) + 1 * (y 0).val) = 8192 * k.val + (y 0).val
    omega
  | ⟨1, _⟩ =>
    show win1_1.index t (1 : Fin 2) * 64 + 1 * (k1_off1 (grid1.coords t) (1 : Fin 2) + 1 * (y 1).val) = (y 1).val
    omega

theorem hBandAt_eq (c : Dev nD) (t : Fin cfg1.N) (i : Fin 64) (k : Fin 2) (ht : t.val = 2 * i.val + k.val)
    (h2 : k1_cond2 (grid1.coords t) = 1#1) :
    hBandAt (grid1.coords t) h2 (hStagedAt V c t) = Arr.rowsBand (hArr V c) i := by
  obtain ⟨-, -, e2, e3, -, -, -, -, o0, o1⟩ := idx_facts t
  have hk : k.val < 2 := k.isLt
  funext y
  show V c main_v22 (((cfg1.win 1).blk t).view.emb
      ((Rect.unit (s := S16384x64) (k1_off2 (grid1.coords t)) S256x64.size (k1_off2_inb (grid1.coords t) h2)).idx y)) = V c main_v22 _
  refine congrArg (V c main_v22) ?_
  funext a; apply Fin.ext
  match a with
  | ⟨0, _⟩ =>
    show win1_1.index t (0 : Fin 2) * 16384 + 1 * (k1_off2 (grid1.coords t) (0 : Fin 2) + 1 * (y 0).val) = 256 * i.val + (y 0).val
    omega
  | ⟨1, _⟩ =>
    show win1_1.index t (1 : Fin 2) * 64 + 1 * (k1_off2 (grid1.coords t) (1 : Fin 2) + 1 * (y 1).val) = (y 1).val
    omega

theorem gnnAcc1_one (adj : Vec F S16384x16384 .f32) (h : Vec F S16384x64 .f32) (i : Fin 64) :
    Arr.gnnAcc1 adj h i 1 = k1_pay2 (Arr.rowsHalf h 0) (k1_pay1 (F := F)) (Arr.adjPiece adj i 0) := rfl

theorem gnnAcc1_two (adj : Vec F S16384x16384 .f32) (h : Vec F S16384x64 .f32) (i : Fin 64) :
    Arr.gnnAcc1 adj h i 2 = k1_pay2 (Arr.rowsHalf h 1) (Arr.gnnAcc1 adj h i 1) (Arr.adjPiece adj i 1) := rfl

theorem blkOut_gnnOut1 (t : Fin cfg1.N) (i : Fin 64) (k : Fin 2) (ht : t.val = 2 * i.val + k.val)
    (adj : Vec F S16384x16384 .f32) (h : Vec F S16384x64 .f32) :
    ((cfg1.win 2).blk t).view.read (Elt F) (Arr.gnnOut1 adj h) = Arr.gnnBand1 adj h i := by
  obtain ⟨-, -, -, -, e4, e5, -⟩ := idx_facts t
  have hk : k.val < 2 := k.isLt
  funext y
  have hy0 : (y 0).val < 256 := ValueIdx.idx2_lt0 y
  have hy1 : (y 1).val < 64 := ValueIdx.idx2_lt1 y
  rw [View.read_apply]
  show Arr.gnnOut1 adj h (((cfg1.win 2).blk t).view.emb y) = Arr.gnnBand1 adj h i y
  have r0 : ((((cfg1.win 2).blk t).view.emb y) 0 : Nat) = 256 * i.val + (y 0).val := by
    show win1_2.index t (0 : Fin 2) * 256 + 1 * (y 0).val = 256 * i.val + (y 0).val; omega
  have r1 : ((((cfg1.win 2).blk t).view.emb y) 1 : Nat) = (y 1).val := by
    show win1_2.index t (1 : Fin 2) * 64 + 1 * (y 1).val = (y 1).val; omega
  unfold Arr.gnnOut1
  refine congrArg₂ (Arr.gnnBand1 adj h) (Fin.ext ?_) ?_
  · show ((((cfg1.win 2).blk t).view.emb y) 0 : Nat) / 256 = i.val
    rw [r0]; omega
  · funext a; apply Fin.ext
    match a with
    | ⟨0, _⟩ => show ((((cfg1.win 2).blk t).view.emb y) 0 : Nat) % 256 = (y 0).val; rw [r0]; omega
    | ⟨1, _⟩ => show ((((cfg1.win 2).blk t).view.emb y) 1 : Nat) = (y 1).val; exact r1

theorem flushed_out_eq (c : Dev nD) (t : Fin cfg1.N) (hf : (cfg1.win 2).flush t = true) :
    (dat V c).flushed 2 t = ((cfg1.win 2).blk t).view.read (Elt F) (Arr.gnnOut1 (adjArr V c) (hArr V c)) := by
  have h1 : t.val % 2 = 1 := (flush1_2 t).mp hf
  have hN : t.val < 128 := lt_of_lt_of_eq t.isLt N_1
  have h0 : ¬ t.val % 2 = 0 := by omega
  have hc2 : k1_cond2 (grid1.coords t) = 1#1 := (hcond2 t).mpr h1
  obtain ⟨i, hi⟩ : ∃ i : Fin 64, i.val = t.val / 2 := ⟨⟨t.val / 2, by omega⟩, rfl⟩
  have ht1 : t.val = 2 * i.val + (1 : Fin 2).val := by
    show t.val = 2 * i.val + 1; omega
  have ht0 : (⟨t.val - 1, Nat.lt_of_le_of_lt (Nat.sub_le _ _) t.isLt⟩ : Fin cfg1.N).val = 2 * i.val + (0 : Fin 2).val := by
    show t.val - 1 = 2 * i.val + 0; omega
  show (cfg1.win 2).cut (grid1.coords t) ((dat V c).after 2 t) = _
  rw [after_out, outAfter_odd V c t hc2, accAfter_odd V c t h0]
  unfold accFirstHalf
  rw [hBandAt_eq V c t i 1 ht1 hc2, hRowsAt_eq V c t i 1 ht1, adjBlockAt_eq V c t i 1 ht1,
    hRowsAt_eq V c _ i 0 ht0, adjBlockAt_eq V c _ i 0 ht0, blkOut_gnnOut1 t i 1 ht1]
  rw [Arr.gnnBand1, gnnAcc1_two, gnnAcc1_one]
  rfl

/-- Band `i` of the result is written at point `2 i + 1` and the 64 bands tile the rows: the whole result is `gnnOut1` of the two arrays read. -/
theorem arrAt_out (c : Dev nD) : (dat V c).arrAt 2 cfg1.N = Arr.gnnOut1 (V c main_arg7) (V c main_v22) :=
  (dat V c).arrAt_eq_of_cover 2 (Arr.gnnOut1 (V c main_arg7) (V c main_v22)) (flushed_out_eq V c) fun j => by
    have hj0 : (j 0 : Nat) < 16384 := (j 0).isLt
    have hj1 : (j 1 : Nat) < 64 := (j 1).isLt
    have hN : cfg1.N = 128 := N_1
    have htN : 2 * ((j 0 : Nat) / 256) + 1 < cfg1.N := by omega
    obtain ⟨-, -, -, -, e4, e5, -⟩ := idx_facts ⟨2 * ((j 0 : Nat) / 256) + 1, htN⟩
    have e4' : win1_2.index ⟨2 * ((j 0 : Nat) / 256) + 1, htN⟩ (0 : Fin 2) = (j 0 : Nat) / 256 := by
      rw [e4]; show (2 * ((j 0 : Nat) / 256) + 1) / 2 = (j 0 : Nat) / 256; omega
    refine ⟨⟨2 * ((j 0 : Nat) / 256) + 1, htN⟩, (flush1_2 _).mpr (by show (2 * ((j 0 : Nat) / 256) + 1) % 2 = 1; omega), ?_⟩
    show j ∈ ((View.whole main_v23).slice (win1_2.rect ⟨2 * ((j 0 : Nat) / 256) + 1, htN⟩)).set
    rw [View.set_slice_whole, Rect.mem_set_unit]
    intro a
    match a with
    | ⟨0, _⟩ =>
      show win1_2.index ⟨2 * ((j 0 : Nat) / 256) + 1, htN⟩ (0 : Fin 2) * 256 ≤ (j 0 : Nat)
        ∧ (j 0 : Nat) < win1_2.index ⟨2 * ((j 0 : Nat) / 256) + 1, htN⟩ (0 : Fin 2) * 256 + 256
      rw [e4']; omega
    | ⟨1, _⟩ =>
      show win1_2.index ⟨2 * ((j 0 : Nat) / 256) + 1, htN⟩ (1 : Fin 2) * 64 ≤ (j 1 : Nat)
        ∧ (j 1 : Nat) < win1_2.index ⟨2 * ((j 0 : Nat) / 256) + 1, htN⟩ (1 : Fin 2) * 64 + 64
      rw [e5]; omega

end Cert.KernelIdeal.R1

end
-- ==== Proof.R2Value.lean ====
import proofs.«421360_j76029511074377_3_alg».proof.Proof.R2Body
import proofs.«421360_j76029511074377_3_alg».proof.Proof.Arr

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem idx0 : ∀ t : Fin cfg2.N, win2_0.index t 0 = t.val ∧ win2_0.index t 1 = 0 :=
  (by decide +kernel : ∀ t : Fin grid2.N, win2_0.index t 0 = t.val ∧ win2_0.index t 1 = 0)
theorem idx1 : ∀ t : Fin cfg2.N, win2_1.index t 0 = 0 ∧ win2_1.index t 1 = t.val :=
  (by decide +kernel : ∀ t : Fin grid2.N, win2_1.index t 0 = 0 ∧ win2_1.index t 1 = t.val)

theorem fvBlk_eq (c : Dev nD) (t : Fin cfg2.N) (k : Fin 8) (hk : k.val = t.val) :
    fvBlk V c t = Arr.rowsPiece (V c main_v23) k := by
  funext y
  unfold fvBlk iblk
  rw [View.read_apply]
  show V c main_v23 _ = V c main_v23 _
  congr 1
  funext a
  apply Fin.ext
  match a with
  | ⟨0, _⟩ => show win2_0.index t 0 * 2048 + 1 * (y 0).val = 2048 * k.val + (y 0).val; rw [(idx0 t).1, hk]; omega
  | ⟨1, _⟩ => show win2_0.index t 1 * 64 + 1 * (y 1).val = (y 1).val; rw [(idx0 t).2]; omega

theorem segBlk_eq (c : Dev nD) (t : Fin cfg2.N) (k : Fin 8) (hk : k.val = t.val) :
    segBlk V c t = Arr.colsPiece (V c main_v24) k := by
  funext y
  unfold segBlk iblk
  rw [View.read_apply]
  show V c main_v24 _ = V c main_v24 _
  congr 1
  funext a
  apply Fin.ext
  match a with
  | ⟨0, _⟩ => show win2_1.index t 0 * 1 + 1 * (y 0).val = 0; rw [(idx1 t).1]; have := ValueIdx.idx2_lt0 y; omega
  | ⟨1, _⟩ => show win2_1.index t 1 * 2048 + 1 * (y 1).val = 2048 * k.val + (y 1).val; rw [(idx1 t).2, hk]; omega

/-- Read against the two whole arrays, the accumulator is the recurrence `segAcc`. -/
theorem acc_eq (c : Dev nD) : ∀ n, acc V c n = Arr.segAcc (V c main_v23) (V c main_v24) n
  | 0 => rfl
  | n + 1 => by
    have ih := acc_eq c n
    rw [acc, Arr.segAcc]
    by_cases hn : n < 8
    · have hn' : n < cfg2.N := lt_of_lt_of_eq hn N_2.symm
      rw [dif_pos hn', dif_pos hn, ih, fvBlk_eq V c ⟨n, hn'⟩ ⟨n, hn⟩ rfl, segBlk_eq V c ⟨n, hn'⟩ ⟨n, hn⟩ rfl]
    · have hn' : ¬ n < cfg2.N := fun h => hn (lt_of_lt_of_eq h N_2)
      rw [dif_neg hn', dif_neg hn, ih]

theorem flushed_eq (c : Dev nD) (t : Fin cfg2.N) (hf : (cfg2.win 2).flush t = true) :
    (dat V c).flushed 2 t = ((cfg2.win 2).blk t).view.read (Elt F) (Arr.segOut (V c main_v23) (V c main_v24)) := by
  have h7 : t.val = 7 := by have := (flush2_2 t).mp hf; have := lt_of_lt_of_eq t.isLt N_2; omega
  obtain rfl : t = t2_7 := Fin.ext h7
  show (cfg2.win 2).cut (grid2.coords t2_7) ((dat V c).after 2 t2_7) = _
  rw [after2, acc_eq]
  have hz' : (fun a => win2_2.index t2_7 a * main_v25.ty.shape.size a) = fun _ => 0 := funext fun a => by fin_cases a <;> decide +kernel
  exact (Memref.read_access_unit_zero (Elt F) main_v25 hz' (fun a => by rw [congrFun hz' a]; simp) (Arr.segOut (V c main_v23) (V c main_v24))).symm

/-- The result is written once, whole, at the last point: it is the accumulator after all eight pieces. -/
theorem arrAt_out (c : Dev nD) : (dat V c).arrAt 2 cfg2.N = Arr.segOut (V c main_v23) (V c main_v24) :=
  (dat V c).arrAt_eq_of_cover 2 (Arr.segOut (V c main_v23) (V c main_v24)) (flushed_eq V c) fun i =>
    ⟨t2_7, (flush2_2 t2_7).mpr rfl, by
      show i ∈ ((View.whole main_v25).slice (win2_2.rect t2_7)).set
      rw [View.set_slice_whole, Rect.mem_set_unit]
      intro a
      have h0 : (i 0 : Nat) < 1024 := (i 0).isLt
      have h1 : (i 1 : Nat) < 64 := (i 1).isLt
      match a with
      | ⟨0, _⟩ =>
        show win2_2.index t2_7 0 * win2_2.size 0 ≤ (i 0 : Nat) ∧ (i 0 : Nat) < win2_2.index t2_7 0 * win2_2.size 0 + win2_2.xsize (grid2.coords t2_7) 0
        rw [show win2_2.index t2_7 0 * win2_2.size 0 = 0 from by decide +kernel, show win2_2.xsize (grid2.coords t2_7) 0 = 1024 from by decide +kernel]; omega
      | ⟨1, _⟩ =>
        show win2_2.index t2_7 1 * win2_2.size 1 ≤ (i 1 : Nat) ∧ (i 1 : Nat) < win2_2.index t2_7 1 * win2_2.size 1 + win2_2.xsize (grid2.coords t2_7) 1
        rw [show win2_2.index t2_7 1 * win2_2.size 1 = 0 from by decide +kernel, show win2_2.xsize (grid2.coords t2_7) 1 = 64 from by decide +kernel]; omega⟩

end Cert.KernelIdeal.R2

end
-- ==== Proof.R3Value.lean ====
import proofs.«421360_j76029511074377_3_alg».proof.Proof.R3Body
import proofs.«421360_j76029511074377_3_alg».proof.Proof.Arr

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem iblk0_eq (c : Dev nD) (t : Fin cfg3.N) : iblk V c 0 t = V c main_v67 := by
  funext j
  show V c main_v67 (((cfg3.win 0).blk t).view.emb j) = V c main_v67 j
  refine congrArg _ ?_
  obtain ⟨e0, e1, -⟩ := index_zero t
  funext a; apply Fin.ext
  match a with
  | ⟨0, _⟩ => show win3_0.index t (0 : Fin 2) * 512 + 1 * (j 0).val = (j 0).val; omega
  | ⟨1, _⟩ => show win3_0.index t (1 : Fin 2) * 1024 + 1 * (j 1).val = (j 1).val; omega
theorem iblk1_eq (c : Dev nD) (t : Fin cfg3.N) : iblk V c 1 t = V c main_arg12 := by
  funext j
  show V c main_arg12 (((cfg3.win 1).blk t).view.emb j) = V c main_arg12 j
  refine congrArg _ ?_
  obtain ⟨-, -, e0, e1, -⟩ := index_zero t
  funext a; apply Fin.ext
  match a with
  | ⟨0, _⟩ => show win3_1.index t (0 : Fin 2) * 1024 + 1 * (j 0).val = (j 0).val; omega
  | ⟨1, _⟩ => show win3_1.index t (1 : Fin 2) * 512 + 1 * (j 1).val = (j 1).val; omega
theorem iblk2_eq (c : Dev nD) (t : Fin cfg3.N) : iblk V c 2 t = V c main_v68 := by
  funext j
  show V c main_v68 (((cfg3.win 2).blk t).view.emb j) = V c main_v68 j
  refine congrArg _ ?_
  obtain ⟨-, -, -, -, e0, e1, -⟩ := index_zero t
  funext a; apply Fin.ext
  match a with
  | ⟨0, _⟩ => show win3_2.index t (0 : Fin 2) * 1024 + 1 * (j 0).val = (j 0).val; omega
  | ⟨1, _⟩ => show win3_2.index t (1 : Fin 2) * 512 + 1 * (j 1).val = (j 1).val; omega
theorem iblk3_eq (c : Dev nD) (t : Fin cfg3.N) : iblk V c 3 t = V c main_v63 := by
  funext j
  show V c main_v63 (((cfg3.win 3).blk t).view.emb j) = V c main_v63 j
  refine congrArg _ ?_
  obtain ⟨-, -, -, -, -, -, e0, e1, -⟩ := index_zero t
  funext a; apply Fin.ext
  match a with
  | ⟨0, _⟩ => show win3_3.index t (0 : Fin 2) * 512 + 1 * (j 0).val = (j 0).val; omega
  | ⟨1, _⟩ => show win3_3.index t (1 : Fin 2) * 512 + 1 * (j 1).val = (j 1).val; omega

theorem mem_blk (t : Fin cfg3.N) (i : S512x512.Idx) :
    i ∈ ((cfg3.win 4).blk t).view.set ↔ ∀ a : Fin 2, win3_4.index t a * S512x512.size a ≤ (i a).val ∧ (i a).val < win3_4.index t a * S512x512.size a + S512x512.size a := by
  show i ∈ ((View.whole main_v69).slice (win3_4.rect t)).set ↔ _
  rw [View.set_slice_whole, Rect.mem_set_unit]
  exact Iff.rfl

theorem flushed_eq (c : Dev nD) (t : Fin cfg3.N) :
    (dat V c).flushed 4 t = ((cfg3.win 4).blk t).view.read (Elt F)
      (Arr.linOut (V c main_v67) (V c main_arg12) (V c main_v68) (V c main_v63)) := by
  show (cfg3.win 4).cut (grid3.coords t) ((dat V c).after 4 t) = _
  rw [after4]
  unfold out
  rw [View.canon_unit_zero zeros2]
  simp only [View.ld_unit_zero (S := S512x1024) zeros2, View.ld_unit_zero (S := S1024x512) zeros2, View.ld_unit_zero (S := S512x512) zeros2]
  rw [iblk0_eq, iblk1_eq, iblk2_eq, iblk3_eq]
  unfold Arr.linOut
  obtain ⟨-, -, -, -, -, -, -, -, e0, e1⟩ := index_zero t
  funext j
  show k3_pay1 (V c main_arg12) (V c main_v68) (V c main_v67) (V c main_v63) j
    = k3_pay1 (V c main_arg12) (V c main_v68) (V c main_v67) (V c main_v63) (((cfg3.win 4).blk t).view.emb j)
  refine congrArg _ ?_
  funext a; apply Fin.ext
  match a with
  | ⟨0, _⟩ => show (j 0).val = win3_4.index t (0 : Fin 2) * 512 + 1 * (j 0).val; omega
  | ⟨1, _⟩ => show (j 1).val = win3_4.index t (1 : Fin 2) * 512 + 1 * (j 1).val; omega

/-- Every block is its whole array, so the result array is the body's stored value of the four arrays read. -/
theorem arrAt_out (c : Dev nD) : (dat V c).arrAt 4 cfg3.N = Arr.linOut (V c main_v67) (V c main_arg12) (V c main_v68) (V c main_v63) :=
  (dat V c).arrAt_eq_of_cover 4 _ (fun t _ => flushed_eq V c t) (fun i => ⟨t3_0, flush3_4 t3_0, (mem_blk t3_0 i).2 (fun a => by
    obtain ⟨-, -, -, -, -, -, -, -, e0, e1⟩ := index_zero t3_0
    have h0 : (i 0).val < 512 := (i 0).isLt
    have h1 : (i 1).val < 512 := (i 1).isLt
    match a with
    | ⟨0, _⟩ => show win3_4.index t3_0 (0 : Fin 2) * 512 ≤ (i 0).val ∧ (i 0).val < win3_4.index t3_0 (0 : Fin 2) * 512 + 512; omega
    | ⟨1, _⟩ => show win3_4.index t3_0 (1 : Fin 2) * 512 ≤ (i 1).val ∧ (i 1).val < win3_4.index t3_0 (1 : Fin 2) * 512 + 512; omega)⟩)

end Cert.KernelIdeal.R3

end
-- ==== Proof.HostChains.lean ====
import proofs.«421360_j76029511074377_3_alg».proof.Proof.Gen.KernelIdeal.Regions
import proofs.«421360_j76029511074377_3_alg».proof.Proof.Spec

set_option maxRecDepth 1200

noncomputable section

namespace Cert.KernelIdeal.HostChains

open Idealize.ShloMosaic Idealize.ShloMosaic.TcCoe Idealize.SL.Sem Idealize.ShloMosaic.StableHlo
open Cert.KernelIdeal Cert.KernelIdeal.Gen

variable {F : FTy → Type} [FloatOps F] [Cert.ReferenceIdeal.Facts₀]
variable (m : (ℓ : Loc nD τ sig) → Buf (Elt F) ℓ) (outs : Gen.Outs (F := F)) (c : Dev nD)

section Stretches

variable (W : Valuation τ sig (Elt F))

theorem dense0 :
    StableHlo.after hostOps0_7 (StableHlo.after hostOps0_6 W) (Proc.devRef .tc main_v16)
      = Cert.Spec.hOf (W main_v11) (W main_arg3) (W main_arg4) := by
  simp only [Gen.hostOps0_7, Gen.hostOps0_6]
  after_results
  rfl

theorem dense1 :
    StableHlo.after hostOps1_1 (StableHlo.after hostOps1 W) (Proc.devRef .tc main_v22)
      = Cert.Spec.hOf (W main_v17) (W main_arg5) (W main_arg6) := by
  simp only [Gen.hostOps1_1, Gen.hostOps1]
  after_results
  rfl

theorem segRow :
    StableHlo.after hostOps2 W (Proc.devRef .tc main_v24)
      = shapeCast S1x16384 (W main_arg18) shapeCasts_S16384_S1x16384 := by
  simp only [Gen.hostOps2]
  after_results
  rfl

theorem att3 :
    StableHlo.after hostOps3 W (Proc.devRef .tc main_v63)
      = Cert.Spec.attOf (W main_v10) (W main_v25) (W main_arg8) (W main_arg13) (W main_arg14) (W main_arg15) (W main_arg16) := by
  simp only [Gen.hostOps3]
  after_results_simp
  rfl

theorem bip3 :
    StableHlo.after hostOps3 W (Proc.devRef .tc main_v67)
      = Cert.Spec.bipOf (W main_v10) (W main_arg10) (W main_arg11) := by
  simp only [Gen.hostOps3]
  after_results_simp
  rfl

theorem maskT3 :
    StableHlo.after hostOps3 W (Proc.devRef .tc main_v68) = Cert.Spec.maskTOf (W main_arg9) := by
  simp only [Gen.hostOps3]
  after_results_simp
  rfl

end Stretches

section Unwritten

variable (r : Ref sig .tc)

theorem V5_launch (h0 : r ∉ hostOps0_W := by decide) (h1 : r ∉ hostOps0_1_W := by decide) (h2 : r ∉ hostOps0_2_W := by decide)
    (h3 : r ∉ hostOps0_3_W := by decide) (h4 : r ∉ hostOps0_4_W := by decide) :
    Gen.V5 m c r = m ((c : Thread nD τ).loc r) :=
  (Gen.V5_of m c r h4).trans <| (Gen.V4_of m c r h3).trans <| (Gen.V3_of m c r h2).trans <| (Gen.V2_of m c r h1).trans <|
    (Gen.V1_of m c r h0).trans rfl

theorem V6_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide) :
    Gen.V6 m c r = m ((c : Thread nD τ).loc r) :=
  (Gen.V6_of m c r h5).trans (V5_launch m c r h0 h1 h2 h3 h4)

theorem V8_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide) :
    Gen.V8 m c r = m ((c : Thread nD τ).loc r) :=
  (Gen.V8_of m c r h7).trans <| (Gen.V7_of m c r h6).trans (V6_launch m c r h0 h1 h2 h3 h4 h5)

theorem V9_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide)
    (h8 : r ∉ ([main_v17] : List (Ref sig .tc)) := by decide) :
    Gen.V9 m outs c r = m ((c : Thread nD τ).loc r) :=
  (Gen.V9_of m outs c r h8).trans (V8_launch m c r h0 h1 h2 h3 h4 h5 h6 h7)

theorem V11_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide)
    (h8 : r ∉ ([main_v17] : List (Ref sig .tc)) := by decide)
    (h9 : r ∉ hostOps1_W := by decide) (h10 : r ∉ hostOps1_1_W := by decide) :
    Gen.V11 m outs c r = m ((c : Thread nD τ).loc r) :=
  (Gen.V11_of m outs c r h10).trans <| (Gen.V10_of m outs c r h9).trans (V9_launch m outs c r h0 h1 h2 h3 h4 h5 h6 h7 h8)

theorem V12_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide)
    (h8 : r ∉ ([main_v17] : List (Ref sig .tc)) := by decide)
    (h9 : r ∉ hostOps1_W := by decide) (h10 : r ∉ hostOps1_1_W := by decide)
    (h11 : r ∉ ([main_v23] : List (Ref sig .tc)) := by decide) :
    Gen.V12 m outs c r = m ((c : Thread nD τ).loc r) :=
  (Gen.V12_of m outs c r h11).trans (V11_launch m outs c r h0 h1 h2 h3 h4 h5 h6 h7 h8 h9 h10)

theorem V14_launch (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide)
    (h8 : r ∉ ([main_v17] : List (Ref sig .tc)) := by decide)
    (h9 : r ∉ hostOps1_W := by decide) (h10 : r ∉ hostOps1_1_W := by decide)
    (h11 : r ∉ ([main_v23] : List (Ref sig .tc)) := by decide)
    (h12 : r ∉ hostOps2_W := by decide) (h13 : r ∉ ([main_v25] : List (Ref sig .tc)) := by decide) :
    Gen.V14 m outs c r = m ((c : Thread nD τ).loc r) :=
  (Gen.V14_of m outs c r h13).trans <| (Gen.V13_of m outs c r h12).trans
    (V12_launch m outs c r h0 h1 h2 h3 h4 h5 h6 h7 h8 h9 h10 h11)

theorem V14_main_v10 : Gen.V14 m outs c main_v10 = Gen.V5 m c main_v10 :=
  (Gen.V14_of m outs c main_v10 (by decide)).trans <| (Gen.V13_of m outs c main_v10 (by decide)).trans <|
  (Gen.V12_of m outs c main_v10 (by decide)).trans <| (Gen.V11_of m outs c main_v10 (by decide)).trans <|
  (Gen.V10_of m outs c main_v10 (by decide)).trans <| (Gen.V9_of m outs c main_v10 (by decide)).trans <|
  (Gen.V8_of m c main_v10 (by decide)).trans <| (Gen.V7_of m c main_v10 (by decide)).trans (Gen.V6_of m c main_v10 (by decide))

end Unwritten

theorem V9_main_v17 : Gen.V9 m outs c main_v17 = outs 9 main_v17 c := Function.update_self ..
theorem V12_main_v23 : Gen.V12 m outs c main_v23 = outs 12 main_v23 c := Function.update_self ..
theorem V14_main_v25 : Gen.V14 m outs c main_v25 = outs 14 main_v25 c := Function.update_self ..

theorem V8_main_v16 :
    Gen.V8 m c main_v16 = Cert.Spec.hOf (Gen.V6 m c main_v11) (m ((c : Thread nD τ).loc main_arg3)) (m ((c : Thread nD τ).loc main_arg4)) :=
  (dense0 (Gen.V6 m c)).trans (by rw [V6_launch m c main_arg3, V6_launch m c main_arg4])

theorem V8_main_arg7 : Gen.V8 m c main_arg7 = m ((c : Thread nD τ).loc main_arg7) := V8_launch m c main_arg7

theorem V11_main_v22 :
    Gen.V11 m outs c main_v22 = Cert.Spec.hOf (outs 9 main_v17 c) (m ((c : Thread nD τ).loc main_arg5)) (m ((c : Thread nD τ).loc main_arg6)) :=
  (dense1 (Gen.V9 m outs c)).trans (by rw [V9_main_v17 m outs c, V9_launch m outs c main_arg5, V9_launch m outs c main_arg6])

theorem V11_main_arg7 : Gen.V11 m outs c main_arg7 = m ((c : Thread nD τ).loc main_arg7) := V11_launch m outs c main_arg7

theorem V13_main_v23 : Gen.V13 m outs c main_v23 = outs 12 main_v23 c :=
  (Gen.V13_of m outs c main_v23 (by decide)).trans (V12_main_v23 m outs c)

theorem V13_main_v24 :
    Gen.V13 m outs c main_v24 = shapeCast S1x16384 (m ((c : Thread nD τ).loc main_arg18)) shapeCasts_S16384_S1x16384 :=
  (segRow (Gen.V12 m outs c)).trans (by rw [V12_launch m outs c main_arg18])

theorem V15_main_v63 :
    Gen.V15 m outs c main_v63 = Cert.Spec.attOf (Gen.V5 m c main_v10) (outs 14 main_v25 c)
      (m ((c : Thread nD τ).loc main_arg8)) (m ((c : Thread nD τ).loc main_arg13)) (m ((c : Thread nD τ).loc main_arg14))
      (m ((c : Thread nD τ).loc main_arg15)) (m ((c : Thread nD τ).loc main_arg16)) :=
  (att3 (Gen.V14 m outs c)).trans (by
    rw [V14_main_v10 m outs c, V14_main_v25 m outs c, V14_launch m outs c main_arg8, V14_launch m outs c main_arg13,
      V14_launch m outs c main_arg14, V14_launch m outs c main_arg15, V14_launch m outs c main_arg16])

theorem V15_main_v67 :
    Gen.V15 m outs c main_v67 = Cert.Spec.bipOf (Gen.V5 m c main_v10) (m ((c : Thread nD τ).loc main_arg10)) (m ((c : Thread nD τ).loc main_arg11)) :=
  (bip3 (Gen.V14 m outs c)).trans (by
    rw [V14_main_v10 m outs c, V14_launch m outs c main_arg10, V14_launch m outs c main_arg11])

theorem V15_main_v68 : Gen.V15 m outs c main_v68 = Cert.Spec.maskTOf (m ((c : Thread nD τ).loc main_arg9)) :=
  (maskT3 (Gen.V14 m outs c)).trans (by rw [V14_launch m outs c main_arg9])

theorem V15_main_arg12 : Gen.V15 m outs c main_arg12 = m ((c : Thread nD τ).loc main_arg12) :=
  (Gen.V15_of m outs c main_arg12 (by decide)).trans (V14_launch m outs c main_arg12)

end Cert.KernelIdeal.HostChains

end
-- ==== Proof.Gathers.lean ====
import proofs.«421360_j76029511074377_3_alg».proof.Proof.Gen.KernelIdeal.Regions
import proofs.«421360_j76029511074377_3_alg».proof.Proof.Gen.ReferenceIdeal
import proofs.«421360_j76029511074377_3_alg».proof.Proof.RefRunHand
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

namespace Cert.KernelIdeal.Gathers

open Cert.KernelIdeal Idealize.ShloMosaic Idealize.ShloMosaic.TcCoe Idealize.SL.Sem Idealize.ShloMosaic.StableHlo
open Idealize.ShloMosaic.ValueIdx

theorem ofBool_eq_one_iff (b : Bool) : BitVec.ofBool b = 1#1 ↔ b = true := by cases b <;> decide

theorem toInt_cases (w : BitVec 32) :
    (w.toNat < 2147483648 ∧ w.toInt = (w.toNat : Int)) ∨ (2147483648 ≤ w.toNat ∧ w.toInt = (w.toNat : Int) - 4294967296) := by
  rw [BitVec.toInt_eq_toNat_cond]
  split <;> rename_i h
  · exact Or.inl ⟨by omega, rfl⟩
  · exact Or.inr ⟨by omega, by norm_num⟩

theorem select_neg {α : Type} (w : BitVec 32) (a b : α) :
    Scalar.select (IntOp.cmpi .slt w 0#32) a b = if w.toInt < 0 then a else b := by
  unfold IntOp.cmpi Scalar.select
  have h0 : (0#32 : BitVec 32).toInt = 0 := by decide
  by_cases h : w.toInt < 0
  · have : w.slt 0#32 = true := by simp only [BitVec.slt, h0, decide_eq_true_eq]; exact h
    rw [if_pos h, this]; rfl
  · have : w.slt 0#32 = false := by simp only [BitVec.slt, h0, decide_eq_false_iff_not]; exact h
    rw [if_neg h, this]; rfl

theorem wrap_in_range (w : BitVec 32) (h1 : (4294963200#32).sle w = true) (h2 : w.slt 4096#32 = true) :
    IntOp.cmpi .sge (Scalar.select (IntOp.cmpi .slt w 0#32) (IntOp.addi w 4096#32) w) 0#32 = 1#1 ∧
    IntOp.cmpi .sle (Scalar.select (IntOp.cmpi .slt w 0#32) (IntOp.addi w 4096#32) w) 4095#32 = 1#1 := by
  have hw := w.isLt
  have c1 : (4294963200#32 : BitVec 32).toInt = -4096 := by decide
  have c2 : (4096#32 : BitVec 32).toInt = 4096 := by decide
  have c3 : (0#32 : BitVec 32).toInt = 0 := by decide
  have c4 : (4095#32 : BitVec 32).toInt = 4095 := by decide
  simp only [BitVec.sle, BitVec.slt, decide_eq_true_eq, c1, c2] at h1 h2
  have hadd : (w + 4096#32).toNat = (w.toNat + 4096) % 4294967296 := by rw [BitVec.toNat_add]; rfl
  rw [select_neg]
  simp only [IntOp.cmpi, ofBool_eq_one_iff, BitVec.sle, decide_eq_true_eq, c3, c4]
  by_cases hn : w.toInt < 0
  · rw [if_pos hn]
    show 0 ≤ (w + 4096#32).toInt ∧ (w + 4096#32).toInt ≤ 4095
    rcases toInt_cases w with ⟨ha, ea⟩ | ⟨ha, ea⟩ <;> rcases toInt_cases (w + 4096#32) with ⟨hb, eb⟩ | ⟨hb, eb⟩ <;> omega
  · rw [if_neg hn]
    omega

theorem sub_one_range (v : BitVec 32) (hv : v.toNat ≤ 32) :
    -1 ≤ (IntOp.subi v 1#32).toInt ∧ (IntOp.subi v 1#32).toInt ≤ 31 := by
  show -1 ≤ (v - 1#32).toInt ∧ (v - 1#32).toInt ≤ 31
  have hs : (v - 1#32).toNat = (4294967295 + v.toNat) % 4294967296 := by rw [BitVec.toNat_sub]; rfl
  rcases toInt_cases (v - 1#32) with ⟨ha, ea⟩ | ⟨ha, ea⟩ <;> omega

theorem pos_word (s : BitVec 32) (h1 : -1 ≤ s.toInt) (h2 : s.toInt ≤ 31) :
    Scalar.select (IntOp.cmpi .slt (Scalar.select (IntOp.cmpi .slt s 0#32) 31#32 s) 0#32)
        (IntOp.addi (Scalar.select (IntOp.cmpi .slt s 0#32) 31#32 s) 32#32) (Scalar.select (IntOp.cmpi .slt s 0#32) 31#32 s)
      = Scalar.select (IntOp.cmpi .slt s 0#32) (IntOp.addi s 32#32) s
    ∧ IntOp.cmpi .sge (Scalar.select (IntOp.cmpi .slt s 0#32) (IntOp.addi s 32#32) s) 0#32 = 1#1
    ∧ IntOp.cmpi .sle (Scalar.select (IntOp.cmpi .slt s 0#32) (IntOp.addi s 32#32) s) 31#32 = 1#1 := by
  by_cases hn : s.toInt < 0
  · have hs : s = 4294967295#32 := BitVec.eq_of_toInt_eq (by rw [show (4294967295#32 : BitVec 32).toInt = -1 by decide]; omega)
    subst hs
    decide
  · have c0 : (0#32 : BitVec 32).toInt = 0 := by decide
    have c31 : (31#32 : BitVec 32).toInt = 31 := by decide
    rw [select_neg s, if_neg hn, select_neg s, if_neg hn]
    refine ⟨rfl, ?_, ?_⟩
    · simp only [IntOp.cmpi, ofBool_eq_one_iff, BitVec.sle, decide_eq_true_eq, c0]; omega
    · simp only [IntOp.cmpi, ofBool_eq_one_iff, BitVec.sle, decide_eq_true_eq, c31]; omega

theorem row_word (b : Fin 512) :
    min (Scalar.select (IntOp.cmpi .slt (BitVec.ofNat 32 b.val) 0#32) (IntOp.addi (BitVec.ofNat 32 b.val) 512#32)
      (BitVec.ofNat 32 b.val)).toInt.toNat 511 = b.val := by
  have hb := b.isLt
  have e : (BitVec.ofNat 32 b.val).toInt = (b.val : Int) := StableHlo.Predicate.toInt_ofNat_small b.val (by omega)
  rw [select_neg, e, if_neg (by omega), e, Int.toNat_natCast]
  omega

theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  have key : ∀ (l : List s.Idx) (r : BitVec 1), r = 1#1 → l.foldl (fun r i => IntOp.andi r (x i)) r = 1#1 := by
    intro l
    induction l with
    | nil => intro r hr; exact hr
    | cons a l ih =>
      intro r hr
      rw [List.foldl_cons]
      exact ih _ (by rw [hr, hx a]; decide)
  exact key _ _ hinit

variable {α : Type}

abbrev qAt (j : S512x1x64.Idx) : S512x1x64x1.Idx :=
  fun a => match a with | ⟨0, _⟩ => j 0 | ⟨1, _⟩ => j 1 | ⟨2, _⟩ => j 2 | ⟨3, _⟩ => ⟨0, Nat.one_pos⟩

theorem gatherK_apply (x : S512x32x64.Idx → α) (idx : IVec S512x1x64x1 32) (j : S512x1x64.Idx) (p : Fin 32)
    (hp : p.val = min (idx (qAt j)).toInt.toNat 31) :
    Host.gather gather_S512x32x64_S512x1x64x1_S512x1x64_n_1_02_02_1_3_111 x idx j
      = x (ix3 (⟨(j 0).val, (j 0).isLt⟩ : Fin 512) p (⟨(j 2).val, (j 2).isLt⟩ : Fin 64)) := by
  unfold Host.gather
  congr 1
  funext a
  refine Fin.ext ?_
  match a with
  | ⟨0, _⟩ =>
    show GatherDims.start _ j idx 0 + GatherDims.batchCoord _ j 0 + GatherDims.offCoord _ j 0 = (j 0).val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show GatherDims.start _ j idx 1 + GatherDims.batchCoord _ j 1 + GatherDims.offCoord _ j 1 = p.val
    rw [hp]
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S512x32x64_S512x1x64x1_S512x1x64_n_1_02_02_1_3_111 j
        ⟨List.idxOf (1 : Fin 3) gather_S512x32x64_S512x1x64x1_S512x1x64_n_1_02_02_1_3_111.startIndexMap,
          List.idxOf_lt_length_iff.2 (by decide)⟩ = qAt j := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show GatherDims.start _ j idx 2 + GatherDims.batchCoord _ j 2 + GatherDims.offCoord _ j 2 = (j 2).val
    rw [GatherDims.start_batching _ _ _ _ (by decide), GatherDims.offCoord_eq_zero _ _ _ (by decide)]
    unfold GatherDims.batchCoord
    rw [dif_pos (by decide)]
    simp only [Nat.zero_add, Nat.add_zero]
    rfl

abbrev pAt (i : S512x64.Idx) (k : Fin 2) : Cert.ReferenceIdeal.S512x2.Idx :=
  fun a => match a with | ⟨0, _⟩ => i 0 | ⟨1, _⟩ => k

theorem gatherR_apply (x : S512x32x64.Idx → α) (idx : IVec Cert.ReferenceIdeal.S512x2 32) (i : S512x64.Idx) (r : Fin 512) (p : Fin 32)
    (hr : r.val = min (idx (pAt i 0)).toInt.toNat 511) (hp : p.val = min (idx (pAt i 1)).toInt.toNat 31) :
    Host.gather Cert.ReferenceIdeal.gather_S512x32x64_S512x2_S512x64_1_01_n_n_01_1_1164 x idx i
      = x (ix3 r p (⟨(i 1).val, (i 1).isLt⟩ : Fin 64)) := by
  unfold Host.gather
  congr 1
  funext a
  refine Fin.ext ?_
  match a with
  | ⟨0, _⟩ =>
    show GatherDims.start _ i idx 0 + GatherDims.batchCoord _ i 0 + GatherDims.offCoord _ i 0 = r.val
    rw [hr]
    rw [GatherDims.batchCoord_eq_zero _ _ _ (by decide), GatherDims.offCoord_eq_zero _ _ _ (by decide)]
    simp only [Nat.add_zero]
    unfold GatherDims.start
    rw [dif_pos (by decide)]
    have hsi : GatherDims.siIdx Cert.ReferenceIdeal.gather_S512x32x64_S512x2_S512x64_1_01_n_n_01_1_1164 i
        ⟨List.idxOf (0 : Fin 3) Cert.ReferenceIdeal.gather_S512x32x64_S512x2_S512x64_1_01_n_n_01_1_1164.startIndexMap,
          List.idxOf_lt_length_iff.2 (by decide)⟩ = pAt i 0 := by
      funext b; refine Fin.ext ?_
      match b with
      | ⟨0, _⟩ => rfl
      | ⟨1, _⟩ => rfl
    rw [hsi]
    rfl
  | ⟨1, _⟩ =>
    show GatherDims.start _ i idx 1 + GatherDims.batchCoord _ i 1 + GatherDims.offCoord _ i 1 = p.val
    rw [hp]
    rw [GatherDims.batchCoord_eq_zero _ _ _ (by decide), GatherDims.offCoord_eq_zero _ _ _ (by decide)]
    simp only [Nat.add_zero]
    unfold GatherDims.start
    rw [dif_pos (by decide)]
    have hsi : GatherDims.siIdx Cert.ReferenceIdeal.gather_S512x32x64_S512x2_S512x64_1_01_n_n_01_1_1164 i
        ⟨List.idxOf (1 : Fin 3) Cert.ReferenceIdeal.gather_S512x32x64_S512x2_S512x64_1_01_n_n_01_1_1164.startIndexMap,
          List.idxOf_lt_length_iff.2 (by decide)⟩ = pAt i 1 := by
      funext b; refine Fin.ext ?_
      match b with
      | ⟨0, _⟩ => rfl
      | ⟨1, _⟩ => rfl
    rw [hsi]
    rfl
  | ⟨2, _⟩ =>
    show GatherDims.start _ i idx 2 + GatherDims.batchCoord _ i 2 + GatherDims.offCoord _ i 2 = (i 1).val
    rw [GatherDims.batchCoord_eq_zero _ _ _ (by decide)]
    unfold GatherDims.start GatherDims.offCoord
    rw [dif_neg (by decide), dif_pos (by decide)]
    simp only [Nat.zero_add, Nat.add_zero]
    rfl

def takeIdx (x17 : IVec S16384 32) : IVec S16384x1 32 :=
  broadcastInDim S16384x1 ![0] Gen.bcast_S16384_S16384x1_0
    (select (cmpi .slt x17 (broadcastInDim S16384 ![] Gen.bcast_S_S16384 (constantI S_ 32 0#32)))
      (addi x17 (broadcastInDim S16384 ![] Gen.bcast_S_S16384 (constantI S_ 32 4096#32))) x17)

def takeMask (x17 : IVec S16384 32) : IVec S16384 1 :=
  Host.reduce IntOp.andi
    (andi (cmpi .sge (takeIdx x17) (broadcastInDim S16384x1 ![] Gen.bcast_S_S16384x1 (constantI S_ 32 0#32)))
      (cmpi .sle (takeIdx x17) (broadcastInDim S16384x1 ![0, 1] Gen.bcast_S1x1_S16384x1_0_1
        (broadcastInDim S1x1 ![1] Gen.bcast_S1_S1x1_1 (constantI S1 32 4095#32)))))
    (constantI S_ 1 1#1) Gen.reducesTo_S16384x1_S16384_d1 Gen.h_S_

def takeK (x2 : FVec Ideal S4096x64 .f32) (x17 : IVec S16384 32) : FVec Ideal S16384x64 .f32 :=
  select (broadcastInDim S16384x64 ![0] Gen.bcast_S16384_S16384x64_0 (takeMask x17))
    (Host.gather gather_S4096x64_S16384x1_S16384x64_1_0_n_n_0_1_164 x2 (takeIdx x17))
    (broadcastInDim S16384x64 ![] Gen.bcast_S_S16384x64 (constant S_ .f32 0x7FC00000#32))

section
variable (m : (ℓ : Loc nD τ sig) → Buf (Elt Ideal) ℓ) (c : Dev nD)

theorem take_kernel : Gen.V6 m c main_v11
    = takeK (m ((c.tc : Thread nD τ).loc main_arg2)) (m ((c.tc : Thread nD τ).loc main_arg17)) := by
  show StableHlo.after Gen.hostOps0_5 (Gen.V5 m c) (Proc.devRef .tc main_v11) = _
  dsimp only [Gen.hostOps0_5]
  after_results_simp
  simp only [TRef.toBuf, TRef.ofBuf, cast_eq]
  rfl

end

theorem takeMask_one (x17 : IVec S16384 32)
    (hfp : ∀ a : S16384.Idx, (4294963200#32).sle (x17 a) = true ∧ (x17 a).slt 4096#32 = true) (a : S16384.Idx) :
    takeMask x17 a = 1#1 := by
  unfold takeMask
  refine reduce_andi_ones _ _ _ _ rfl (fun i => ?_) a
  unfold takeIdx broadcastInDim
  obtain ⟨hge, hle⟩ := wrap_in_range _ (hfp _).1 (hfp _).2
  exact IntOp.andi_eq_one.2 ⟨hge, hle⟩

/-- With every id in [-4096, 4096) the wrapped id is in range, the out-of-range guard never fires, and the lookup is the plain wrap-and-gather. -/
theorem takeK_eq (x2 : FVec Ideal S4096x64 .f32) (x17 : IVec S16384 32)
    (hfp : ∀ a : S16384.Idx, (4294963200#32).sle (x17 a) = true ∧ (x17 a).slt 4096#32 = true) :
    takeK x2 x17 = Host.gather gather_S4096x64_S16384x1_S16384x64_1_0_n_n_0_1_164 x2 (takeIdx x17) := by
  funext i
  unfold takeK select
  have h1 : broadcastInDim S16384x64 ![0] Gen.bcast_S16384_S16384x64_0 (takeMask x17) i = 1#1 := by
    unfold broadcastInDim
    exact takeMask_one x17 hfp _
  rw [h1]
  exact ValueIdx.select_one _ _

theorem take_dims_eq : (gather_S4096x64_S16384x1_S16384x64_1_0_n_n_0_1_164 : GatherDims S4096x64 S16384x1 S16384x64)
    = Cert.ReferenceIdeal.gather_S4096x64_S16384x1_S16384x64_1_0_n_n_0_1_164 := rfl

def lastPos (x1 : IVec S512x32 1) : IVec S512 32 :=
  subi (Host.reduce IntOp.addi (extui 32 x1 Gen.natLt_1_32) (constantI S_ 32 0#32) Gen.reducesTo_S512x32_S512_d1 Gen.h_S_)
    (broadcastInDim S512 ![] Gen.bcast_S_S512 (constantI S_ 32 1#32))

def lastK (x1 : IVec S512x32 1) : IVec S512 32 :=
  select (cmpi .slt (lastPos x1) (broadcastInDim S512 ![] Gen.bcast_S_S512 (constantI S_ 32 0#32)))
    (broadcastInDim S512 ![] Gen.bcast_S_S512 (id (constantI S_ 32 31#32))) (lastPos x1)

def lastB (x1 : IVec S512x32 1) : IVec S512x1x64 32 :=
  broadcastInDim S512x1x64 ![0, 1, 2] Gen.bcast_S512x1x1_S512x1x64_0_1_2
    (broadcastInDim S512x1x1 ![0] Gen.bcast_S512_S512x1x1_0 (lastK x1))

def queryIdx (x1 : IVec S512x32 1) : IVec S512x1x64x1 32 :=
  shapeCast S512x1x64x1
    (select (cmpi .slt (lastB x1) (broadcastInDim S512x1x64 ![] Gen.bcast_S_S512x1x64 (constantI S_ 32 0#32)))
      (addi (lastB x1) (broadcastInDim S512x1x64 ![] Gen.bcast_S_S512x1x64 (constantI S_ 32 32#32))) (lastB x1))
    Gen.shapeCasts_S512x1x64_S512x1x64x1

def queryMask (x1 : IVec S512x32 1) : IVec S512x1x64 1 :=
  Host.reduce IntOp.andi
    (andi (cmpi .sge (queryIdx x1) (broadcastInDim S512x1x64x1 ![] Gen.bcast_S_S512x1x64x1 (constantI S_ 32 0#32)))
      (cmpi .sle (queryIdx x1) (broadcastInDim S512x1x64x1 ![0, 1, 2, 3] Gen.bcast_S1x1x1x1_S512x1x64x1_0_1_2_3
        (broadcastInDim S1x1x1x1 ![3] Gen.bcast_S1_S1x1x1x1_3 (constantI S1 32 31#32)))))
    (constantI S_ 1 1#1) Gen.reducesTo_S512x1x64x1_S512x1x64_d3 Gen.h_S_

def queryK (x0 : FVec Ideal S512x32x64 .f32) (x1 : IVec S512x32 1) : FVec Ideal S512x64 .f32 :=
  shapeCast S512x64
    (select (queryMask x1) (Host.gather gather_S512x32x64_S512x1x64x1_S512x1x64_n_1_02_02_1_3_111 x0 (queryIdx x1))
      (broadcastInDim S512x1x64 ![] Gen.bcast_S_S512x1x64 (constant S_ .f32 0x7FC00000#32)))
    Gen.shapeCasts_S512x1x64_S512x64

section
variable (m : (ℓ : Loc nD τ sig) → Buf (Elt Ideal) ℓ) (c : Dev nD)

set_option maxHeartbeats 1000000 in
theorem query_kernel : Gen.V5 m c main_v10
    = queryK (m ((c.tc : Thread nD τ).loc main_arg0)) (m ((c.tc : Thread nD τ).loc main_arg1)) := by
  show StableHlo.after Gen.hostOps0_4 (Gen.V4 m c) (Proc.devRef .tc main_v10) = _
  dsimp only [Gen.hostOps0_4]
  after_results_simp
  simp only [TRef.toBuf, TRef.ofBuf, cast_eq]
  rfl

end

theorem count_le (x1 : IVec S512x32 1) (j : S512.Idx) :
    (Host.reduce IntOp.addi (extui 32 x1 Gen.natLt_1_32) (constantI S_ 32 0#32) Gen.reducesTo_S512x32_S512_d1 Gen.h_S_ j).toNat ≤ 32 := by
  rw [StableHlo.Predicate.toNat_reduce_count_cols (by norm_num) x1 Gen.natLt_1_32 Gen.reducesTo_S512x32_S512_d1 Gen.h_S_ j]
  exact (Finset.card_le_univ _).trans (by simp)

theorem lastPos_range (x1 : IVec S512x32 1) (j : S512.Idx) : -1 ≤ (lastPos x1 j).toInt ∧ (lastPos x1 j).toInt ≤ 31 :=
  sub_one_range _ (count_le x1 j)

def posWord (x1 : IVec S512x32 1) (b : Fin 512) : BitVec 32 :=
  Scalar.select (IntOp.cmpi .slt (lastPos x1 (ix1 b)) 0#32) (IntOp.addi (lastPos x1 (ix1 b)) 32#32) (lastPos x1 (ix1 b))

theorem lastK_at (x1 : IVec S512x32 1) (j : S512.Idx) :
    lastK x1 j = Scalar.select (IntOp.cmpi .slt (lastPos x1 j) 0#32) 31#32 (lastPos x1 j) := rfl

theorem lastB_at (x1 : IVec S512x32 1) (j : S512x1x64.Idx) :
    lastB x1 j = lastK x1 (ix1 (⟨(j 0).val, (j 0).isLt⟩ : Fin 512)) := by
  unfold lastB broadcastInDim
  refine congrArg (lastK x1) (funext fun a => ?_)
  match a with
  | ⟨0, _⟩ => rfl

theorem queryIdx_at (x1 : IVec S512x32 1) (j : S512x1x64.Idx) :
    queryIdx x1 (qAt j) = posWord x1 (⟨(j 0).val, (j 0).isLt⟩ : Fin 512) := by
  unfold queryIdx
  rw [shapeCast_apply _ Gen.shapeCasts_S512x1x64_S512x1x64x1 (qAt j) j (by
    rw [Shape.rowMajor_val_three, Shape.rowMajor_val_four]
    show ((j 0).val * 1 + (j 1).val) * 64 + (j 2).val = (((j 0).val * 1 + (j 1).val) * 64 + (j 2).val) * 1 + 0
    omega)]
  show Scalar.select (IntOp.cmpi .slt (lastB x1 j) 0#32) (IntOp.addi (lastB x1 j) 32#32) (lastB x1 j) = _
  rw [lastB_at, lastK_at]
  have hr := lastPos_range x1 (ix1 (⟨(j 0).val, (j 0).isLt⟩ : Fin 512))
  unfold posWord
  generalize lastPos x1 (ix1 (⟨(j 0).val, (j 0).isLt⟩ : Fin 512)) = s at hr ⊢
  exact (pos_word s hr.1 hr.2).1

theorem qAt_eta (i : S512x1x64x1.Idx) :
    i = qAt (fun a => match a with | ⟨0, _⟩ => i 0 | ⟨1, _⟩ => i 1 | ⟨2, _⟩ => i 2) := by
  funext a
  match a with
  | ⟨0, _⟩ => rfl
  | ⟨1, _⟩ => rfl
  | ⟨2, _⟩ => rfl
  | ⟨3, _⟩ => exact Fin.ext (by have h : (i 3).val < 1 := (i 3).isLt; show (i 3).val = 0; omega)

theorem queryMask_one (x1 : IVec S512x32 1) (j : S512x1x64.Idx) : queryMask x1 j = 1#1 := by
  unfold queryMask
  refine reduce_andi_ones _ _ _ _ rfl (fun i => ?_) j
  rw [qAt_eta i]
  show IntOp.andi (IntOp.cmpi .sge (queryIdx x1 (qAt _)) 0#32) (IntOp.cmpi .sle (queryIdx x1 (qAt _)) 31#32) = 1#1
  rw [queryIdx_at]
  have hr := lastPos_range x1 (ix1 (⟨(i 0).val, (i 0).isLt⟩ : Fin 512))
  unfold posWord
  generalize lastPos x1 (ix1 (⟨(i 0).val, (i 0).isLt⟩ : Fin 512)) = s at hr ⊢
  obtain ⟨-, hge, hle⟩ := pos_word s hr.1 hr.2
  exact IntOp.andi_eq_one.2 ⟨hge, hle⟩

theorem queryK_apply (x0 : FVec Ideal S512x32x64 .f32) (x1 : IVec S512x32 1) (i : S512x64.Idx) (p : Fin 32)
    (hp : p.val = min (posWord x1 (⟨(i 0).val, (i 0).isLt⟩ : Fin 512)).toInt.toNat 31) :
    queryK x0 x1 i = x0 (ix3 (⟨(i 0).val, (i 0).isLt⟩ : Fin 512) p (⟨(i 1).val, (i 1).isLt⟩ : Fin 64)) := by
  unfold queryK
  rw [shapeCast_apply _ Gen.shapeCasts_S512x1x64_S512x64 i
    (ix3 (⟨(i 0).val, (i 0).isLt⟩ : Fin 512) (0 : Fin 1) (⟨(i 1).val, (i 1).isLt⟩ : Fin 64)) (by
      rw [Shape.rowMajor_val_three, Shape.rowMajor_val_two]
      show ((i 0).val * 1 + 0) * 64 + (i 1).val = (i 0).val * 64 + (i 1).val
      omega)]
  show Scalar.select (queryMask x1 _) (Host.gather _ x0 (queryIdx x1) _) _ = _
  rw [queryMask_one, ValueIdx.select_one]
  exact gatherK_apply x0 (queryIdx x1) _ p (by rw [queryIdx_at]; exact hp)

def rowR : IVec S512 32 :=
  select (cmpi .slt (iotaInDim S512 32 0) (broadcastInDim S512 ![] Gen.bcast_S_S512 (constantI S_ 32 0#32)))
    (addi (iotaInDim S512 32 0) (broadcastInDim S512 ![] Gen.bcast_S_S512 (constantI S_ 32 512#32))) (iotaInDim S512 32 0)

def lastR (x1 : IVec S512x32 1) : IVec S512 32 :=
  select (cmpi .slt (lastPos x1) (broadcastInDim S512 ![] Gen.bcast_S_S512 (constantI S_ 32 0#32)))
    (addi (lastPos x1) (broadcastInDim S512 ![] Gen.bcast_S_S512 (constantI S_ 32 32#32))) (lastPos x1)

def pairsR (x1 : IVec S512x32 1) : IVec Cert.ReferenceIdeal.S512x2 32 :=
  concatenate Cert.ReferenceIdeal.S512x2 1
    [⟨Cert.ReferenceIdeal.S512x1, broadcastInDim Cert.ReferenceIdeal.S512x1 ![0] Cert.ReferenceIdeal.Gen.bcast_S512_S512x1_0 rowR⟩,
     ⟨Cert.ReferenceIdeal.S512x1, broadcastInDim Cert.ReferenceIdeal.S512x1 ![0] Cert.ReferenceIdeal.Gen.bcast_S512_S512x1_0 (lastR x1)⟩]
    Cert.ReferenceIdeal.Gen.concatenates_S512x1_S512x1_S512x2_d1

theorem column_at {β : Type} (y : S512.Idx → β) (b : Fin 512) :
    broadcastInDim Cert.ReferenceIdeal.S512x1 ![0] Cert.ReferenceIdeal.Gen.bcast_S512_S512x1_0 y (ix2 b (0 : Fin 1)) = y (ix1 b) := by
  unfold broadcastInDim
  refine congrArg y (funext fun a => ?_)
  match a with
  | ⟨0, _⟩ => rfl

theorem pairs_row (x1 : IVec S512x32 1) (i : S512x64.Idx) : (i 0).val = min (pairsR x1 (pAt i 0)).toInt.toNat 511 := by
  unfold pairsR
  rw [concatenate_pair_apply_left (t := Cert.ReferenceIdeal.S512x2) (s₁ := Cert.ReferenceIdeal.S512x1)
    (s₂ := Cert.ReferenceIdeal.S512x1) (1 : Fin 2) _ _ _ (pAt i 0) rfl
    (ix2 (⟨(i 0).val, (i 0).isLt⟩ : Fin 512) (0 : Fin 1) : Cert.ReferenceIdeal.S512x1.Idx)
    (fun b => match b with | ⟨0, _⟩ => rfl | ⟨1, _⟩ => rfl), column_at]
  exact (row_word (⟨(i 0).val, (i 0).isLt⟩ : Fin 512)).symm

theorem pairs_pos (x1 : IVec S512x32 1) (i : S512x64.Idx) :
    pairsR x1 (pAt i 1) = posWord x1 (⟨(i 0).val, (i 0).isLt⟩ : Fin 512) := by
  unfold pairsR
  rw [concatenate_pair_apply_right (t := Cert.ReferenceIdeal.S512x2) (s₁ := Cert.ReferenceIdeal.S512x1)
    (s₂ := Cert.ReferenceIdeal.S512x1) (1 : Fin 2) _ _ _ (pAt i 1) rfl rfl
    (ix2 (⟨(i 0).val, (i 0).isLt⟩ : Fin 512) (0 : Fin 1) : Cert.ReferenceIdeal.S512x1.Idx)
    (fun b hb => match b, hb with | ⟨0, _⟩, _ => rfl | ⟨1, _⟩, hb => absurd rfl hb) rfl, column_at]
  rfl

/-- The kernel program's query lookup and the reference's read the same entries of `queries`. -/
theorem query_value (x0 : FVec Ideal S512x32x64 .f32) (x1 : IVec S512x32 1) :
    queryK x0 x1 = Host.gather Cert.ReferenceIdeal.gather_S512x32x64_S512x2_S512x64_1_01_n_n_01_1_1164 x0 (pairsR x1) := by
  funext i
  have hb : min (posWord x1 (⟨(i 0).val, (i 0).isLt⟩ : Fin 512)).toInt.toNat 31 < 32 := by omega
  rw [queryK_apply x0 x1 i ⟨_, hb⟩ rfl,
    gatherR_apply x0 (pairsR x1) i (⟨(i 0).val, (i 0).isLt⟩ : Fin 512) ⟨_, hb⟩ (pairs_row x1 i) (by rw [pairs_pos])]

section
variable (m : (ℓ : Loc nD τ sig) → Buf (Elt Ideal) ℓ) (c : Dev nD)

theorem query_eq : Gen.V5 m c main_v10
    = Cert.ReferenceIdeal.HandRun.queryOf (F := Ideal) (m ((c.tc : Thread nD τ).loc main_arg0))
        (m ((c.tc : Thread nD τ).loc main_arg1)) := by
  rw [query_kernel m c, query_value]
  rfl

theorem take_eq
    (hfp : ∀ a : S16384.Idx, (4294963200#32).sle (m ((c.tc : Thread nD τ).loc main_arg17) a) = true
      ∧ (m ((c.tc : Thread nD τ).loc main_arg17) a).slt 4096#32 = true) :
    Gen.V6 m c main_v11
      = Cert.ReferenceIdeal.HandRun.embOf (F := Ideal) (m ((c.tc : Thread nD τ).loc main_arg2))
          (m ((c.tc : Thread nD τ).loc main_arg17)) := by
  rw [take_kernel m c, takeK_eq _ _ hfp]
  rfl

end

end Cert.KernelIdeal.Gathers

end
-- ==== Proof.GnnValue.lean ====
import proofs.«421360_j76029511074377_3_alg».proof.Proof.Arr
import proofs.«421360_j76029511074377_3_alg».proof.Proof.Gen.ReferenceIdeal
import Idealize.ShloMosaic.Lib.ValueIdx
import Idealize.ShloMosaic.Lib.Pipeline.Value
import Idealize.ShloMosaic.PureOps.Ideal.Laws
import Mathlib.Algebra.BigOperators.Fin

noncomputable section

namespace Cert.KernelIdeal.GnnValue

open Idealize.ShloMosaic Idealize.ShloMosaic.ValueIdx Cert.KernelIdeal Cert.KernelIdeal.Gen

/-- A sum over 16384 terms is the sum of its two halves. -/
theorem sum_halves (f : Fin 16384 → EReal) :
    ∑ k, f k = ∑ k : Fin 8192, f ⟨k.val, by have := k.isLt; omega⟩
      + ∑ k : Fin 8192, f ⟨8192 + k.val, by have := k.isLt; omega⟩ :=
  Fin.sum_univ_add (a := 8192) (b := 8192) f

local notation "𝔻" => dot_S256x8192_S8192x64_S256x64_1_0_0_1_n_n

theorem bandDot_lhs0 (y : S256x64.Idx) (k : (𝔻).contr.Idx) : ((𝔻).lhsIdx y k 0).val = (y 0).val := by
  unfold DotDims.lhsIdx
  rw [dif_neg (show ¬(0 : Fin S256x8192.rank) ∈ (𝔻).lhsBatch by decide),
    dif_pos (show (0 : Fin S256x8192.rank) ∈ (𝔻).lhsNonContracting by decide)]
  rfl
theorem bandDot_lhs1 (y : S256x64.Idx) (k : (𝔻).contr.Idx) : ((𝔻).lhsIdx y k 1).val = (k ⟨0, by decide⟩).val :=
  (𝔻).lhsIdx_val_of_single rfl y k
theorem bandDot_rhs0 (y : S256x64.Idx) (k : (𝔻).contr.Idx) : ((𝔻).rhsIdx y k 0).val = (k ⟨0, by decide⟩).val :=
  (𝔻).rhsIdx_val_of_single rfl y k
theorem bandDot_rhs1 (y : S256x64.Idx) (k : (𝔻).contr.Idx) : ((𝔻).rhsIdx y k 1).val = (y 1).val := by
  unfold DotDims.rhsIdx
  rw [dif_neg (show ¬(1 : Fin S8192x64.rank) ∈ (𝔻).rhsBatch by decide),
    dif_pos (show (1 : Fin S8192x64.rank) ∈ (𝔻).rhsNonContracting by decide)]
  rfl

theorem bandDot_sum (a : Vec Ideal S256x8192 .f32) (b : Vec Ideal S8192x64 .f32) (p : Fin 256) (q : Fin 64) :
    ∑ k : (𝔻).contr.Idx, a ((𝔻).lhsIdx (ix2 p q) k) * b ((𝔻).rhsIdx (ix2 p q) k)
      = ∑ k : Fin 8192, a (ix2 p k) * b (ix2 k q) := by
  rw [← Equiv.sum_comp (contrEquiv1 (𝔻) 8192 rfl rfl).symm]
  refine Finset.sum_congr rfl fun k _ => ?_
  have hk := contrEquiv1_symm_val (𝔻) 8192 rfl rfl k
  have el : (𝔻).lhsIdx (ix2 p q) ((contrEquiv1 (𝔻) 8192 rfl rfl).symm k) = ix2 p k :=
    Shape.idx_ext₂ (bandDot_lhs0 _ _) ((bandDot_lhs1 _ _).trans hk)
  have er : (𝔻).rhsIdx (ix2 p q) ((contrEquiv1 (𝔻) 8192 rfl rfl).symm k) = ix2 k q :=
    Shape.idx_ext₂ ((bandDot_rhs0 _ _).trans hk) (bandDot_rhs1 _ _)
  rw [el, er]

local notation "𝔼" => Cert.ReferenceIdeal.dot_S16384x16384_S16384x64_S16384x64_1_0_0_1_n_n

theorem wholeDot_lhs0 (y : S16384x64.Idx) (k : (𝔼).contr.Idx) : ((𝔼).lhsIdx y k 0).val = (y 0).val := by
  unfold DotDims.lhsIdx
  rw [dif_neg (show ¬(0 : Fin S16384x16384.rank) ∈ (𝔼).lhsBatch by decide),
    dif_pos (show (0 : Fin S16384x16384.rank) ∈ (𝔼).lhsNonContracting by decide)]
  rfl
theorem wholeDot_lhs1 (y : S16384x64.Idx) (k : (𝔼).contr.Idx) : ((𝔼).lhsIdx y k 1).val = (k ⟨0, by decide⟩).val :=
  (𝔼).lhsIdx_val_of_single rfl y k
theorem wholeDot_rhs0 (y : S16384x64.Idx) (k : (𝔼).contr.Idx) : ((𝔼).rhsIdx y k 0).val = (k ⟨0, by decide⟩).val :=
  (𝔼).rhsIdx_val_of_single rfl y k
theorem wholeDot_rhs1 (y : S16384x64.Idx) (k : (𝔼).contr.Idx) : ((𝔼).rhsIdx y k 1).val = (y 1).val := by
  unfold DotDims.rhsIdx
  rw [dif_neg (show ¬(1 : Fin S16384x64.rank) ∈ (𝔼).rhsBatch by decide),
    dif_pos (show (1 : Fin S16384x64.rank) ∈ (𝔼).rhsNonContracting by decide)]
  rfl

theorem wholeDot_apply (adj : Vec Ideal S16384x16384 .f32) (h : Vec Ideal S16384x64 .f32) (r : Fin 16384) (q : Fin 64) :
    Host.dotGeneral (F := Ideal) (φ₁ := .f32) (φ₂ := .f32) (𝔼) none adj h (ix2 r q)
      = ∑ k : Fin 16384, adj (ix2 r k) * h (ix2 k q) := by
  refine (Ideal.dotGeneral_apply _ _ _ _ _ _).trans ?_
  rw [← Equiv.sum_comp (contrEquiv1 (𝔼) 16384 rfl rfl).symm]
  refine Finset.sum_congr rfl fun k _ => ?_
  have hk := contrEquiv1_symm_val (𝔼) 16384 rfl rfl k
  have el : (𝔼).lhsIdx (ix2 r q) ((contrEquiv1 (𝔼) 16384 rfl rfl).symm k) = ix2 r k :=
    Shape.idx_ext₂ (wholeDot_lhs0 _ _) ((wholeDot_lhs1 _ _).trans hk)
  have er : (𝔼).rhsIdx (ix2 r q) ((contrEquiv1 (𝔼) 16384 rfl rfl).symm k) = ix2 k q :=
    Shape.idx_ext₂ ((wholeDot_rhs0 _ _).trans hk) (wholeDot_rhs1 _ _)
  rw [el, er]

theorem k0_pay1_apply (y : S256x64.Idx) : k0_pay1 (F := Ideal) y = 0 := by
  unfold k0_pay1
  refine (congrFun (shapeCast_self _ _) y).trans ?_
  exact Ideal.ofBits_zero_f32

theorem k0_pay2_apply (v6 : Vec Ideal S8192x64 .f32) (v8 : Vec Ideal S256x64 .f32) (v9 : Vec Ideal S256x8192 .f32)
    (p : Fin 256) (q : Fin 64) :
    k0_pay2 v6 v8 v9 (ix2 p q) = v8 (ix2 p q) + ∑ k : Fin 8192, v9 (ix2 p k) * v6 (ix2 k q) := by
  unfold k0_pay2
  refine (congrFun (shapeCast_self _ _) (ix2 p q)).trans ?_
  refine (addf_apply _ _ _).trans ?_
  refine congrArg (v8 (ix2 p q) + ·) ?_
  refine (congrFun (congrArg (fun w : FVec Ideal S8192x64 .f32 =>
    matmul (φ₁ := .f32) (φ₂ := .f32) (𝔻) none v9 w (constant S256x64 .f32 0x00000000#32)) (shapeCast_self v6 _)) (ix2 p q)).trans ?_
  refine (Ideal.matmul_constant_zero_apply _ _ _ _ _).trans ?_
  exact bandDot_sum v9 v6 p q

theorem k0_pay3_apply (v21 v23 : Vec Ideal S256x64 .f32) (y : S256x64.Idx) : k0_pay3 v21 v23 y = v23 y + v21 y := by
  unfold k0_pay3
  refine (addf_apply _ _ _).trans ?_
  exact congrArg (v23 y + ·) (congrFun (shapeCast_self v21 _) y)

theorem gnnAcc0_two (adj : Vec Ideal S16384x16384 .f32) (h : Vec Ideal S16384x64 .f32) (i : Fin 64) :
    Arr.gnnAcc0 adj h i 2
      = k0_pay2 (Arr.rowsHalf h ⟨1, by decide⟩)
          (k0_pay2 (Arr.rowsHalf h ⟨0, by decide⟩) (k0_pay1 (F := Ideal)) (Arr.adjPiece adj i ⟨0, by decide⟩))
          (Arr.adjPiece adj i ⟨1, by decide⟩) := rfl

theorem gnnBand0_apply (adj : Vec Ideal S16384x16384 .f32) (h : Vec Ideal S16384x64 .f32) (i : Fin 64) (p : Fin 256)
    (q : Fin 64) (r : Fin 16384) (hr : r.val = 256 * i.val + p.val) :
    Arr.gnnBand0 adj h i (ix2 p q) = h (ix2 r q) + ∑ k : Fin 16384, adj (ix2 r k) * h (ix2 k q) := by
  unfold Arr.gnnBand0
  refine (k0_pay3_apply _ _ _).trans ?_
  rw [gnnAcc0_two]
  refine (congrArg (· + Arr.rowsBand h i (ix2 p q)) ((k0_pay2_apply _ _ _ p q).trans
    (congrArg (· + _) ((k0_pay2_apply _ _ _ p q).trans (congrArg (· + _) (k0_pay1_apply _)))))).trans ?_
  have hA : ∀ k : Fin 8192, Arr.adjPiece adj i ⟨0, by decide⟩ (ix2 p k) * Arr.rowsHalf h ⟨0, by decide⟩ (ix2 k q)
      = adj (ix2 r ⟨k.val, by have := k.isLt; omega⟩) * h (ix2 ⟨k.val, by have := k.isLt; omega⟩ q) := fun k => by
    refine congrArg₂ (· * ·) ?_ ?_
    · exact congrArg adj (Shape.idx_ext₂ (by show 256 * i.val + p.val = r.val; omega) (by show 8192 * 0 + k.val = k.val; omega))
    · exact congrArg h (Shape.idx_ext₂ (by show 8192 * 0 + k.val = k.val; omega) rfl)
  have hB : ∀ k : Fin 8192, Arr.adjPiece adj i ⟨1, by decide⟩ (ix2 p k) * Arr.rowsHalf h ⟨1, by decide⟩ (ix2 k q)
      = adj (ix2 r ⟨8192 + k.val, by have := k.isLt; omega⟩) * h (ix2 ⟨8192 + k.val, by have := k.isLt; omega⟩ q) := fun k => by
    refine congrArg₂ (· * ·) ?_ ?_
    · exact congrArg adj (Shape.idx_ext₂ (by show 256 * i.val + p.val = r.val; omega) (by show 8192 * 1 + k.val = 8192 + k.val; omega))
    · exact congrArg h (Shape.idx_ext₂ (by show 8192 * 1 + k.val = 8192 + k.val; omega) rfl)
  have hH : Arr.rowsBand h i (ix2 p q) = h (ix2 r q) :=
    congrArg h (Shape.idx_ext₂ (by show 256 * i.val + p.val = r.val; omega) rfl)
  rw [Finset.sum_congr rfl (fun k _ => hA k), Finset.sum_congr rfl (fun k _ => hB k), hH, zero_add,
    sum_halves (fun k => adj (ix2 r k) * h (ix2 k q))]
  exact add_comm _ _

/-- Band by band and half by half the accumulated products add up to the whole product: the result is `h + adj · h`. -/
theorem gnnOut0_eq (adj : Vec Ideal S16384x16384 .f32) (h : Vec Ideal S16384x64 .f32) :
    Arr.gnnOut0 (F := Ideal) adj h
      = addf (F := Ideal) (φ := .f32) h
          (Host.dotGeneral (F := Ideal) (φ₁ := .f32) (φ₂ := .f32)
            Cert.ReferenceIdeal.dot_S16384x16384_S16384x64_S16384x64_1_0_0_1_n_n none adj h) := by
  funext j
  obtain ⟨r, q, rfl⟩ : ∃ r q, j = ix2 r q := ⟨j 0, j 1, eq_ix2 j⟩
  refine ((addf_apply _ _ _).trans (congrArg (h (ix2 r q) + ·) (wholeDot_apply adj h r q))).symm ▸ ?_
  exact gnnBand0_apply adj h ⟨r.val / 256, by have := r.isLt; omega⟩ ⟨r.val % 256, Nat.mod_lt _ (by norm_num)⟩ q r
    (by show r.val = 256 * (r.val / 256) + r.val % 256; omega)

theorem gnnOut1_eq_gnnOut0 (adj : Vec Ideal S16384x16384 .f32) (h : Vec Ideal S16384x64 .f32) :
    Arr.gnnOut1 (F := Ideal) adj h = Arr.gnnOut0 (F := Ideal) adj h := rfl

theorem gnnOut1_eq (adj : Vec Ideal S16384x16384 .f32) (h : Vec Ideal S16384x64 .f32) :
    Arr.gnnOut1 (F := Ideal) adj h
      = addf (F := Ideal) (φ := .f32) h
          (Host.dotGeneral (F := Ideal) (φ₁ := .f32) (φ₂ := .f32)
            Cert.ReferenceIdeal.dot_S16384x16384_S16384x64_S16384x64_1_0_0_1_n_n none adj h) :=
  (gnnOut1_eq_gnnOut0 adj h).trans (gnnOut0_eq adj h)

end Cert.KernelIdeal.GnnValue

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowGather
variable {α : Type}

abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>

    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>

    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

section RowScatter

abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

section VecScatter

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.SegValue.lean ====
import proofs.«421360_j76029511074377_3_alg».proof.Proof.Arr
import proofs.«421360_j76029511074377_3_alg».proof.Proof.LibRows
import proofs.«421360_j76029511074377_3_alg».proof.ReferenceIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.SegValue

open Idealize.ShloMosaic Idealize.ShloMosaic.ValueIdx Cert.KernelIdeal Cert.KernelIdeal.Gen

theorem toInt_ofNat_row (m : ℕ) (hm : m < 1024) : (BitVec.ofNat 32 m).toInt = (m : ℤ) := by
  rw [BitVec.toInt_ofNat']
  have h : ((m : ℤ)).bmod (2 ^ 32) = (m : ℤ) := by
    apply Int.bmod_eq_of_le <;> omega
  exact h

theorem ofNat_eq_iff (m : ℕ) (hm : m < 1024) (w : BitVec 32) : BitVec.ofNat 32 m = w ↔ w.toInt = (m : ℤ) := by
  constructor
  · rintro rfl; exact toInt_ofNat_row m hm
  · intro h; exact BitVec.eq_of_toInt_eq ((toInt_ofNat_row m hm).trans h.symm)

theorem indicator_eq (m : ℕ) (hm : m < 1024) (w : BitVec 32) :
    FloatOps.sitofp (F := Ideal) .f32 ((IntOp.cmpi .eq (BitVec.ofNat 32 m) w).setWidth 32)
      = if w.toInt = (m : ℤ) then (1 : EReal) else 0 := by
  by_cases h : BitVec.ofNat 32 m = w
  · rw [if_pos ((ofNat_eq_iff m hm w).mp h)]
    have e : IntOp.cmpi .eq (BitVec.ofNat 32 m) w = 1#1 := by simp [IntOp.cmpi, h]
    rw [e]
    show (((((1#1 : BitVec 1).setWidth 32).toInt : ℝ)) : EReal) = 1
    have e1 : ((1#1 : BitVec 1).setWidth 32).toInt = 1 := by decide
    rw [e1]; simp
  · rw [if_neg (fun hh => h ((ofNat_eq_iff m hm w).mpr hh))]
    have e : IntOp.cmpi .eq (BitVec.ofNat 32 m) w = 0#1 := by
      have hb : (BitVec.ofNat 32 m == w) = false := beq_eq_false_iff_ne.mpr h
      simp [IntOp.cmpi, hb]
    rw [e]
    show (((((0#1 : BitVec 1).setWidth 32).toInt : ℝ)) : EReal) = 0
    have e0 : ((0#1 : BitVec 1).setWidth 32).toInt = 0 := by decide
    rw [e0]; simp

theorem lhs_seg_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_seg_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_seg_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_seg_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

theorem matmul_seg_apply (L : FVec Ideal S1024x2048 .bf16) (R : FVec Ideal S2048x64 .bf16) (m : Fin 1024) (q : Fin 64) :
    matmul dot_S1024x2048_S2048x64_S1024x64_1_0_0_1_n_n none L R (constant (F := Ideal) S1024x64 .f32 0x00000000#32) (ix2 m q)
      = ∑ a : Fin 2048, L (ix2 m a) * R (ix2 a q) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 m q) ((ValueIdx.contrEquiv1 dot_S1024x2048_S2048x64_S1024x64_1_0_0_1_n_n 2048 rfl rfl).symm k) = ix2 m k := funext fun a => Fin.ext (by
    match a with
    | ⟨0, _⟩ => exact lhs_seg_0 _ _
    | ⟨1, _⟩ => exact (lhs_seg_1 _ _).trans hk)
  have er : dot_S1024x2048_S2048x64_S1024x64_1_0_0_1_n_n.rhsIdx (ix2 m q) ((ValueIdx.contrEquiv1 dot_S1024x2048_S2048x64_S1024x64_1_0_0_1_n_n 2048 rfl rfl).symm k) = ix2 k q := funext fun a => Fin.ext (by
    match a with
    | ⟨0, _⟩ => exact (rhs_seg_0 _ _).trans hk
    | ⟨1, _⟩ => exact rhs_seg_1 _ _)
  rw [el, er]

theorem onehot_apply (v4 : Vec Ideal S1x2048 .i32) (m : Fin 1024) (a : Fin 2048) :
    (truncf .bf16 (sitofp (F := Ideal) .f32 (extui 32 (cmpi .eq (iota .tc S1024x2048 32 [0] Facts₀.iota_S1024x2048_d0_w32)
        (broadcastTo S1024x2048 v4 Facts₀.broadcasts_S1x2048_S1024x2048)) Facts₀.natLt_1_32)) Facts₀.bitsLt_bf16_f32 : FVec Ideal S1024x2048 .bf16) (ix2 m a)
      = if (v4 (ix2 (0 : Fin 1) a)).toInt = (m.val : ℤ) then (1 : EReal) else 0 := by
  rw [truncf_apply, sitofp_apply, extui_apply]
  show FloatOps.sitofp (F := Ideal) .f32 ((IntOp.cmpi .eq (iota .tc S1024x2048 32 [0] Facts₀.iota_S1024x2048_d0_w32 (ix2 m a))
      (broadcastTo S1024x2048 v4 Facts₀.broadcasts_S1x2048_S1024x2048 (ix2 m a))).setWidth 32) = _
  rw [iota_single_apply, broadcastTo_1b_ab_apply]
  exact indicator_eq m.val m.isLt _

theorem pay2_apply (v4 : Vec Ideal S1x2048 .i32) (v12 : Vec Ideal S2048x64 .f32) (v15 : Vec Ideal S1024x64 .f32)
    (m : Fin 1024) (q : Fin 64) :
    k2_pay2 (F := Ideal) v4 v12 v15 (ix2 m q)
      = v15 (ix2 m q) + ∑ a : Fin 2048, (if (v4 (ix2 (0 : Fin 1) a)).toInt = (m.val : ℤ) then (1 : EReal) else 0) * v12 (ix2 a q) := by
  unfold k2_pay2
  simp only [shapeCast_self]
  rw [addf_apply, matmul_seg_apply]
  refine congrArg (v15 (ix2 m q) + ·) (Finset.sum_congr rfl fun a _ => ?_)
  rw [onehot_apply, truncf_apply]

theorem pay1_apply (j : S1024x64.Idx) : k2_pay1 (F := Ideal) j = 0 := by
  unfold k2_pay1
  simp only [shapeCast_self]
  exact Ideal.ofBits_zero_f32

def atomTerm (x : Vec Ideal S16384x64 .f32) (seg : IVec S16384 32) (m : Fin 1024) (q : Fin 64) (a : Fin 16384) : EReal :=
  if (seg (ix1 a)).toInt = (m.val : ℤ) then x (ix2 a q) else 0

def pieceSum (x : Vec Ideal S16384x64 .f32) (seg : IVec S16384 32) (m : Fin 1024) (q : Fin 64) (k : ℕ) : EReal :=
  if hk : k < 8 then ∑ a : Fin 2048, atomTerm x seg m q ⟨2048 * k + a.val, by have := a.isLt; omega⟩ else 0

def atomEquiv : Fin 8 × Fin 2048 ≃ Fin 16384 where
  toFun p := ⟨2048 * p.1.val + p.2.val, by have := p.1.isLt; have := p.2.isLt; omega⟩
  invFun a := (⟨a.val / 2048, by have := a.isLt; omega⟩, ⟨a.val % 2048, Nat.mod_lt _ (by norm_num)⟩)
  left_inv p := by
    have := p.1.isLt; have := p.2.isLt
    refine Prod.ext (Fin.ext ?_) (Fin.ext ?_)
    · show (2048 * p.1.val + p.2.val) / 2048 = p.1.val
      omega
    · show (2048 * p.1.val + p.2.val) % 2048 = p.2.val
      omega
  right_inv a := Fin.ext (by
    show 2048 * (a.val / 2048) + a.val % 2048 = a.val
    omega)

theorem sum_atoms (g : Fin 16384 → EReal) :
    ∑ a, g a = ∑ k : Fin 8, ∑ a : Fin 2048, g ⟨2048 * k.val + a.val, by have := k.isLt; have := a.isLt; omega⟩ := by
  rw [← Equiv.sum_comp atomEquiv g, Fintype.sum_prod_type]
  rfl

theorem colsPiece_seg_apply (seg : IVec S16384 32) (k : Fin 8) (a : Fin 2048) :
    Arr.colsPiece (F := Ideal) (shapeCast S1x16384 seg Facts₀.shapeCasts_S16384_S1x16384) k (ix2 (0 : Fin 1) a)
      = seg (ix1 ⟨2048 * k.val + a.val, by have := k.isLt; have := a.isLt; omega⟩) :=
  shapeCast_a_1a_apply seg Facts₀.shapeCasts_S16384_S1x16384 _ _

theorem rowsPiece_apply (x : Vec Ideal S16384x64 .f32) (k : Fin 8) (a : Fin 2048) (q : Fin 64) :
    Arr.rowsPiece x k (ix2 a q) = x (ix2 (⟨2048 * k.val + a.val, by have := k.isLt; have := a.isLt; omega⟩ : Fin 16384) q) := rfl

theorem segAcc_apply (x : Vec Ideal S16384x64 .f32) (seg : IVec S16384 32) (m : Fin 1024) (q : Fin 64) (n : ℕ) :
    Arr.segAcc (F := Ideal) x (shapeCast S1x16384 seg Facts₀.shapeCasts_S16384_S1x16384) n (ix2 m q)
      = ∑ k ∈ Finset.range n, pieceSum x seg m q k := by
  induction n with
  | zero =>
    show k2_pay1 (F := Ideal) (ix2 m q) = _
    rw [pay1_apply, Finset.sum_range_zero]
  | succ n ih =>
    rw [Finset.sum_range_succ, ← ih]
    by_cases hn : n < 8
    · show (if hn : n < 8 then k2_pay2 (Arr.colsPiece (shapeCast S1x16384 seg Facts₀.shapeCasts_S16384_S1x16384) ⟨n, hn⟩) (Arr.rowsPiece x ⟨n, hn⟩)
          (Arr.segAcc (F := Ideal) x (shapeCast S1x16384 seg Facts₀.shapeCasts_S16384_S1x16384) n)
        else Arr.segAcc (F := Ideal) x (shapeCast S1x16384 seg Facts₀.shapeCasts_S16384_S1x16384) n) (ix2 m q) = _
      rw [dif_pos hn, pay2_apply]
      unfold pieceSum
      rw [dif_pos hn]
      refine congrArg (_ + ·) (Finset.sum_congr rfl fun a _ => ?_)
      rw [colsPiece_seg_apply, rowsPiece_apply]
      unfold atomTerm
      split
      · exact one_mul _
      · exact zero_mul _
    · show (if hn : n < 8 then k2_pay2 (Arr.colsPiece (shapeCast S1x16384 seg Facts₀.shapeCasts_S16384_S1x16384) ⟨n, hn⟩) (Arr.rowsPiece x ⟨n, hn⟩)
          (Arr.segAcc (F := Ideal) x (shapeCast S1x16384 seg Facts₀.shapeCasts_S16384_S1x16384) n)
        else Arr.segAcc (F := Ideal) x (shapeCast S1x16384 seg Facts₀.shapeCasts_S16384_S1x16384) n) (ix2 m q) = _
      rw [dif_neg hn]
      unfold pieceSum
      rw [dif_neg hn, add_zero]

theorem segOut_apply (x : Vec Ideal S16384x64 .f32) (seg : IVec S16384 32) (m : Fin 1024) (q : Fin 64) :
    Arr.segOut (F := Ideal) x (shapeCast S1x16384 seg Facts₀.shapeCasts_S16384_S1x16384) (ix2 m q)
      = ∑ a : Fin 16384, atomTerm x seg m q a := by
  show Arr.segAcc (F := Ideal) x (shapeCast S1x16384 seg Facts₀.shapeCasts_S16384_S1x16384) 8 (ix2 m q) = _
  rw [segAcc_apply, sum_atoms, Finset.sum_range]
  refine Finset.sum_congr rfl fun k _ => ?_
  unfold pieceSum
  rw [dif_pos k.isLt]

variable [Cert.ReferenceIdeal.Facts₀]

theorem scatter_read (x0 : Vec Ideal S1024x64 .f32) (idx : IVec S16384x1 32) (upd : Vec Ideal S16384x64 .f32) (m : Fin 1024) (q : Fin 64) :
    Host.scatterAdd (F := Ideal) (φ := .f32) Cert.ReferenceIdeal.scatter_S1024x64_S16384x1_S16384x64_1_0_0_1 x0 idx upd (ix2 m q)
      = x0 (ix2 m q) + ∑ p : Fin 16384, if (idx (ix2 p (0 : Fin 1))).toInt = (m.val : ℤ) then upd (ix2 p q) else 0 :=
  Cert.LibRows.rowScatterAdd_apply Cert.ReferenceIdeal.Facts₀.scatter_S1024x64_S16384x1_S16384x64_1_0_0_1_wf x0 idx upd m q

theorem zeros_apply (j : S1024x64.Idx) :
    broadcastInDim S1024x64 ![] Cert.ReferenceIdeal.Facts₀.bcast_S_S1024x64 (constant (F := Ideal) S_ .f32 0x00000000#32) j = (0 : EReal) :=
  (broadcastInDim_apply _ Cert.ReferenceIdeal.Facts₀.bcast_S_S1024x64 (constant (F := Ideal) S_ .f32 0x00000000#32) j ix0
    (fun a => a.elim0)).trans Ideal.ofBits_zero_f32

theorem idsColumn_apply (seg : IVec S16384 32) (p : Fin 16384) :
    broadcastInDim S16384x1 ![0] Cert.ReferenceIdeal.Facts₀.bcast_S16384_S16384x1_0 seg (ix2 p (0 : Fin 1)) = seg (ix1 p) :=
  broadcastInDim_apply _ Cert.ReferenceIdeal.Facts₀.bcast_S16384_S16384x1_0 seg (ix2 p (0 : Fin 1)) (ix1 p) (fun a => by
    match a with
    | ⟨0, _⟩ =>
      show p.val = if (16384 : ℕ) = 1 then 0 else p.val
      rw [if_neg (by decide)])

theorem scatter_apply (x : Vec Ideal S16384x64 .f32) (seg : IVec S16384 32) (m : Fin 1024) (q : Fin 64) :
    Host.scatterAdd (F := Ideal) (φ := .f32) Cert.ReferenceIdeal.scatter_S1024x64_S16384x1_S16384x64_1_0_0_1
        (broadcastInDim S1024x64 ![] Cert.ReferenceIdeal.Facts₀.bcast_S_S1024x64 (constant (F := Ideal) S_ .f32 0x00000000#32))
        (broadcastInDim S16384x1 ![0] Cert.ReferenceIdeal.Facts₀.bcast_S16384_S16384x1_0 seg) x (ix2 m q)
      = ∑ a : Fin 16384, atomTerm x seg m q a := by
  rw [scatter_read, zeros_apply, zero_add]
  refine Finset.sum_congr rfl fun p _ => ?_
  rw [idsColumn_apply]
  rfl

/-- Adding indicator products over the eight pieces, and adding each atom's row at its segment id, are the same sum over all atoms. -/
theorem segOut_eq (x : Vec Ideal S16384x64 .f32) (seg : IVec S16384 32) :
    Arr.segOut (F := Ideal) x (shapeCast S1x16384 seg Cert.KernelIdeal.Facts₀.shapeCasts_S16384_S1x16384)
      = Host.scatterAdd (F := Ideal) (φ := .f32) Cert.ReferenceIdeal.scatter_S1024x64_S16384x1_S16384x64_1_0_0_1
          (broadcastInDim S1024x64 ![] Cert.ReferenceIdeal.Facts₀.bcast_S_S1024x64 (constant (F := Ideal) S_ .f32 0x00000000#32))
          (broadcastInDim S16384x1 ![0] Cert.ReferenceIdeal.Facts₀.bcast_S16384_S16384x1_0 seg) x := by
  funext j
  obtain ⟨m, q, rfl⟩ : ∃ (m : Fin 1024) (q : Fin 64), j = ix2 m q := ⟨j 0, j 1, eq_ix2 j⟩
  rw [segOut_apply, scatter_apply]

end Cert.KernelIdeal.SegValue

end
-- ==== Proof.LinValue.lean ====
import proofs.«421360_j76029511074377_3_alg».proof.Proof.Arr
import proofs.«421360_j76029511074377_3_alg».proof.Proof.Spec
import proofs.«421360_j76029511074377_3_alg».proof.Proof.Gen.ReferenceIdeal
import Idealize.ShloMosaic.PureOps.Ideal.Laws
import Idealize.ShloMosaic.Lib.IdealHost
import Idealize.ShloMosaic.Lib.Pipeline.Value

noncomputable section

namespace Cert.KernelIdeal.LinValue

open Idealize.ShloMosaic Idealize.ShloMosaic.ValueIdx Cert.KernelIdeal Cert.KernelIdeal.Gen

theorem dims_eq : Cert.KernelIdeal.dot_S512x1024_S1024x512_S512x512_1_0_0_1_n_n
    = Cert.ReferenceIdeal.dot_S512x1024_S1024x512_S512x512_1_0_0_1_n_n := rfl

/-- Entry by entry both sides are the logistic of the masked product times the attention map. -/
theorem linOut_eq (bip : Vec Ideal S512x1024 .f32) (bow maskT : Vec Ideal S1024x512 .f32) (att : Vec Ideal S512x512 .f32) :
    Arr.linOut (F := Ideal) bip bow maskT att = Cert.Spec.outOf (F := Ideal) bip bow maskT att := by
  funext i
  unfold Arr.linOut k3_pay1 Cert.Spec.outOf
  simp only [shapeCast_self]
  rw [dims_eq]
  simp only [logistic, mulf, truncf, matmul, Host.divf, Host.exp, Host.negf, Host.dotGeneral, addf, constant,
    broadcastInDim_scalar_apply, Ideal.matmul_apply, Ideal.dotGeneral_apply,
    Ideal.logistic_def, Ideal.mulf_def, Ideal.truncf_def, Ideal.hostDivf_def, Ideal.hostUnary_exp_def, Ideal.hostNegf_def,
    Ideal.negf_def, Ideal.addf_def, Ideal.ofBits_def, Ideal.ofBits_zero_f32, Ideal.ofBits_one_f32, Ideal.logistic, zero_add]

  rw [broadcastInDim_scalar_apply]
  simp only [constant, Ideal.ofBits_def, Ideal.ofBits_one_f32]

end Cert.KernelIdeal.LinValue

end
-- ==== Proof.Bridge.lean ====
import proofs.«421360_j76029511074377_3_alg».proof.Proof.Run
import proofs.«421360_j76029511074377_3_alg».proof.Proof.R0Value
import proofs.«421360_j76029511074377_3_alg».proof.Proof.R1Value
import proofs.«421360_j76029511074377_3_alg».proof.Proof.R2Value
import proofs.«421360_j76029511074377_3_alg».proof.Proof.R3Value
import proofs.«421360_j76029511074377_3_alg».proof.Proof.HostChains
import proofs.«421360_j76029511074377_3_alg».proof.Proof.Gathers
import proofs.«421360_j76029511074377_3_alg».proof.Proof.GnnValue
import proofs.«421360_j76029511074377_3_alg».proof.Proof.SegValue
import proofs.«421360_j76029511074377_3_alg».proof.Proof.LinValue

noncomputable section

namespace Cert.KernelIdeal.Bridge

open Idealize.ShloMosaic Idealize.ShloMosaic.TcCoe Idealize.SL.Sem Idealize.ShloMosaic.StableHlo
open Cert.KernelIdeal Cert.KernelIdeal.Gen
open Cert.ReferenceIdeal.HandRun (queryOf embOf aggOf molOf)
open Cert.Spec (hOf attOf bipOf maskTOf outOf)

variable (m : (ℓ : Loc nD τ sig) → Buf (Elt Ideal) ℓ) (c : Dev nD)

set_option quotPrecheck false
local notation:max "𝐱" k:max => m ((c.tc : Thread nD τ).loc k)

theorem outs9 : Run.outs m 9 main_v17 c = Run.o9 m c := Run.W9_out m c
theorem outs12 : Run.outs m 12 main_v23 c = Run.o12 m c := Run.W12_out m c
theorem outs14 : Run.outs m 14 main_v25 c = Run.o14 m c := Run.W14_out m c

/-- Region 0 leaves the first graph layer of the looked-up embeddings: the banded products are one whole product. -/
theorem o9_eq (hfp : ∀ a : S16384.Idx, (4294963200#32).sle (m ((c.tc : Thread nD τ).loc main_arg17) a) = true
      ∧ (m ((c.tc : Thread nD τ).loc main_arg17) a).slt 4096#32 = true) :
    Run.o9 m c = aggOf (𝐱 main_arg7) (hOf (embOf (𝐱 main_arg2) (𝐱 main_arg17)) (𝐱 main_arg3) (𝐱 main_arg4)) := by
  have h : Run.o9 m c = Arr.gnnOut0 (Gen.V8 m c main_arg7) (Gen.V8 m c main_v16) := R0.arrAt_out (fun c b => Gen.V8 m c b) c
  rw [h, HostChains.V8_main_arg7, HostChains.V8_main_v16, Gathers.take_eq m c hfp, GnnValue.gnnOut0_eq] <;> rfl

/-- Region 1 leaves the second graph layer of what region 0 left. -/
theorem o12_eq (hfp : ∀ a : S16384.Idx, (4294963200#32).sle (m ((c.tc : Thread nD τ).loc main_arg17) a) = true
      ∧ (m ((c.tc : Thread nD τ).loc main_arg17) a).slt 4096#32 = true) :
    Run.o12 m c = aggOf (𝐱 main_arg7) (hOf (aggOf (𝐱 main_arg7) (hOf (embOf (𝐱 main_arg2) (𝐱 main_arg17)) (𝐱 main_arg3) (𝐱 main_arg4))) (𝐱 main_arg5) (𝐱 main_arg6)) := by
  have h : Run.o12 m c = Arr.gnnOut1 (Run.W11 m c main_arg7) (Run.W11 m c main_v22) := R1.arrAt_out (fun c b => Run.W11 m c b) c
  rw [h, ← Run.V11_eq, HostChains.V11_main_arg7, HostChains.V11_main_v22, outs9, o9_eq m c hfp, GnnValue.gnnOut1_eq] <;> rfl

/-- Region 2 leaves region 1's rows summed by molecule. -/
theorem o14_eq (hfp : ∀ a : S16384.Idx, (4294963200#32).sle (m ((c.tc : Thread nD τ).loc main_arg17) a) = true
      ∧ (m ((c.tc : Thread nD τ).loc main_arg17) a).slt 4096#32 = true) :
    Run.o14 m c = molOf (𝐱 main_arg2) (𝐱 main_arg3) (𝐱 main_arg4) (𝐱 main_arg5) (𝐱 main_arg6) (𝐱 main_arg7) (𝐱 main_arg17) (𝐱 main_arg18) := by
  have h : Run.o14 m c = Arr.segOut (Run.W13 m c main_v23) (Run.W13 m c main_v24) := R2.arrAt_out (fun c b => Run.W13 m c b) c
  rw [h, ← Run.V13_eq, HostChains.V13_main_v23, HostChains.V13_main_v24, outs12, o12_eq m c hfp, SegValue.segOut_eq] <;> rfl

/-- The kernel program's result array is the reference's result term of the nineteen argument arrays. -/
theorem result_eq (hfp : ∀ a : S16384.Idx, (4294963200#32).sle (m ((c.tc : Thread nD τ).loc main_arg17) a) = true
      ∧ (m ((c.tc : Thread nD τ).loc main_arg17) a).slt 4096#32 = true) :
    Run.o16 m c
    = outOf (bipOf (queryOf (𝐱 main_arg0) (𝐱 main_arg1)) (𝐱 main_arg10) (𝐱 main_arg11)) (𝐱 main_arg12) (maskTOf (𝐱 main_arg9))
        (attOf (queryOf (𝐱 main_arg0) (𝐱 main_arg1)) (molOf (𝐱 main_arg2) (𝐱 main_arg3) (𝐱 main_arg4) (𝐱 main_arg5) (𝐱 main_arg6) (𝐱 main_arg7) (𝐱 main_arg17) (𝐱 main_arg18)) (𝐱 main_arg8) (𝐱 main_arg13) (𝐱 main_arg14) (𝐱 main_arg15) (𝐱 main_arg16)) := by
  have h : Run.o16 m c = Arr.linOut (Run.W15 m c main_v67) (Run.W15 m c main_arg12) (Run.W15 m c main_v68) (Run.W15 m c main_v63) :=
    R3.arrAt_out (fun c b => Run.W15 m c b) c
  rw [h, ← Run.V15_eq, HostChains.V15_main_v67, HostChains.V15_main_arg12, HostChains.V15_main_v68, HostChains.V15_main_v63,
    Gathers.query_eq m c, outs14, o14_eq m c hfp, LinValue.linOut_eq] <;> rfl

end Cert.KernelIdeal.Bridge

end
-- ==== Proof.lean ====
import proofs.«421360_j76029511074377_3_alg».proof.Defs
import proofs.«421360_j76029511074377_3_alg».proof.Proof.Gen.Kernel
import proofs.«421360_j76029511074377_3_alg».proof.Proof.Gen.KernelIdeal
import proofs.«421360_j76029511074377_3_alg».proof.Proof.Gen.ReferenceIdeal
import proofs.«421360_j76029511074377_3_alg».proof.Proof.Gen.Pre_finite_inputs
import proofs.«421360_j76029511074377_3_alg».proof.Proof.KRun
import proofs.«421360_j76029511074377_3_alg».proof.Proof.Run
import proofs.«421360_j76029511074377_3_alg».proof.Proof.RefRunHand
import proofs.«421360_j76029511074377_3_alg».proof.Proof.GatherPre
import proofs.«421360_j76029511074377_3_alg».proof.Proof.Bridge

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run (Cert.Kernel.defs (F := Bits)) _ _).mono (fun _ h c => (h c).2) (Cert.Kernel.Run.run (F := Bits) m ρ)

theorem frame_ki : Cert.frame_KernelIdeal := fun m ρ _ =>
  (θ_run (Cert.KernelIdeal.defs (F := Ideal)) _ _).mono (fun _ h c => (h c).2) (Cert.KernelIdeal.Run.run (F := Ideal) m ρ)

theorem frame_ri : Cert.frame_ReferenceIdeal := fun m ρ _ =>
  (θ_run (Cert.ReferenceIdeal.defs (F := Ideal)) _ _).mono (fun _ h c => (h c).2) (Cert.ReferenceIdeal.HandRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Run.o16 m c, Cert.KernelIdeal.Run.run (F := Ideal) m ρ, ?_⟩
  refine (θ_run (Cert.ReferenceIdeal.defs (F := Ideal)) _ _).mono (fun _ h c => ⟨(h c).1.trans ?_, (h c).2⟩)
    (Cert.ReferenceIdeal.HandRun.run (F := Ideal) m' ρ')
  have hfp := Cert.KernelIdeal.Gathers.fp_range_of_pre _ _ _ _ _ _ _ _ _ _ _ _ _ _ _ _ _ _ _ (hpre c)
  obtain ⟨h0, h1, h2, h3, h4, h5, h6, h7, h8, h9, h10, h11, h12, h13, h14, h15, h16, h17, h18⟩ := hagree c
  unfold Cert.ReferenceIdeal.HandRun.refResult
  rw [h0, h1, h2, h3, h4, h5, h6, h7, h8, h9, h10, h11, h12, h13, h14, h15, h16, h17, h18]
  exact (Cert.KernelIdeal.Bridge.result_eq m c hfp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
